-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v71_0)) (v2 : (c : Dev Cert.KernelIdeal.nD) → Buf (Elt Ideal) ((c.tc : Thread Cert.KernelIdeal.nD Cert.KernelIdeal.τ).loc Cert.KernelIdeal.main_v71_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v71_0) = v1 c
          ∧ r.2.mem ((c.tc : Thread Cert.KernelIdeal.nD Cert.KernelIdeal.τ).loc Cert.KernelIdeal.main_v71_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S131072x128 : Shape := ⟨2, ![131072, 128]⟩
abbrev S128x1024 : Shape := ⟨2, ![128, 1024]⟩
abbrev S128 : Shape := ⟨1, ![128]⟩
abbrev S1x1024 : Shape := ⟨2, ![1, 1024]⟩
abbrev S1 : Shape := ⟨1, ![1]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S131072x128 : S_.BroadcastsInDim S131072x128 (![] : Fin 0 → Fin S131072x128.rank)
  reducesTo_S131072x128_S_d0_1 : S131072x128.ReducesTo [0, 1] S_
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S128 .f32) (main_v48 : IVec S_ 1) (main_v49 : FVec F S128x1024 .f32) (main_v50 : FVec F S128x1024 .f32) : IVec S_ 1 :=
  let main_v51 : IVec S128x1024 1 := cmpf .olt main_v49 main_v50
  let main_c_19 : IVec S_ 1 := constantI S_ 1 1#1
  let main_v52 : IVec S_ 1 := (fun x v => Host.reduce IntOp.andi x v reducesTo_S128x1024_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S1 .f32) (main_arg8 : FVec F S128x1024 .f32) (main_arg9 : FVec F S128 .f32) (main_arg10 : FVec F S128x1024 .f32) (main_arg11 : FVec F S128 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x1024 .f32 := Host.absf main_arg8
  let main_cst_14 : FVec F S_ .f32 := constant S_ .f32 0x7F800000#32
  let main_v40 : FVec F S128x1024 .f32 := broadcastInDim S128x1024 ![] bcast_S_S128x1024 main_cst_14
  let main_v41 : IVec S128x1024 1 := cmpf .olt main_v39 main_v40
  let main_c_15 : IVec S_ 1 := constantI S_ 1 1#1
  let main_v42 : IVec S_ 1 := (fun x v => Host.reduce IntOp.andi x v reducesTo_S128x1024_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1024 .f32 := Host.absf main_arg10
  let main_cst_18 : FVec F S_ .f32 := constant S_ .f32 0x7F800000#32
  let main_v50 : FVec F S128x1024 .f32 := broadcastInDim S128x1024 ![] bcast_S_S128x1024 main_cst_18
  fn_part3 (F := F) main_arg11 main_v48 main_v49 main_v50

def fn_part1 {F : FTy → Type} [FloatOps F] (main_arg4 : FVec F S128x1024 .f32) (main_arg5 : FVec F S128 .f32) (main_arg6 : FVec F S1x1024 .f32) (main_arg7 : FVec F S1 .f32) (main_arg8 : FVec F S128x1024 .f32) (main_arg9 : FVec F S128 .f32) (main_arg10 : FVec F S128x1024 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1024 .f32 := Host.absf main_arg4
  let main_cst_6 : FVec F S_ .f32 := constant S_ .f32 0x7F800000#32
  let main_v20 : FVec F S128x1024 .f32 := broadcastInDim S128x1024 ![] bcast_S_S128x1024 main_cst_6
  let main_v21 : IVec S128x1024 1 := cmpf .olt main_v19 main_v20
  let main_c_7 : IVec S_ 1 := constantI S_ 1 1#1
  let main_v22 : IVec S_ 1 := (fun x v => Host.reduce IntOp.andi x v reducesTo_S128x1024_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S512x1024 .f32) (main_arg1 : FVec F S131072x128 .f32) (main_arg2 : FVec F S128x1024 .f32) (main_arg3 : FVec F S128 .f32) (main_arg4 : FVec F S128x1024 .f32) (main_arg5 : FVec F S128 .f32) (main_arg6 : FVec F S1x1024 .f32) (main_arg7 : FVec F S1 .f32) (main_arg8 : FVec F S128x1024 .f32) (main_arg9 : FVec F S128 .f32) (main_arg10 : FVec F S128x1024 .f32) (main_arg11 : FVec F S128 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S512x1024 : Shape := ⟨2, ![512, 1024]⟩
abbrev S131072x128 : Shape := ⟨2, ![131072, 128]⟩
abbrev S128x1024 : Shape := ⟨2, ![128, 1024]⟩
abbrev S128 : Shape := ⟨1, ![128]⟩
abbrev S1x1024 : Shape := ⟨2, ![1, 1024]⟩
abbrev S1 : Shape := ⟨1, ![1]⟩
abbrev S1024x128 : Shape := ⟨2, ![1024, 128]⟩
abbrev S512x128 : Shape := ⟨2, ![512, 128]⟩
abbrev S1x128 : Shape := ⟨2, ![1, 128]⟩
abbrev S1024x1 : Shape := ⟨2, ![1024, 1]⟩
abbrev S512x1 : Shape := ⟨2, ![512, 1]⟩
abbrev S1x1 : Shape := ⟨2, ![1, 1]⟩
abbrev S_ : Shape := ⟨0, ![]⟩
abbrev S512 : Shape := ⟨1, ![512]⟩
abbrev S2x512x128 : Shape := ⟨3, ![2, 512, 128]⟩
abbrev S2x512x1 : Shape := ⟨3, ![2, 512, 1]⟩
abbrev S2048x128 : Shape := ⟨2, ![2048, 128]⟩
abbrev S1x512x128 : Shape := ⟨3, ![1, 512, 128]⟩
abbrev S1x512x1 : Shape := ⟨3, ![1, 512, 1]⟩
abbrev S2048 : Shape := ⟨1, ![2048]⟩
abbrev S2048x1 : Shape := ⟨2, ![2048, 1]⟩
abbrev S1024x2048 : Shape := ⟨2, ![1024, 2048]⟩
abbrev S512x2048 : Shape := ⟨2, ![512, 2048]⟩
abbrev S512x131072 : Shape := ⟨2, ![512, 131072]⟩

abbrev nBuf : Space → Nat
  | .hbm => 114
  | .vmem => 23
  | .smem => 0
  | _ => 0

abbrev bufTy : (tb : Table) → Fin (tcTables nBuf tb) → BufTy
  | .hbm, ⟨0, _⟩ => ⟨S512x1024, .f32⟩
  | .hbm, ⟨1, _⟩ => ⟨S131072x128, .f32⟩
  | .hbm, ⟨2, _⟩ => ⟨S128x1024, .f32⟩
  | .hbm, ⟨3, _⟩ => ⟨S128, .f32⟩
  | .hbm, ⟨4, _⟩ => ⟨S128x1024, .f32⟩
  | .hbm, ⟨5, _⟩ => ⟨S128, .f32⟩
  | .hbm, ⟨6, _⟩ => ⟨S1x1024, .f32⟩
  | .hbm, ⟨7, _⟩ => ⟨S1, .f32⟩
  | .hbm, ⟨8, _⟩ => ⟨S128x1024, .f32⟩
  | .hbm, ⟨9, _⟩ => ⟨S128, .f32⟩
  | .hbm, ⟨10, _⟩ => ⟨S128x1024, .f32⟩
  | .hbm, ⟨11, _⟩ => ⟨S128, .f32⟩
  | .hbm, ⟨12, _⟩ => ⟨S1024x128, .f32⟩
  | .hbm, ⟨13, _⟩ => ⟨S512x128, .f32⟩
  | .hbm, ⟨14, _⟩ => ⟨S1x128, .f32⟩
  | .hbm, ⟨15, _⟩ => ⟨S512x128, .f32⟩
  | .hbm, ⟨16, _⟩ => ⟨S512x128, .f32⟩
  | .hbm, ⟨17, _⟩ => ⟨S1024x128, .f32⟩
  | .hbm, ⟨18, _⟩ => ⟨S512x128, .f32⟩
  | .hbm, ⟨19, _⟩ => ⟨S1x128, .f32⟩
  | .hbm, ⟨20, _⟩ => ⟨S512x128, .f32⟩
  | .hbm, ⟨21, _⟩ => ⟨S512x128, .f32⟩
  | .hbm, ⟨22, _⟩ => ⟨S1024x1, .f32⟩
  | .hbm, ⟨23, _⟩ => ⟨S512x1, .f32⟩
  | .hbm, ⟨24, _⟩ => ⟨S1x1, .f32⟩
  | .hbm, ⟨25, _⟩ => ⟨S512x1, .f32⟩
  | .hbm, ⟨26, _⟩ => ⟨S512x1, .f32⟩
  | .hbm, ⟨27, _⟩ => ⟨S_, .f32⟩
  | .hbm, ⟨28, _⟩ => ⟨S512x1, .f32⟩
  | .hbm, ⟨29, _⟩ => ⟨S512x1, .f32⟩
  | .hbm, ⟨30, _⟩ => ⟨S512x1, .f32⟩
  | .hbm, ⟨31, _⟩ => ⟨S512x1, .f32⟩
  | .hbm, ⟨32, _⟩ => ⟨S512x1, .i1⟩
  | .hbm, ⟨33, _⟩ => ⟨S512x1, .f32⟩
  | .hbm, ⟨34, _⟩ => ⟨S512x1, .f32⟩
  | .hbm, ⟨35, _⟩ => ⟨S512x1, .f32⟩
  | .hbm, ⟨36, _⟩ => ⟨S512x1, .f32⟩
  | .hbm, ⟨37, _⟩ => ⟨S512x1, .f32⟩
  | .hbm, ⟨38, _⟩ => ⟨S512x1, .f32⟩
  | .hbm, ⟨39, _⟩ => ⟨S512x1, .f32⟩
  | .hbm, ⟨40, _⟩ => ⟨S512x1, .f32⟩
  | .hbm, ⟨41, _⟩ => ⟨S1024x128, .f32⟩
  | .hbm, ⟨42, _⟩ => ⟨S512x128, .f32⟩
  | .hbm, ⟨43, _⟩ => ⟨S1x128, .f32⟩
  | .hbm, ⟨44, _⟩ => ⟨S512x128, .f32⟩
  | .hbm, ⟨45, _⟩ => ⟨S512x128, .f32⟩
  | .hbm, ⟨46, _⟩ => ⟨S512x128, .f32⟩
  | .hbm, ⟨47, _⟩ => ⟨S512x128, .f32⟩
  | .hbm, ⟨48, _⟩ => ⟨S_, .f32⟩
  | .hbm, ⟨49, _⟩ => ⟨S512x128, .f32⟩
  | .hbm, ⟨50, _⟩ => ⟨S512x128, .f32⟩
  | .hbm, ⟨51, _⟩ => ⟨S_, .f32⟩
  | .hbm, ⟨52, _⟩ => ⟨S512x128, .f32⟩
  | .hbm, ⟨53, _⟩ => ⟨S512x128, .f32⟩
  | .hbm, ⟨54, _⟩ => ⟨S1024x128, .f32⟩
  | .hbm, ⟨55, _⟩ => ⟨S512x128, .f32⟩
  | .hbm, ⟨56, _⟩ => ⟨S1x128, .f32⟩
  | .hbm, ⟨57, _⟩ => ⟨S512x128, .f32⟩
  | .hbm, ⟨58, _⟩ => ⟨S512x128, .f32⟩
  | .hbm, ⟨59, _⟩ => ⟨S512x128, .f32⟩
  | .hbm, ⟨60, _⟩ => ⟨S512x128, .f32⟩
  | .hbm, ⟨61, _⟩ => ⟨S_, .f32⟩
  | .hbm, ⟨62, _⟩ => ⟨S512, .f32⟩
  | .hbm, ⟨63, _⟩ => ⟨S512x1, .f32⟩
  | .hbm, ⟨64, _⟩ => ⟨S512x1, .f32⟩
  | .hbm, ⟨65, _⟩ => ⟨S_, .f32⟩
  | .hbm, ⟨66, _⟩ => ⟨S512x1, .f32⟩
  | .hbm, ⟨67, _⟩ => ⟨S512x1, .f32⟩
  | .hbm, ⟨68, _⟩ => ⟨S512x128, .f32⟩
  | .hbm, ⟨69, _⟩ => ⟨S_, .f32⟩
  | .hbm, ⟨70, _⟩ => ⟨S512, .f32⟩
  | .hbm, ⟨71, _⟩ => ⟨S512x1, .f32⟩
  | .hbm, ⟨72, _⟩ => ⟨S512x1, .f32⟩
  | .hbm, ⟨73, _⟩ => ⟨S_, .f32⟩
  | .hbm, ⟨74, _⟩ => ⟨S512x1, .f32⟩
  | .hbm, ⟨75, _⟩ => ⟨S512x1, .f32⟩
  | .hbm, ⟨76, _⟩ => ⟨S512x1, .f32⟩
  | .hbm, ⟨77, _⟩ => ⟨S512x128, .f32⟩
  | .hbm, ⟨78, _⟩ => ⟨S512x128, .f32⟩
  | .hbm, ⟨79, _⟩ => ⟨S512x128, .f32⟩
  | .hbm, ⟨80, _⟩ => ⟨S512x128, .f32⟩
  | .hbm, ⟨81, _⟩ => ⟨S1024x128, .f32⟩
  | .hbm, ⟨82, _⟩ => ⟨S1024x128, .bf16⟩
  | .hbm, ⟨83, _⟩ => ⟨S_, .f32⟩
  | .hbm, ⟨84, _⟩ => ⟨S512x1, .f32⟩
  | .hbm, ⟨85, _⟩ => ⟨S1024x1, .f32⟩
  | .hbm, ⟨86, _⟩ => ⟨S512x128, .bf16⟩
  | .hbm, ⟨87, _⟩ => ⟨S512x128, .bf16⟩
  | .hbm, ⟨88, _⟩ => ⟨S2x512x128, .f32⟩
  | .hbm, ⟨89, _⟩ => ⟨S2x512x1, .f32⟩
  | .hbm, ⟨90, _⟩ => ⟨S2x512x1, .f32⟩
  | .hbm, ⟨91, _⟩ => ⟨S1x512x128, .f32⟩
  | .hbm, ⟨92, _⟩ => ⟨S512x128, .f32⟩
  | .hbm, ⟨93, _⟩ => ⟨S1x512x128, .f32⟩
  | .hbm, ⟨94, _⟩ => ⟨S512x128, .f32⟩
  | .hbm, ⟨95, _⟩ => ⟨S512x128, .f32⟩
  | .hbm, ⟨96, _⟩ => ⟨S1x512x1, .f32⟩
  | .hbm, ⟨97, _⟩ => ⟨S512x1, .f32⟩
  | .hbm, ⟨98, _⟩ => ⟨S1x512x1, .f32⟩
  | .hbm, ⟨99, _⟩ => ⟨S512x1, .f32⟩
  | .hbm, ⟨100, _⟩ => ⟨S512x1, .f32⟩
  | .hbm, ⟨101, _⟩ => ⟨S1x512x1, .f32⟩
  | .hbm, ⟨102, _⟩ => ⟨S512x1, .f32⟩
  | .hbm, ⟨103, _⟩ => ⟨S1x512x1, .f32⟩
  | .hbm, ⟨104, _⟩ => ⟨S512x1, .f32⟩
  | .hbm, ⟨105, _⟩ => ⟨S512x1, .f32⟩
  | .hbm, ⟨106, _⟩ => ⟨S_, .f32⟩
  | .hbm, ⟨107, _⟩ => ⟨S512x1, .f32⟩
  | .hbm, ⟨108, _⟩ => ⟨S512x1, .f32⟩
  | .hbm, ⟨109, _⟩ => ⟨S512x128, .f32⟩
  | .hbm, ⟨110, _⟩ => ⟨S512x128, .f32⟩
  | .hbm, ⟨111, _⟩ => ⟨S512x128, .bf16⟩
  | .hbm, ⟨112, _⟩ => ⟨S512x131072, .f32⟩
  | .hbm, ⟨113, _⟩ => ⟨S131072x128, .f32⟩
  | .local _ .vmem, ⟨0, _⟩ => ⟨S2048x128, .f32⟩
  | .local _ .vmem, ⟨1, _⟩ => ⟨S2048x128, .f32⟩
  | .local _ .vmem, ⟨2, _⟩ => ⟨S1024x128, .bf16⟩
  | .local _ .vmem, ⟨3, _⟩ => ⟨S1024x1, .f32⟩
  | .local _ .vmem, ⟨4, _⟩ => ⟨S1x512x128, .f32⟩
  | .local _ .vmem, ⟨5, _⟩ => ⟨S1x512x128, .f32⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S512x1, .f32⟩
  | .local _ .vmem, ⟨11, _⟩ => ⟨S512x1, .f32⟩
  | .local _ .vmem, ⟨12, _⟩ => ⟨S512x128, .f32⟩
  | .local _ .vmem, ⟨13, _⟩ => ⟨S2048x128, .f32⟩
  | .local _ .vmem, ⟨14, _⟩ => ⟨S2048x128, .f32⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x1, .f32⟩
  | .local _ .vmem, ⟨19, _⟩ => ⟨S512x2048, .f32⟩
  | .local _ .vmem, ⟨20, _⟩ => ⟨S512x2048, .f32⟩
  | .local _ .vmem, ⟨21, _⟩ => ⟨S2048x128, .f32⟩
  | .local _ .vmem, ⟨22, _⟩ => ⟨S2048x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst : Ref sig .tc := ⟨.hbm, 48, rfl⟩
abbrev main_v23 : Ref sig .tc := ⟨.hbm, 49, rfl⟩
abbrev main_v24 : Ref sig .tc := ⟨.hbm, 50, rfl⟩
abbrev main_cst_0 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call1_v0 : Ref sig .tc := ⟨.hbm, 60, rfl⟩
abbrev main_call1_cst : Ref sig .tc := ⟨.hbm, 61, rfl⟩
abbrev main_call1_v1 : Ref sig .tc := ⟨.hbm, 62, rfl⟩
abbrev main_call1_v2 : Ref sig .tc := ⟨.hbm, 63, rfl⟩
abbrev main_v33 : Ref sig .tc := ⟨.hbm, 64, rfl⟩
abbrev main_cst_1 : Ref sig .tc := ⟨.hbm, 65, rfl⟩
abbrev main_v34 : Ref sig .tc := ⟨.hbm, 66, rfl⟩
abbrev main_v35 : Ref sig .tc := ⟨.hbm, 67, rfl⟩
abbrev main_call2_v0 : Ref sig .tc := ⟨.hbm, 68, rfl⟩
abbrev main_call2_cst : Ref sig .tc := ⟨.hbm, 69, rfl⟩
abbrev main_call2_v1 : Ref sig .tc := ⟨.hbm, 70, rfl⟩
abbrev main_call2_v2 : Ref sig .tc := ⟨.hbm, 71, rfl⟩
abbrev main_v36 : Ref sig .tc := ⟨.hbm, 72, rfl⟩
abbrev main_cst_2 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_3 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50_0 : Ref sig .tc := ⟨.hbm, 88, rfl⟩
abbrev main_v50_1 : Ref sig .tc := ⟨.hbm, 89, rfl⟩
abbrev main_v50_2 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_4 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71_0 : Ref sig .tc := ⟨.hbm, 112, rfl⟩
abbrev main_v71_1 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v45 : BitVec 1 := Scalar.cmpi .eq arg1 c31_i32
  let v46 : BitVec 32 := Scalar.extui v45
  let c0_i32_23 : BitVec 32 := 0#32
  let v47 : BitVec 1 := Scalar.cmpi .ne v46 c0_i32_23
  v47

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S128x1024_S1024x128_1_0 : S128x1024.Transposes [1, 0] S1024x128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  transposes_S1x1024_S1024x1_1_0 : S1x1024.Transposes [1, 0] S1024x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  bcast_S_S512x128 : S_.BroadcastsInDim S512x128 (![] : Fin 0 → Fin S512x128.rank)
  reducesTo_S512x128_S512_d1 : S512x128.ReducesTo [1] S512
  h_S_ : 0 < S_.numel
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  concatenates_S512x128_S512x128_S1024x128_d0 : Shape.Concatenates [S512x128, S512x128] S1024x128 0
  bitsLt_bf16_f32 : FTy.bits .bf16 < FTy.bits .f32
  concatenates_S512x1_S512x1_S1024x1_d0 : Shape.Concatenates [S512x1, S512x1] S1024x1 0
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  shapeCasts_S2048_S2048x1 : S2048.ShapeCasts S2048x1
  broadcasts_S2048x1_S2048x128 : S2048x1.Broadcasts S2048x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2048 : S1024x1.Broadcasts S1024x2048
  slices_S1024x2048_o0_0_S512x2048 : S1024x2048.Slices ![0, 0] S512x2048
  slices_S1024x2048_o512_0_S512x2048 : S1024x2048.Slices ![512, 0] S512x2048
  reduces_S512x2048_S512 : S512x2048.Reduces [1] S512
  shapeCasts_S512_S512x1 : S512.ShapeCasts S512x1
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  slices_S2x512x128_S1x512x128_0_0_0 : S2x512x128.Slices ![0, 0, 0] S1x512x128
  slices_S2x512x128_S1x512x128_1_0_0 : S2x512x128.Slices ![1, 0, 0] S1x512x128
  slices_S2x512x1_S1x512x1_0_0_0 : S2x512x1.Slices ![0, 0, 0] S1x512x1
  slices_S2x512x1_S1x512x1_1_0_0 : S2x512x1.Slices ![1, 0, 0] S1x512x1
  slices_S1024x128_S512x128_512_0 : S1024x128.Slices ![512, 0] S512x128
  broadcasts_S512x1_S512x2048 : S512x1.Broadcasts S512x2048
  inb_S512x2048_S512x2048_0_0 : ∀ a, (![0, 0] : Fin 2 → Nat) a + S512x2048.size a ≤ S512x2048.size a
  h_S512x2048 : 0 < S512x2048.numel
  dot_S512x1024_S1024x128_S512x128_1_0_0_1_n_n_wf : DotDims.WF S512x1024 S1024x128 S512x128 [1] [0] [0] [1] [] []
  dot_S512x1024_S1024x1_S512x1_1_0_0_1_n_n_wf : DotDims.WF S512x1024 S1024x1 S512x1 [1] [0] [0] [1] [] []
  dot_S1024x128_S2048x128_S1024x2048_1_1_0_0_n_n_wf : DotDims.WF S1024x128 S2048x128 S1024x2048 [1] [1] [0] [0] [] []
  dot_S512x2048_S2048x128_S512x128_1_0_0_1_n_n_wf : DotDims.WF S512x2048 S2048x128 S512x128 [1] [0] [0] [1] [] []
  dot_S512x128_S2048x128_S512x2048_1_1_0_0_n_n_wf : DotDims.WF S512x128 S2048x128 S512x2048 [1] [1] [0] [0] [] []
  dot_S512x2048_S512x128_S2048x128_0_0_1_1_n_n_wf : DotDims.WF S512x2048 S512x128 S2048x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S2x512x128.size a
  hwx0_3 : ∀ i : grid0.Coords, EltTy.bits .f32 = 32 ∨ (Rect.block (s := S2x512x128) S1x512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S2x512x1.size a
  hwx0_4 : ∀ i : grid0.Coords, EltTy.bits .f32 = 32 ∨ (Rect.block (s := S2x512x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S2x512x1.size a
  hwx0_5 : ∀ i : grid0.Coords, EltTy.bits .f32 = 32 ∨ (Rect.block (s := S2x512x1) S1x512x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S131072x128.size a
  hwx1_0 : ∀ i : grid1.Coords, EltTy.bits .f32 = 32 ∨ (Rect.block (s := S131072x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .bf16 = 32 ∨ (Rect.block (s := S512x128) S512x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S512x128.size a
  hwx1_2 : ∀ i : grid1.Coords, EltTy.bits .bf16 = 32 ∨ (Rect.block (s := S512x128) S512x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .bf16 = 32 ∨ (Rect.block (s := S512x128) S512x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S512x1.size a
  hwx1_4 : ∀ i : grid1.Coords, EltTy.bits .f32 = 32 ∨ (Rect.block (s := S512x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x2048.size a ≤ S512x131072.size a
  hwx1_5 : ∀ i : grid1.Coords, EltTy.bits .f32 = 32 ∨ (Rect.block (s := S512x131072) S512x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x128.size a ≤ S131072x128.size a
  hwx1_6 : ∀ i : grid1.Coords, EltTy.bits .f32 = 32 ∨ (Rect.block (s := S131072x128) S2048x128.size (cc1_transform_6 i) (hinb1_6 i)).WholeWords (EltTy.packing .f32)

variable [Facts₀]

def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S512x128_S2048x128_0_0_1_1_n_n : DotDims S512x2048 S512x128 S2048x128 where
  lhsContracting := [0]
  rhsContracting := [0]
  lhsNonContracting := [1]
  rhsNonContracting := [1]
  lhsBatch := []
  rhsBatch := []
  wf := dot_S512x2048_S512x128_S2048x128_0_0_1_1_n_n_wf

abbrev win0_0 : Pipeline.Window sig grid0 :=
  Pipeline.Window.ofSpec (Memref.whole main_arg1) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50_0) S1x512x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v50_1) S1x512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v50_2) S1x512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg1) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v70) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S512x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v65) S512x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v71_0) S512x2048.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v71_1) S2048x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S512x1024 : Shape := ⟨2, ![512, 1024]⟩
abbrev S131072x128 : Shape := ⟨2, ![131072, 128]⟩
abbrev S128x1024 : Shape := ⟨2, ![128, 1024]⟩
abbrev S128 : Shape := ⟨1, ![128]⟩
abbrev S1x1024 : Shape := ⟨2, ![1, 1024]⟩
abbrev S1 : Shape := ⟨1, ![1]⟩
abbrev S1024x128 : Shape := ⟨2, ![1024, 128]⟩
abbrev S512x128 : Shape := ⟨2, ![512, 128]⟩
abbrev S1x128 : Shape := ⟨2, ![1, 128]⟩
abbrev S1024x1 : Shape := ⟨2, ![1024, 1]⟩
abbrev S512x1 : Shape := ⟨2, ![512, 1]⟩
abbrev S1x1 : Shape := ⟨2, ![1, 1]⟩
abbrev S_ : Shape := ⟨0, ![]⟩
abbrev S512 : Shape := ⟨1, ![512]⟩
abbrev S131072 : Shape := ⟨1, ![131072]⟩
abbrev S128x131072 : Shape := ⟨2, ![128, 131072]⟩
abbrev S512x131072 : Shape := ⟨2, ![512, 131072]⟩
abbrev S1x131072 : Shape := ⟨2, ![1, 131072]⟩
abbrev S131072x512 : Shape := ⟨2, ![131072, 512]⟩

abbrev nBuf : Space → Nat
  | .hbm => 150
  | .vmem => 0
  | .smem => 0
  | _ => 0

abbrev hbmTy0_0 (i : Nat) : BufTy := match i % 128 with
  | 0 => ⟨S512x1024, .f32⟩
  | 1 => ⟨S131072x128, .f32⟩
  | 2 => ⟨S128x1024, .f32⟩
  | 3 => ⟨S128, .f32⟩
  | 4 => ⟨S128x1024, .f32⟩
  | 5 => ⟨S128, .f32⟩
  | 6 => ⟨S1x1024, .f32⟩
  | 7 => ⟨S1, .f32⟩
  | 8 => ⟨S128x1024, .f32⟩
  | 9 => ⟨S128, .f32⟩
  | 10 => ⟨S128x1024, .f32⟩
  | 11 => ⟨S128, .f32⟩
  | 12 => ⟨S1024x128, .f32⟩
  | 13 => ⟨S512x128, .f32⟩
  | 14 => ⟨S1x128, .f32⟩
  | 15 => ⟨S512x128, .f32⟩
  | 16 => ⟨S512x128, .f32⟩
  | 17 => ⟨S1024x1, .f32⟩
  | 18 => ⟨S512x1, .f32⟩
  | 19 => ⟨S1x1, .f32⟩
  | 20 => ⟨S512x1, .f32⟩
  | 21 => ⟨S512x1, .f32⟩
  | 22 => ⟨S_, .f32⟩
  | 23 => ⟨S512x1, .f32⟩
  | 24 => ⟨S512x1, .f32⟩
  | 25 => ⟨S512x1, .f32⟩
  | 26 => ⟨S512x1, .f32⟩
  | 27 => ⟨S512x1, .i1⟩
  | 28 => ⟨S512x1, .f32⟩
  | 29 => ⟨S512x1, .f32⟩
  | 30 => ⟨S512x1, .f32⟩
  | 31 => ⟨S512x1, .f32⟩
  | 32 => ⟨S512x1, .f32⟩
  | 33 => ⟨S512x1, .f32⟩
  | 34 => ⟨S512x1, .f32⟩
  | 35 => ⟨S512x1, .f32⟩
  | 36 => ⟨S512x128, .f32⟩
  | 37 => ⟨S_, .f32⟩
  | 38 => ⟨S512, .f32⟩
  | 39 => ⟨S512x1, .f32⟩
  | 40 => ⟨S512x1, .f32⟩
  | 41 => ⟨S_, .f32⟩
  | 42 => ⟨S512x1, .f32⟩
  | 43 => ⟨S512x1, .f32⟩
  | 44 => ⟨S131072x128, .f32⟩
  | 45 => ⟨S_, .f32⟩
  | 46 => ⟨S131072, .f32⟩
  | 47 => ⟨S131072, .f32⟩
  | 48 => ⟨S_, .f32⟩
  | 49 => ⟨S131072, .f32⟩
  | 50 => ⟨S131072, .f32⟩
  | 51 => ⟨S128x131072, .f32⟩
  | 52 => ⟨S512x131072, .f32⟩
  | 53 => ⟨S1x131072, .f32⟩
  | 54 => ⟨S512x131072, .f32⟩
  | 55 => ⟨S512x131072, .f32⟩
  | 56 => ⟨S512x131072, .f32⟩
  | 57 => ⟨S512x131072, .f32⟩
  | 58 => ⟨S512x131072, .f32⟩
  | 59 => ⟨S512x131072, .f32⟩
  | 60 => ⟨S_, .f32⟩
  | 61 => ⟨S512, .f32⟩
  | 62 => ⟨S_, .f32⟩
  | 63 => ⟨S512, .f32⟩
  | 64 => ⟨S512, .f32⟩
  | 65 => ⟨S512x1, .f32⟩
  | 66 => ⟨S512x131072, .f32⟩
  | 67 => ⟨S512x131072, .f32⟩
  | 68 => ⟨S512x131072, .f32⟩
  | 69 => ⟨S_, .f32⟩
  | 70 => ⟨S512, .f32⟩
  | 71 => ⟨S512x1, .f32⟩
  | 72 => ⟨S512x131072, .f32⟩
  | 73 => ⟨S512x131072, .f32⟩
  | 74 => ⟨S512x128, .f32⟩
  | 75 => ⟨S1024x128, .f32⟩
  | 76 => ⟨S512x128, .f32⟩
  | 77 => ⟨S1x128, .f32⟩
  | 78 => ⟨S512x128, .f32⟩
  | 79 => ⟨S512x128, .f32⟩
  | 80 => ⟨S512x128, .f32⟩
  | 81 => ⟨S_, .f32⟩
  | 82 => ⟨S512, .f32⟩
  | 83 => ⟨S512x1, .f32⟩
  | 84 => ⟨S512x1, .f32⟩
  | 85 => ⟨S_, .f32⟩
  | 86 => ⟨S512x1, .f32⟩
  | 87 => ⟨S512x1, .f32⟩
  | 88 => ⟨S131072x128, .f32⟩
  | 89 => ⟨S_, .f32⟩
  | 90 => ⟨S131072, .f32⟩
  | 91 => ⟨S131072, .f32⟩
  | 92 => ⟨S_, .f32⟩
  | 93 => ⟨S131072, .f32⟩
  | 94 => ⟨S131072, .f32⟩
  | 95 => ⟨S128x131072, .f32⟩
  | 96 => ⟨S512x131072, .f32⟩
  | 97 => ⟨S1x131072, .f32⟩
  | 98 => ⟨S512x131072, .f32⟩
  | 99 => ⟨S512x131072, .f32⟩
  | 100 => ⟨S512x131072, .f32⟩
  | 101 => ⟨S512x131072, .f32⟩
  | 102 => ⟨S_, .f32⟩
  | 103 => ⟨S512, .f32⟩
  | 104 => ⟨S_, .f32⟩
  | 105 => ⟨S512, .f32⟩
  | 106 => ⟨S512, .f32⟩
  | 107 => ⟨S512x1, .f32⟩
  | 108 => ⟨S512x131072, .f32⟩
  | 109 => ⟨S512x131072, .f32⟩
  | 110 => ⟨S512x131072, .f32⟩
  | 111 => ⟨S_, .f32⟩
  | 112 => ⟨S512, .f32⟩
  | 113 => ⟨S512x1, .f32⟩
  | 114 => ⟨S512x131072, .f32⟩
  | 115 => ⟨S512x131072, .f32⟩
  | 116 => ⟨S1024x128, .f32⟩
  | 117 => ⟨S512x128, .f32⟩
  | 118 => ⟨S1x128, .f32⟩
  | 119 => ⟨S512x128, .f32⟩
  | 120 => ⟨S512x128, .f32⟩
  | 121 => ⟨S512x128, .f32⟩
  | 122 => ⟨S512x128, .f32⟩
  | 123 => ⟨S_, .f32⟩
  | 124 => ⟨S512x128, .f32⟩
  | 125 => ⟨S512x128, .f32⟩
  | 126 => ⟨S_, .f32⟩
  | 127 => ⟨S512x128, .f32⟩
  | _ => ⟨S512x1024, .f32⟩

abbrev hbmTy0_1 (i : Nat) : BufTy := match i % 128 with
  | 0 => ⟨S512x128, .f32⟩
  | 1 => ⟨S1024x128, .f32⟩
  | 2 => ⟨S512x128, .f32⟩
  | 3 => ⟨S1x128, .f32⟩
  | 4 => ⟨S512x128, .f32⟩
  | 5 => ⟨S512x128, .f32⟩
  | 6 => ⟨S512x128, .f32⟩
  | 7 => ⟨S131072x512, .f32⟩
  | 8 => ⟨S131072x128, .f32⟩
  | 9 => ⟨S_, .f32⟩
  | 10 => ⟨S131072x128, .f32⟩
  | 11 => ⟨S131072x128, .f32⟩
  | 12 => ⟨S131072x512, .f32⟩
  | 13 => ⟨S131072x128, .f32⟩
  | 14 => ⟨S_, .f32⟩
  | 15 => ⟨S131072x128, .f32⟩
  | 16 => ⟨S131072x128, .f32⟩
  | 17 => ⟨S_, .f32⟩
  | 18 => ⟨S131072x128, .f32⟩
  | 19 => ⟨S131072x128, .f32⟩
  | 20 => ⟨S131072x128, .f32⟩
  | 21 => ⟨S131072x128, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v10 : Ref sig .tc := ⟨.hbm, 35, rfl⟩
abbrev main_call1_v0 : Ref sig .tc := ⟨.hbm, 36, rfl⟩
abbrev main_call1_cst : Ref sig .tc := ⟨.hbm, 37, rfl⟩
abbrev main_call1_v1 : Ref sig .tc := ⟨.hbm, 38, rfl⟩
abbrev main_call1_v2 : Ref sig .tc := ⟨.hbm, 39, rfl⟩
abbrev main_v11 : Ref sig .tc := ⟨.hbm, 40, rfl⟩
abbrev main_cst : Ref sig .tc := ⟨.hbm, 41, rfl⟩
abbrev main_v12 : Ref sig .tc := ⟨.hbm, 42, rfl⟩
abbrev main_v13 : Ref sig .tc := ⟨.hbm, 43, rfl⟩
abbrev main_call2_v0 : Ref sig .tc := ⟨.hbm, 44, rfl⟩
abbrev main_call2_cst : Ref sig .tc := ⟨.hbm, 45, rfl⟩
abbrev main_call2_v1 : Ref sig .tc := ⟨.hbm, 46, rfl⟩
abbrev main_v14 : Ref sig .tc := ⟨.hbm, 47, rfl⟩
abbrev main_cst_0 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_1 : Ref sig .tc := ⟨.hbm, 60, rfl⟩
abbrev main_v26 : Ref sig .tc := ⟨.hbm, 61, rfl⟩
abbrev main_cst_2 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_3 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_call3_v0 : Ref sig .tc := ⟨.hbm, 80, rfl⟩
abbrev main_call3_cst : Ref sig .tc := ⟨.hbm, 81, rfl⟩
abbrev main_call3_v1 : Ref sig .tc := ⟨.hbm, 82, rfl⟩
abbrev main_call3_v2 : Ref sig .tc := ⟨.hbm, 83, rfl⟩
abbrev main_v43 : Ref sig .tc := ⟨.hbm, 84, rfl⟩
abbrev main_cst_4 : Ref sig .tc := ⟨.hbm, 85, rfl⟩
abbrev main_v44 : Ref sig .tc := ⟨.hbm, 86, rfl⟩
abbrev main_v45 : Ref sig .tc := ⟨.hbm, 87, rfl⟩
abbrev main_call4_v0 : Ref sig .tc := ⟨.hbm, 88, rfl⟩
abbrev main_call4_cst : Ref sig .tc := ⟨.hbm, 89, rfl⟩
abbrev main_call4_v1 : Ref sig .tc := ⟨.hbm, 90, rfl⟩
abbrev main_v46 : Ref sig .tc := ⟨.hbm, 91, rfl⟩
abbrev main_cst_5 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_6 : Ref sig .tc := ⟨.hbm, 102, rfl⟩
abbrev main_v56 : Ref sig .tc := ⟨.hbm, 103, rfl⟩
abbrev main_cst_7 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_8 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_cst_9 : Ref sig .tc := ⟨.hbm, 123, rfl⟩
abbrev main_v74 : Ref sig .tc := ⟨.hbm, 124, rfl⟩
abbrev main_v75 : Ref sig .tc := ⟨.hbm, 125, rfl⟩
abbrev main_cst_10 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst_11 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_cst_12 : Ref sig .tc := ⟨.hbm, 142, rfl⟩
abbrev main_v90 : Ref sig .tc := ⟨.hbm, 143, rfl⟩
abbrev main_v91 : Ref sig .tc := ⟨.hbm, 144, rfl⟩
abbrev main_cst_13 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩

abbrev nD : Nat := 1
abbrev τ : Topo := Topo.v7x

variable {F : FTy → Type} [FloatOps F]

class Facts₀ : Prop where
  transposes_S128x1024_S1024x128_1_0 : S128x1024.Transposes [1, 0] S1024x128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  transposes_S1x1024_S1024x1_1_0 : S1x1024.Transposes [1, 0] S1024x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  reducesTo_S512x128_S512_d1 : S512x128.ReducesTo [1] S512
  h_S_ : 0 < S_.numel
  bcast_S512_S512x1_0 : S512.BroadcastsInDim S512x1 (![0] : Fin 1 → Fin S512x1.rank)
  reducesTo_S131072x128_S131072_d1 : S131072x128.ReducesTo [1] S131072
  bcast_S_S131072 : S_.BroadcastsInDim S131072 (![] : Fin 0 → Fin S131072.rank)
  transposes_S131072x128_S128x131072_1_0 : S131072x128.Transposes [1, 0] S128x131072
  bcast_S131072_S1x131072_1 : S131072.BroadcastsInDim S1x131072 (![1] : Fin 1 → Fin S1x131072.rank)
  bcast_S512x1_S512x131072_0_1 : S512x1.BroadcastsInDim S512x131072 (![0, 1] : Fin 2 → Fin S512x131072.rank)
  bcast_S1x131072_S512x131072_0_1 : S1x131072.BroadcastsInDim S512x131072 (![0, 1] : Fin 2 → Fin S512x131072.rank)
  reducesTo_S512x131072_S512_d1 : S512x131072.ReducesTo [1] S512
  bcast_S_S512 : S_.BroadcastsInDim S512 (![] : Fin 0 → Fin S512.rank)
  bcast_S_S512x128 : S_.BroadcastsInDim S512x128 (![] : Fin 0 → Fin S512x128.rank)
  transposes_S512x131072_S131072x512_1_0 : S512x131072.Transposes [1, 0] S131072x512
  bcast_S_S131072x128 : S_.BroadcastsInDim S131072x128 (![] : Fin 0 → Fin S131072x128.rank)
  dot_S512x1024_S1024x128_S512x128_1_0_0_1_n_n_wf : DotDims.WF S512x1024 S1024x128 S512x128 [1] [0] [0] [1] [] []
  dot_S512x1024_S1024x1_S512x1_1_0_0_1_n_n_wf : DotDims.WF S512x1024 S1024x1 S512x1 [1] [0] [0] [1] [] []
  dot_S512x128_S128x131072_S512x131072_1_0_0_1_n_n_wf : DotDims.WF S512x128 S128x131072 S512x131072 [1] [0] [0] [1] [] []
  dot_S512x131072_S131072x128_S512x128_1_0_0_1_n_n_wf : DotDims.WF S512x131072 S131072x128 S512x128 [1] [0] [0] [1] [] []
  dot_S131072x512_S512x128_S131072x128_1_0_0_1_n_n_wf : DotDims.WF S131072x512 S512x128 S131072x128 [1] [0] [0] [1] [] []

variable [Facts₀]

def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf
def dot_S512x128_S128x131072_S512x131072_1_0_0_1_n_n : DotDims S512x128 S128x131072 S512x131072 where
  lhsContracting := [1]
  rhsContracting := [0]
  lhsNonContracting := [0]
  rhsNonContracting := [1]
  lhsBatch := []
  rhsBatch := []
  wf := dot_S512x128_S128x131072_S512x131072_1_0_0_1_n_n_wf
def dot_S512x131072_S131072x128_S512x128_1_0_0_1_n_n : DotDims S512x131072 S131072x128 S512x128 where
  lhsContracting := [1]
  rhsContracting := [0]
  lhsNonContracting := [0]
  rhsNonContracting := [1]
  lhsBatch := []
  rhsBatch := []
  wf := dot_S512x131072_S131072x128_S512x128_1_0_0_1_n_n_wf
def dot_S131072x512_S512x128_S131072x128_1_0_0_1_n_n : DotDims S131072x512 S512x128 S131072x128 where
  lhsContracting := [1]
  rhsContracting := [0]
  lhsNonContracting := [0]
  rhsNonContracting := [1]
  lhsBatch := []
  rhsBatch := []
  wf := dot_S131072x512_S512x128_S131072x128_1_0_0_1_n_n_wf

class Facts : Prop extends Facts₀ where

variable [Facts]
-- ==== Proof.K.R0Kit.lean ====
import proofs.«429040_j74268574482523_3_alg».proof.Proof.Gen.Kernel.Launch
import proofs.«429040_j74268574482523_3_alg».proof.Proof.Gen.Kernel.Skeleton
import proofs.«429040_j74268574482523_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
/-- The totals are reset exactly at the first step of a row of the grid. -/
theorem hcond0_0 : ∀ t : Fin cfg0.N, cond0_0 (grid0.coords t) ↔ t.val % 32 = 0 :=
  (by decide +kernel : ∀ t : Fin grid0.N, cond0_0 (grid0.coords t) ↔ t.val % 32 = 0)

abbrev cond0_1 (i : grid0.Coords) : Prop := k0_cond2 i = 1#1
/-- The totals are handed over to the outputs exactly at the last step of a row. -/
theorem hcond0_1 : ∀ t : Fin cfg0.N, cond0_1 (grid0.coords t) ↔ t.val % 32 = 31 :=
  (by decide +kernel : ∀ t : Fin grid0.N, cond0_1 (grid0.coords t) ↔ t.val % 32 = 31)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0 : ∀ t : Fin cfg0.N, ¬t.val % 32 = 31 → ∀ w : Fin cfg0.W, 3 ≤ w.val →
    cfg0.idle w (grid0.coords t) = true ∧ (cfg0.win w).flush t = false := by decide +kernel
theorem liveAt0 : ∀ t : Fin cfg0.N, t.val % 32 = 31 → ∀ w : Fin cfg0.W, cfg0.idle w (grid0.coords t) = false := by decide +kernel

abbrev scM0_0 : Memref sig .tc .vmem S512x1 .f32 := Memref.whole cc0_scratch0
abbrev scM0_1 : Memref sig .tc .vmem S512x1 .f32 := Memref.whole cc0_scratch1
abbrev scM0_2 : Memref sig .tc .vmem S512x128 .f32 := Memref.whole cc0_scratch2

theorem hz2 : (![0, 0] : Fin 2 → Nat) = fun _ => 0 := funext fun a => by fin_cases a <;> rfl
theorem hz3 : (![0, 0, 0] : Fin 3 → Nat) = fun _ => 0 := funext fun a => by fin_cases a <;> rfl

/-- The three running totals: the read normaliser, the write normaliser, the read accumulator. -/
abbrev Acc (F : FTy → Type) [FloatOps F] : Type := Vec F S512x1 .f32 × Vec F S512x1 .f32 × Vec F S512x128 .f32

/-- The totals as a reset leaves them. -/
def acc00 : Acc F := (k0_pay6, k0_pay7, k0_pay8)

/-- One step: each total grows by the share of the block `x0` of memory rows, against the queries `x1` and shifts `x2`. -/
def accStep (x0 : Vec F S2048x128 .f32) (x1 : Vec F S1024x128 .bf16) (x2 : Vec F S1024x1 .f32) (s : Acc F) : Acc F :=
  (k0_pay13 x0 x1 x2 s.1, k0_pay1 (k0_pay14 x0 x1 x2 s.2.1), k0_pay2 (k0_pay9 x0) (k0_pay12 x0 x1 x2) s.2.2)

/-- What the invariant carries beside the three totals. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The call's invariant, with `φ0`, `φ1`, `φ2` saying what the three totals hold. -/
def accInv (c : Dev nD) (φ0 φ1 φ2 : sProp 𝕄) : sProp 𝕄 := iprop(iprop(φ0 ∗ φ1 ∗ φ2 ∗ rest0 c) ∗ (∃ r, prngReg c r))

theorem PhiA0_eq (c : Dev nD) :
    (Pipeline.ΦA spec0 c : sProp 𝕄) = accInv c iprop(∃ d, owns (c : Thread nD τ) scM0_0 fullShare d)
      iprop(∃ d, owns (c : Thread nD τ) scM0_1 fullShare d) iprop(∃ d, owns (c : Thread nD τ) scM0_2 fullShare d) := by
  unfold Pipeline.ΦA accInv rest0; rw [scopedRest0_eq]; simp only [scM0_0, scM0_1, scM0_2, owns_whole]; try rfl

end Cert.Kernel.Hand

end
-- ==== Proof.K.R0RunA.lean ====
import proofs.«429040_j74268574482523_3_alg».proof.Proof.K.R0Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S2048x128 .f32) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hc0 : cond0_0 i) (hc1 : ¬cond0_1 i)
    (x0 : Vec F S2048x128 .f32) (x1 : Vec F S1024x128 .bf16) (x2 : Vec F S1024x1 .f32) :
    Σ' (L3 : List (View.Piece (Elt F) S1x512x128 .f32)), Σ' (L4 : List (View.Piece (Elt F) S1x512x1 .f32)), Σ' (L5 : List (View.Piece (Elt F) S1x512x1 .f32)), Σ' (LS0 : List (View.Piece (Elt F) S512x1 .f32)), Σ' (LS1 : List (View.Piece (Elt F) S512x1 .f32)), { LS2 : List (View.Piece (Elt F) S512x128 .f32) //
      ∀ (xi3 : Vec F S1x512x128 .f32) (xi4 : Vec F S1x512x1 .f32) (xi5 : Vec F S1x512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

/-- At the first step of a row the three stores read as one step from the reset totals. -/
theorem pieces0_A (c : Dev nD) (i : grid0.Coords) (arg2 : Memref sig .tc .vmem S2048x128 .f32) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hc0 : cond0_0 i) (hc1 : ¬cond0_1 i)
    (x0 : Vec F S2048x128 .f32) (x1 : Vec F S1024x128 .bf16) (x2 : Vec F S1024x1 .f32) :
    (∀ f, arg8.view.read (Elt F) (arg8.view.writes (Elt F) f (kernelRun0_A c i arg2 harg2 arg3 harg3 arg4 harg4 arg5 harg5 arg6 harg6 arg7 harg7 arg8 harg8 arg9 harg9 arg10 harg10 hc0 hc1 x0 x1 x2).2.2.2.1) = k0_pay13 x0 x1 x2 k0_pay6)
    ∧ (∀ f, arg9.view.read (Elt F) (arg9.view.writes (Elt F) f (kernelRun0_A c i arg2 harg2 arg3 harg3 arg4 harg4 arg5 harg5 arg6 harg6 arg7 harg7 arg8 harg8 arg9 harg9 arg10 harg10 hc0 hc1 x0 x1 x2).2.2.2.2.1) = k0_pay1 (k0_pay14 x0 x1 x2 k0_pay7))
    ∧ (∀ f, arg10.view.read (Elt F) (arg10.view.writes (Elt F) f (kernelRun0_A c i arg2 harg2 arg3 harg3 arg4 harg4 arg5 harg5 arg6 harg6 arg7 harg7 arg8 harg8 arg9 harg9 arg10 harg10 hc0 hc1 x0 x1 x2).2.2.2.2.2.1) = k0_pay2 (k0_pay9 x0) (k0_pay12 x0 x1 x2) k0_pay8) := by
  refine ⟨?_, ?_, ?_⟩ <;>
  (intro f
   rw [View.read_writes_eq_canon _ _ _ (View.cover_of_tiledL _ (Shape.size _) (by sl_kernel_rfl))]
   unfold kernelRun0_A
   dsimp only
   try sl_unfold_words
   first | rw [View.canon_cons_unit_zero hz2] | rw [View.canon_cons_unit_zero hz3]
   simp only [View.readAt_eq_ld, harg2.read_unread, harg3.read_unread, harg4.read_unread, harg5.read_unread, harg6.read_unread, harg7.read_unread, harg8.read_unread, harg9.read_unread, harg10.read_unread, View.ld_unit_zero (S := S2048x128) hz2, View.ld_unit_zero (S := S1024x128) hz2, View.ld_unit_zero (S := S1024x1) hz2, View.ld_unit_zero (S := S512x1) hz2, View.ld_unit_zero (S := S512x128) hz2, View.ld_unit_zero (S := S1x512x128) hz3, View.ld_unit_zero (S := S1x512x1) hz3, View.readCov_unit_zero (S := S512x1) _ hz2, View.readCov_unit_zero (S := S512x128) _ hz2])

end Cert.Kernel.Hand

end
-- ==== Proof.K.R0RunB.lean ====
import proofs.«429040_j74268574482523_3_alg».proof.Proof.K.R0Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S2048x128 .f32) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hc0 : ¬cond0_0 i) (hc1 : ¬cond0_1 i)
    (x0 : Vec F S2048x128 .f32) (x1 : Vec F S1024x128 .bf16) (x2 : Vec F S1024x1 .f32) (xs0 : Vec F S512x1 .f32) (xs1 : Vec F S512x1 .f32) (xs2 : Vec F S512x128 .f32) :
    Σ' (L3 : List (View.Piece (Elt F) S1x512x128 .f32)), Σ' (L4 : List (View.Piece (Elt F) S1x512x1 .f32)), Σ' (L5 : List (View.Piece (Elt F) S1x512x1 .f32)), Σ' (LS0 : List (View.Piece (Elt F) S512x1 .f32)), Σ' (LS1 : List (View.Piece (Elt F) S512x1 .f32)), { LS2 : List (View.Piece (Elt F) S512x128 .f32) //
      ∀ (xi3 : Vec F S1x512x128 .f32) (xi4 : Vec F S1x512x1 .f32) (xi5 : Vec F S1x512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

/-- At a middle step the three stores read as one step from the totals found. -/
theorem pieces0_B (c : Dev nD) (i : grid0.Coords) (arg2 : Memref sig .tc .vmem S2048x128 .f32) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hc0 : ¬cond0_0 i) (hc1 : ¬cond0_1 i)
    (x0 : Vec F S2048x128 .f32) (x1 : Vec F S1024x128 .bf16) (x2 : Vec F S1024x1 .f32) (xs0 : Vec F S512x1 .f32) (xs1 : Vec F S512x1 .f32) (xs2 : Vec F S512x128 .f32) :
    (∀ f, arg8.view.read (Elt F) (arg8.view.writes (Elt F) f (kernelRun0_B c i arg2 harg2 arg3 harg3 arg4 harg4 arg5 harg5 arg6 harg6 arg7 harg7 arg8 harg8 arg9 harg9 arg10 harg10 hc0 hc1 x0 x1 x2 xs0 xs1 xs2).2.2.2.1) = k0_pay13 x0 x1 x2 xs0)
    ∧ (∀ f, arg9.view.read (Elt F) (arg9.view.writes (Elt F) f (kernelRun0_B c i arg2 harg2 arg3 harg3 arg4 harg4 arg5 harg5 arg6 harg6 arg7 harg7 arg8 harg8 arg9 harg9 arg10 harg10 hc0 hc1 x0 x1 x2 xs0 xs1 xs2).2.2.2.2.1) = k0_pay1 (k0_pay14 x0 x1 x2 xs1))
    ∧ (∀ f, arg10.view.read (Elt F) (arg10.view.writes (Elt F) f (kernelRun0_B c i arg2 harg2 arg3 harg3 arg4 harg4 arg5 harg5 arg6 harg6 arg7 harg7 arg8 harg8 arg9 harg9 arg10 harg10 hc0 hc1 x0 x1 x2 xs0 xs1 xs2).2.2.2.2.2.1) = k0_pay2 (k0_pay9 x0) (k0_pay12 x0 x1 x2) xs2) := by
  refine ⟨?_, ?_, ?_⟩ <;>
  (intro f
   rw [View.read_writes_eq_canon _ _ _ (View.cover_of_tiledL _ (Shape.size _) (by sl_kernel_rfl))]
   unfold kernelRun0_B
   dsimp only
   try sl_unfold_words
   first | rw [View.canon_cons_unit_zero hz2] | rw [View.canon_cons_unit_zero hz3]
   simp only [View.readAt_eq_ld, harg2.read_unread, harg3.read_unread, harg4.read_unread, harg5.read_unread, harg6.read_unread, harg7.read_unread, harg8.read_unread, harg9.read_unread, harg10.read_unread, View.ld_unit_zero (S := S2048x128) hz2, View.ld_unit_zero (S := S1024x128) hz2, View.ld_unit_zero (S := S1024x1) hz2, View.ld_unit_zero (S := S512x1) hz2, View.ld_unit_zero (S := S512x128) hz2, View.ld_unit_zero (S := S1x512x128) hz3, View.ld_unit_zero (S := S1x512x1) hz3, View.readCov_unit_zero (S := S512x1) _ hz2, View.readCov_unit_zero (S := S512x128) _ hz2])

end Cert.Kernel.Hand

end
-- ==== Proof.K.R0RunC.lean ====
import proofs.«429040_j74268574482523_3_alg».proof.Proof.K.R0Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S2048x128 .f32) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hc0 : ¬cond0_0 i) (hc1 : cond0_1 i)
    (x0 : Vec F S2048x128 .f32) (x1 : Vec F S1024x128 .bf16) (x2 : Vec F S1024x1 .f32) (xs0 : Vec F S512x1 .f32) (xs1 : Vec F S512x1 .f32) (xs2 : Vec F S512x128 .f32) :
    Σ' (L3 : List (View.Piece (Elt F) S1x512x128 .f32)), Σ' (L4 : List (View.Piece (Elt F) S1x512x1 .f32)), Σ' (L5 : List (View.Piece (Elt F) S1x512x1 .f32)), Σ' (LS0 : List (View.Piece (Elt F) S512x1 .f32)), Σ' (LS1 : List (View.Piece (Elt F) S512x1 .f32)), { LS2 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

/-- At the last step of a row the totals step as ever and each output block ends at one of the new totals. -/
theorem pieces0_C (c : Dev nD) (i : grid0.Coords) (arg2 : Memref sig .tc .vmem S2048x128 .f32) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hc0 : ¬cond0_0 i) (hc1 : cond0_1 i)
    (x0 : Vec F S2048x128 .f32) (x1 : Vec F S1024x128 .bf16) (x2 : Vec F S1024x1 .f32) (xs0 : Vec F S512x1 .f32) (xs1 : Vec F S512x1 .f32) (xs2 : Vec F S512x128 .f32) :
    (∀ f, arg8.view.read (Elt F) (arg8.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.2.2.1) = k0_pay13 x0 x1 x2 xs0)
    ∧ (∀ f, arg9.view.read (Elt F) (arg9.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.2.2.2.1) = k0_pay1 (k0_pay14 x0 x1 x2 xs1))
    ∧ (∀ f, arg10.view.read (Elt F) (arg10.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.2.2.2.2.1) = k0_pay2 (k0_pay9 x0) (k0_pay12 x0 x1 x2) xs2)
    ∧ (∀ f, arg5.view.read (Elt F) (arg5.view.writes (Elt F) f (kernelRun0_C c i arg2 harg2 arg3 harg3 arg4 harg4 arg5 harg5 arg6 harg6 arg7 harg7 arg8 harg8 arg9 harg9 arg10 harg10 hc0 hc1 x0 x1 x2 xs0 xs1 xs2).1) = k0_pay3 (k0_pay2 (k0_pay9 x0) (k0_pay12 x0 x1 x2) xs2))
    ∧ (∀ f, arg6.view.read (Elt F) (arg6.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.1) = k0_pay4 (k0_pay13 x0 x1 x2 xs0))
    ∧ (∀ f, arg7.view.read (Elt F) (arg7.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.2.1) = k0_pay5 (k0_pay1 (k0_pay14 x0 x1 x2 xs1))) := by
  refine ⟨?_, ?_, ?_, ?_, ?_, ?_⟩ <;>
  (intro f
   rw [View.read_writes_eq_canon _ _ _ (View.cover_of_tiledL _ (Shape.size _) (by sl_kernel_rfl))]
   unfold kernelRun0_C
   dsimp only
   try sl_unfold_words
   first | rw [View.canon_cons_unit_zero hz2] | rw [View.canon_cons_unit_zero hz3]
   simp only [View.readAt_eq_ld, harg2.read_unread, harg3.read_unread, harg4.read_unread, harg5.read_unread, harg6.read_unread, harg7.read_unread, harg8.read_unread, harg9.read_unread, harg10.read_unread, View.ld_unit_zero (S := S2048x128) hz2, View.ld_unit_zero (S := S1024x128) hz2, View.ld_unit_zero (S := S1024x1) hz2, View.ld_unit_zero (S := S512x1) hz2, View.ld_unit_zero (S := S512x128) hz2, View.ld_unit_zero (S := S1x512x128) hz3, View.ld_unit_zero (S := S1x512x1) hz3, View.readCov_unit_zero (S := S512x1) _ hz2, View.readCov_unit_zero (S := S512x128) _ hz2])

end Cert.Kernel.Hand

end
-- ==== Proof.K.R0Frame.lean ====
import proofs.«429040_j74268574482523_3_alg».proof.Proof.K.R0RunA
import proofs.«429040_j74268574482523_3_alg».proof.Proof.K.R0RunB
import proofs.«429040_j74268574482523_3_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at step `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The totals after step `n`: one step from the reset totals at the first step of a row, else from the step before. -/
def accsAt0 (c : Dev nD) : (n : ℕ) → n < cfg0.N → Acc F
  | 0, hn => accStep (iblk0 V c 0 ⟨0, hn⟩) (iblk0 V c 1 ⟨0, hn⟩) (iblk0 V c 2 ⟨0, hn⟩) acc00
  | n + 1, hn => accStep (iblk0 V c 0 ⟨n + 1, hn⟩) (iblk0 V c 1 ⟨n + 1, hn⟩) (iblk0 V c 2 ⟨n + 1, hn⟩)
      (if (n + 1) % 32 = 0 then acc00 else accsAt0 c n (Nat.lt_of_succ_lt hn))

/-- What the step before `t` left. -/
abbrev prevAcc0 (c : Dev nD) (t : Fin cfg0.N) : Acc F := accsAt0 V c (t.val - 1) (Nat.lt_of_le_of_lt (Nat.sub_le _ _) t.isLt)

theorem accsAt0_first (c : Dev nD) (t : Fin cfg0.N) (h0 : t.val % 32 = 0) :
    accsAt0 V c t.val t.isLt = accStep (iblk0 V c 0 t) (iblk0 V c 1 t) (iblk0 V c 2 t) acc00 := by
  obtain ⟨n, hn⟩ := t
  cases n with
  | zero => rfl
  | succ n =>
    have h : (n + 1) % 32 = 0 := h0
    show accStep _ _ _ (if (n + 1) % 32 = 0 then acc00 else _) = _
    rw [if_pos h]

theorem accsAt0_next (c : Dev nD) (t : Fin cfg0.N) (h0 : ¬t.val % 32 = 0) :
    accsAt0 V c t.val t.isLt = accStep (iblk0 V c 0 t) (iblk0 V c 1 t) (iblk0 V c 2 t) (prevAcc0 V c t) := by
  obtain ⟨n, hn⟩ := t
  cases n with
  | zero => exact absurd (Nat.zero_mod _) h0
  | succ n =>
    have h : ¬(n + 1) % 32 = 0 := h0
    show accStep _ _ _ (if (n + 1) % 32 = 0 then acc00 else _) = _
    rw [if_neg h]; rfl

/-- The invariant before step `n` names the totals the step before left. -/
def PhiS0 (c : Dev nD) : (n : ℕ) → n ≤ cfg0.N → sProp 𝕄
  | 0, _ => Pipeline.ΦA spec0 c
  | n + 1, hn => accInv c (owns (c : Thread nD τ) scM0_0 fullShare (accsAt0 V c n hn).1)
      (owns (c : Thread nD τ) scM0_1 fullShare (accsAt0 V c n hn).2.1) (owns (c : Thread nD τ) scM0_2 fullShare (accsAt0 V c n hn).2.2)

theorem PhiS0_pos (c : Dev nD) (n : ℕ) (h : n ≤ cfg0.N) (hz : n ≠ 0) :
    PhiS0 V c n h = accInv c (owns (c : Thread nD τ) scM0_0 fullShare (accsAt0 V c (n - 1) (by omega)).1)
      (owns (c : Thread nD τ) scM0_1 fullShare (accsAt0 V c (n - 1) (by omega)).2.1) (owns (c : Thread nD τ) scM0_2 fullShare (accsAt0 V c (n - 1) (by omega)).2.2) := by
  cases n with
  | zero => exact absurd rfl hz
  | succ n => rfl

theorem PhiS0_succ (c : Dev nD) (n : ℕ) (hn : n < cfg0.N) :
    PhiS0 V c (n + 1) hn = accInv c (owns (c : Thread nD τ) scM0_0 fullShare (accsAt0 V c n hn).1)
      (owns (c : Thread nD τ) scM0_1 fullShare (accsAt0 V c n hn).2.1) (owns (c : Thread nD τ) scM0_2 fullShare (accsAt0 V c n hn).2.2) := rfl

/-- Forgetting what the totals hold gives the call's own invariant back, before any step. -/
theorem Phi_any0 (c : Dev nD) (n : ℕ) (h : n ≤ cfg0.N) : PhiS0 V c n h ⊢ accInv c iprop(∃ d, owns (c : Thread nD τ) scM0_0 fullShare d) iprop(∃ d, owns (c : Thread nD τ) scM0_1 fullShare d) iprop(∃ d, owns (c : Thread nD τ) scM0_2 fullShare d) := by
  cases n with
  | zero => rw [← PhiA0_eq]; exact .rfl
  | succ n =>
    rw [PhiS0_succ]; unfold accInv
    iintro ⟨⟨HS0, HS1, HS2, HR⟩, Hg⟩
    isplitl [HS0 HS1 HS2 HR]
    · isplitl [HS0]; · iexists _; iexact HS0
      isplitl [HS1]; · iexists _; iexact HS1
      isplitl [HS2]; · iexists _; iexact HS2
      iexact HR
    iexact Hg

/-- The proof data: step `t` leaves each input block as it was and hands each output one of the totals. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accsAt0 V c t.val t.isLt).2.2
    | ⟨4, _⟩ => k0_pay4 (accsAt0 V c t.val t.isLt).1
    | ⟨5, _⟩ => k0_pay5 (accsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (accsAt0 V c t.val t.isLt).2.2 := by dsimp only [dat0]
theorem after0_4 (c : Dev nD) (t : Fin cfg0.N) : (dat0 V c).after 4 t = k0_pay4 (accsAt0 V c t.val t.isLt).1 := by dsimp only [dat0]
theorem after0_5 (c : Dev nD) (t : Fin cfg0.N) : (dat0 V c).after 5 t = k0_pay5 (accsAt0 V c t.val t.isLt).2.1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- At any step the body takes the totals from the invariant and hands them back one step on; an output is stored only at the last step of a row. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl,
    show (dat0 V c).Φ t.castSucc = PhiS0 V c t.val (Nat.le_of_lt t.isLt) from rfl]
  have hN : t.val < 64 := lt_of_lt_of_eq t.isLt (show cfg0.N = 64 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [PhiS0_succ]
  by_cases h1 : t.val % 32 = 31
  · have h0 : ¬t.val % 32 = 0 := by omega
    rw [show (dat0 V c).leavesExact 3 t = owns (c : Thread nD τ) (st0_3 t) fullShare ((dat0 V c).after 3 t) from by
      unfold Dat.leavesExact; rw [liveAt0 t h1 3], after0_3]
    rw [show (dat0 V c).leavesExact 4 t = owns (c : Thread nD τ) (st0_4 t) fullShare ((dat0 V c).after 4 t) from by
      unfold Dat.leavesExact; rw [liveAt0 t h1 4], after0_4]
    rw [show (dat0 V c).leavesExact 5 t = owns (c : Thread nD τ) (st0_5 t) fullShare ((dat0 V c).after 5 t) from by
      unfold Dat.leavesExact; rw [liveAt0 t h1 5], after0_5]
    rw [PhiS0_pos V c t.val _ (by omega), accsAt0_next V c t h0]
    unfold accInv
    iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
    iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) _ _ _).2.2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    iintro ⟨H0, H1, H2, ⟨%e3, H3⟩, ⟨%e4, H4⟩, ⟨%e5, H5⟩, ⟨%es0, HS0⟩, ⟨%es1, HS1⟩, ⟨%es2, HS2⟩⟩
    isplitl [HS0 HS1 HS2 HR Hg]
    · isplitl [HS0 HS1 HS2 HR]
      · isplitl [HS0]
        · unfold owns; iexists _; isplitr
          swap; · iexact HS0
          ipureintro; exact ((pieces0_C c _ _ _ _ _ _ _ _ _ _ _ _ _ _ _ _ _ _ _ (fun h => h0 ((hcond0_0 t).mp h)) ((hcond0_1 t).mpr h1) (iblk0 V c 0 t) (iblk0 V c 1 t) (iblk0 V c 2 t) _ _ _).1 _)
        isplitl [HS1]
        · unfold owns; iexists _; isplitr
          swap; · iexact HS1
          ipureintro; exact ((pieces0_C c _ _ _ _ _ _ _ _ _ _ _ _ _ _ _ _ _ _ _ (fun h => h0 ((hcond0_0 t).mp h)) ((hcond0_1 t).mpr h1) (iblk0 V c 0 t) (iblk0 V c 1 t) (iblk0 V c 2 t) _ _ _).2.1 _)
        isplitl [HS2]
        · unfold owns; iexists _; isplitr
          swap; · iexact HS2
          ipureintro; exact ((pieces0_C c _ _ _ _ _ _ _ _ _ _ _ _ _ _ _ _ _ _ _ (fun h => h0 ((hcond0_0 t).mp h)) ((hcond0_1 t).mpr h1) (iblk0 V c 0 t) (iblk0 V c 1 t) (iblk0 V c 2 t) _ _ _).2.2.1 _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact ((pieces0_C c _ _ _ _ _ _ _ _ _ _ _ _ _ _ _ _ _ _ _ (fun h => h0 ((hcond0_0 t).mp h)) ((hcond0_1 t).mpr h1) (iblk0 V c 0 t) (iblk0 V c 1 t) (iblk0 V c 2 t) _ _ _).2.2.2.1 _)
    isplitl [H4]
    · unfold owns; iexists _; isplitr
      swap; · iexact H4
      ipureintro; exact ((pieces0_C c _ _ _ _ _ _ _ _ _ _ _ _ _ _ _ _ _ _ _ (fun h => h0 ((hcond0_0 t).mp h)) ((hcond0_1 t).mpr h1) (iblk0 V c 0 t) (iblk0 V c 1 t) (iblk0 V c 2 t) _ _ _).2.2.2.2.1 _)
    unfold owns; iexists _; isplitr
    swap; · iexact H5
    ipureintro; exact ((pieces0_C c _ _ _ _ _ _ _ _ _ _ _ _ _ _ _ _ _ _ _ (fun h => h0 ((hcond0_0 t).mp h)) ((hcond0_1 t).mpr h1) (iblk0 V c 0 t) (iblk0 V c 1 t) (iblk0 V c 2 t) _ _ _).2.2.2.2.2 _)
  · rw [Dat.leavesExact_idle (dat0 V c) 3 t (idleAt0 t h1 3 (by decide)).1 (idleAt0 t h1 3 (by decide)).2]
    rw [Dat.leavesExact_idle (dat0 V c) 4 t (idleAt0 t h1 4 (by decide)).1 (idleAt0 t h1 4 (by decide)).2]
    rw [Dat.leavesExact_idle (dat0 V c) 5 t (idleAt0 t h1 5 (by decide)).1 (idleAt0 t h1 5 (by decide)).2]
    by_cases h0 : t.val % 32 = 0
    · rw [accsAt0_first V c t h0]
      iintro ⟨HΦ, Ho, ⟨%d0, H0⟩, ⟨%d1, H1⟩, ⟨%d2, H2⟩, ⟨%d3, H3⟩, ⟨%d4, H4⟩, ⟨%d5, H5⟩⟩
      ihave HΦ := (Phi_any0 V c _ _) $$ HΦ
      unfold accInv
      icases HΦ with ⟨⟨HS0, HS1, HS2, HR⟩, Hg⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t)).2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 HR Hg]
      · isplitl [HS0 HS1 HS2 HR]
        · isplitl [HS0]
          · unfold owns; iexists _; isplitr
            swap; · iexact HS0
            ipureintro; exact ((pieces0_A c _ _ _ _ _ _ _ _ _ _ _ _ _ _ _ _ _ _ _ ((hcond0_0 t).mpr h0) (fun h => h1 ((hcond0_1 t).mp h)) (iblk0 V c 0 t) (iblk0 V c 1 t) (iblk0 V c 2 t)).1 _)
          isplitl [HS1]
          · unfold owns; iexists _; isplitr
            swap; · iexact HS1
            ipureintro; exact ((pieces0_A c _ _ _ _ _ _ _ _ _ _ _ _ _ _ _ _ _ _ _ ((hcond0_0 t).mpr h0) (fun h => h1 ((hcond0_1 t).mp h)) (iblk0 V c 0 t) (iblk0 V c 1 t) (iblk0 V c 2 t)).2.1 _)
          isplitl [HS2]
          · unfold owns; iexists _; isplitr
            swap; · iexact HS2
            ipureintro; exact ((pieces0_A c _ _ _ _ _ _ _ _ _ _ _ _ _ _ _ _ _ _ _ ((hcond0_0 t).mpr h0) (fun h => h1 ((hcond0_1 t).mp h)) (iblk0 V c 0 t) (iblk0 V c 1 t) (iblk0 V c 2 t)).2.2 _)
          iexact HR
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · rw [PhiS0_pos V c t.val _ (by omega), accsAt0_next V c t h0]
      unfold accInv
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) _ _ _).2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 HR Hg]
      · isplitl [HS0 HS1 HS2 HR]
        · isplitl [HS0]
          · unfold owns; iexists _; isplitr
            swap; · iexact HS0
            ipureintro; exact ((pieces0_B c _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) _ _ _).1 _)
          isplitl [HS1]
          · unfold owns; iexists _; isplitr
            swap; · iexact HS1
            ipureintro; exact ((pieces0_B c _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) _ _ _).2.1 _)
          isplitl [HS2]
          · unfold owns; iexists _; isplitr
            swap; · iexact HS2
            ipureintro; exact ((pieces0_B c _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) _ _ _).2.2 _)
          iexact HR
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  show _ ⊢ Pipeline.ΦA spec0 c; exact .rfl

theorem hout0 (c : Dev nD) : (dat0 V c).Φ (Fin.last cfg0.N) ⊢ Pipeline.ΦA spec0 c := by
  rw [PhiA0_eq]; exact Phi_any0 V c (Fin.last cfg0.N).val _

end Region0

end Cert.Kernel.Hand

end
-- ==== Proof.K.R1Run.lean ====
import proofs.«429040_j74268574482523_3_alg».proof.Proof.K.R0Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg1 : Memref sig .tc .vmem S2048x128 .f32) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x1 .f32) (harg5 : arg5.IsWhole) (arg6 : Memref sig .tc .vmem S512x2048 .f32) (harg6 : arg6.IsWhole) (arg7 : Memref sig .tc .vmem S2048x128 .f32) (harg7 : arg7.IsWhole)
    (x0 : Vec F S2048x128 .f32) (x1 x2 x3 : Vec F S512x128 .bf16) (x4 : Vec F S512x1 .f32) :
    Σ' (L5 : List (View.Piece (Elt F) S512x2048 .f32)), { L6 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc1__pass2_kernel i arg1 harg1 arg2 harg2 arg3 harg3 arg4 harg4 arg5 harg5 arg6 harg6 arg7 harg7) K } := by
  refine ⟨?_, ?_, fun E K => ?run⟩
  case run =>
    simp only [cc1__pass2_kernel_eq_skeleton]; unfold cc1__pass2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

/-- What the update pass's two stores read as. -/
theorem pieces1 (c : Dev nD) (i : grid1.Coords) (arg1 : Memref sig .tc .vmem S2048x128 .f32) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x1 .f32) (harg5 : arg5.IsWhole) (arg6 : Memref sig .tc .vmem S512x2048 .f32) (harg6 : arg6.IsWhole) (arg7 : Memref sig .tc .vmem S2048x128 .f32) (harg7 : arg7.IsWhole)
    (x0 : Vec F S2048x128 .f32) (x1 x2 x3 : Vec F S512x128 .bf16) (x4 : Vec F S512x1 .f32) :
    (∀ f, arg6.view.read (Elt F) (arg6.view.writes (Elt F) f (kernelRun1_A c i arg1 harg1 arg2 harg2 arg3 harg3 arg4 harg4 arg5 harg5 arg6 harg6 arg7 harg7 x0 x1 x2 x3 x4).1) = k1_pay2 x0 x1 x4)
    ∧ (∀ f, arg7.view.read (Elt F) (arg7.view.writes (Elt F) f (kernelRun1_A c i arg1 harg1 arg2 harg2 arg3 harg3 arg4 harg4 arg5 harg5 arg6 harg6 arg7 harg7 x0 x1 x2 x3 x4).2.1) = k1_pay1 x0 (k1_pay4 x0 x1 x4 x3) (k1_pay5 x0 x1 x4 x2)) := by
  refine ⟨?_, ?_⟩ <;>
  (intro f
   rw [View.read_writes_eq_canon _ _ _ (View.cover_of_tiledL _ (Shape.size _) (by sl_kernel_rfl))]
   unfold kernelRun1_A
   dsimp only
   try sl_unfold_words
   rw [View.canon_unit_zero hz2]
   simp only [View.readAt_eq_ld, harg1.read_unread, harg2.read_unread, harg3.read_unread, harg4.read_unread, harg5.read_unread,
     View.ld_unit_zero (S := S2048x128) hz2, View.ld_unit_zero (S := S512x128) hz2, View.ld_unit_zero (S := S512x1) hz2])

end Cert.Kernel.Hand

end
-- ==== Proof.K.R1Frame.lean ====
import proofs.«429040_j74268574482523_3_alg».proof.Proof.K.R1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at step `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: step `t` leaves each input block as it was; its outputs are the write weights and the updated rows of the block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay2 (iblk1 V c 0 t) (iblk1 V c 1 t) (iblk1 V c 4 t)
    | ⟨6, _⟩ => k1_pay1 (iblk1 V c 0 t) (k1_pay4 (iblk1 V c 0 t) (iblk1 V c 1 t) (iblk1 V c 4 t) (iblk1 V c 3 t)) (k1_pay5 (iblk1 V c 0 t) (iblk1 V c 1 t) (iblk1 V c 4 t) (iblk1 V c 2 t))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay2 (iblk1 V c 0 t) (iblk1 V c 1 t) (iblk1 V c 4 t) := by dsimp only [dat1]
theorem after1_6 (c : Dev nD) (t : Fin cfg1.N) : (dat1 V c).after 6 t = k1_pay1 (iblk1 V c 0 t) (k1_pay4 (iblk1 V c 0 t) (iblk1 V c 1 t) (iblk1 V c 4 t) (iblk1 V c 3 t)) (k1_pay5 (iblk1 V c 0 t) (iblk1 V c 1 t) (iblk1 V c 4 t) (iblk1 V c 2 t)) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1_A c (grid1.coords t) _ _ _ _ _ _ _ _ _ _ _ _ _ _ (iblk1 V c 0 t) (iblk1 V c 1 t) (iblk1 V c 2 t) (iblk1 V c 3 t) (iblk1 V c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact (pieces1 c _ _ _ _ _ _ _ _ _ _ _ _ _ _ _ (iblk1 V c 0 t) (iblk1 V c 1 t) (iblk1 V c 2 t) (iblk1 V c 3 t) (iblk1 V c 4 t)).1 _
  unfold owns; iexists _; isplitr
  swap; · iexact H6
  ipureintro; exact (pieces1 c _ _ _ _ _ _ _ _ _ _ _ _ _ _ _ (iblk1 V c 0 t) (iblk1 V c 1 t) (iblk1 V c 2 t) (iblk1 V c 3 t) (iblk1 V c 4 t)).2 _

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Regs.lean ====
import proofs.«429040_j74268574482523_3_alg».proof.Proof.K.R0Frame
import proofs.«429040_j74268574482523_3_alg».proof.Proof.K.R1Frame
import proofs.«429040_j74268574482523_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V7' : (c : Dev nD) → (b : Ref sig .tc) → Buf (Elt F) ((c : Thread nD τ).loc b) :=
  fun c b => Gen.V7 m c (Proc.devRef .tc b)

def W8 (c : Dev nD) : Valuation τ sig (Elt F) :=
  Pipeline.withArrays spec0 c (Gen.V7 m c) fun w => (dat0 (V7' m) c).arrAt w cfg0.N

theorem W8_arr (c : Dev nD) (w : Fin cfg0.W) :
    W8 m c (Proc.devRef .tc (Pipeline.arrRef spec0 w)) = (dat0 (V7' m) c).arrAt w cfg0.N := by
  unfold W8; exact Pipeline.withArrays_arr spec0 launch0.win.arr_inj c _ _ w

def outsA : (r : Ref sig .tc) → (c : Dev nD) → Buf (Elt F) ((c : Thread nD τ).loc r) :=
  fun r c => W8 m c (Proc.devRef .tc r)

abbrev V9A' : (c : Dev nD) → (b : Ref sig .tc) → Buf (Elt F) ((c : Thread nD τ).loc b) :=
  fun c b => Gen.V9 m (fun _ => outsA m) c (Proc.devRef .tc b)

def W10 (c : Dev nD) : Valuation τ sig (Elt F) :=
  Pipeline.withArrays spec1 c (Gen.V9 m (fun _ => outsA m) c) fun w => (dat1 (V9A' m) c).arrAt w cfg1.N

theorem W10_arr (c : Dev nD) (w : Fin cfg1.W) :
    W10 m c (Proc.devRef .tc (Pipeline.arrRef spec1 w)) = (dat1 (V9A' m) c).arrAt w cfg1.N := by
  unfold W10; exact Pipeline.withArrays_arr spec1 launch1.win.arr_inj c _ _ w

def outsB : (r : Ref sig .tc) → (c : Dev nD) → Buf (Elt F) ((c : Thread nD τ).loc r) :=
  fun r c => W10 m c (Proc.devRef .tc r)

def outs : Gen.Outs (F := F) := fun J => if J = 10 then outsB m else outsA m

theorem outs_8 : outs m 8 = outsA m := if_neg (by decide)
theorem outs_10 : outs m 10 = outsB m := if_pos rfl

theorem V8_outs (c : Dev nD) : Gen.V8 m (outs m) c = Gen.V8 m (fun _ => outsA m) c := by
  simp only [Gen.V8, outs_8]

theorem V9_outs (c : Dev nD) : Gen.V9 m (outs m) c = Gen.V9 m (fun _ => outsA m) c :=
  congrArg (StableHlo.after hostOps1) (V8_outs m c)

abbrev V9' : (c : Dev nD) → (b : Ref sig .tc) → Buf (Elt F) ((c : Thread nD τ).loc b) :=
  fun c b => Gen.V9 m (outs m) c (Proc.devRef .tc b)

theorem V9'_eq : V9' m = V9A' m :=
  funext fun c => funext fun b => congrFun (V9_outs m c) (Proc.devRef .tc b)

abbrev V8' : (c : Dev nD) → (b : Ref sig .tc) → Buf (Elt F) ((c : Thread nD τ).loc b) :=
  fun c b => Gen.V8 m (outs m) c (Proc.devRef .tc b)
abbrev V10' : (c : Dev nD) → (b : Ref sig .tc) → Buf (Elt F) ((c : Thread nD τ).loc b) :=
  fun c b => Gen.V10 m (outs m) c (Proc.devRef .tc b)

theorem outs8_0 (c : Dev nD) : Gen.V8 m (outs m) c main_v50_0 = (dat0 (V7' m) c).arrAt 3 cfg0.N := by
  have h1 : (Proc.devRef .tc main_v50_0 : DevRef τ sig) ≠ Proc.devRef .tc main_v50_2 := StableHlo.devRef_ne_of_ne (by decide)
  have h2 : (Proc.devRef .tc main_v50_0 : DevRef τ sig) ≠ Proc.devRef .tc main_v50_1 := StableHlo.devRef_ne_of_ne (by decide)
  simp only [Gen.V8, Function.update_of_ne h1, Function.update_of_ne h2, Function.update_self, outs_8]
  exact W8_arr m c 3
theorem outs8_1 (c : Dev nD) : Gen.V8 m (outs m) c main_v50_1 = (dat0 (V7' m) c).arrAt 4 cfg0.N := by
  have h1 : (Proc.devRef .tc main_v50_1 : DevRef τ sig) ≠ Proc.devRef .tc main_v50_2 := StableHlo.devRef_ne_of_ne (by decide)
  simp only [Gen.V8, Function.update_of_ne h1, Function.update_self, outs_8]
  exact W8_arr m c 4
theorem outs8_2 (c : Dev nD) : Gen.V8 m (outs m) c main_v50_2 = (dat0 (V7' m) c).arrAt 5 cfg0.N := by
  simp only [Gen.V8, Function.update_self, outs_8]
  exact W8_arr m c 5

theorem hF0_0 (c : Dev nD) : (dat0 (V7' m) c).arrAt 0 cfg0.N = V8' m c (Pipeline.arrRef spec0 0) :=
  ((dat0 (V7' m) c).arrAt_in 0 rfl _).trans ((A_eq0 (V7' m) c 0).trans (Gen.V8_of m (outs m) c main_arg1 (by decide)).symm)
theorem hF0_1 (c : Dev nD) : (dat0 (V7' m) c).arrAt 1 cfg0.N = V8' m c (Pipeline.arrRef spec0 1) :=
  ((dat0 (V7' m) c).arrAt_in 1 rfl _).trans ((A_eq0 (V7' m) c 1).trans (Gen.V8_of m (outs m) c main_v45 (by decide)).symm)
theorem hF0_2 (c : Dev nD) : (dat0 (V7' m) c).arrAt 2 cfg0.N = V8' m c (Pipeline.arrRef spec0 2) :=
  ((dat0 (V7' m) c).arrAt_in 2 rfl _).trans ((A_eq0 (V7' m) c 2).trans (Gen.V8_of m (outs m) c main_v47 (by decide)).symm)

theorem hF0 (c : Dev nD) (w : Fin cfg0.W) : (dat0 (V7' m) c).arrAt w cfg0.N = V8' m c (Pipeline.arrRef spec0 w) := by
  obtain ⟨w, hw⟩ := w
  match w, hw with
  | 0, _ => exact hF0_0 m c
  | 1, _ => exact hF0_1 m c
  | 2, _ => exact hF0_2 m c
  | 3, _ => exact (outs8_0 m c).symm
  | 4, _ => exact (outs8_1 m c).symm
  | 5, _ => exact (outs8_2 m c).symm
  | n + 6, h => exact absurd h (Nat.not_lt.2 (Nat.le_add_left _ _))

theorem hrest0 (c : Dev nD) : ∀ b, b ∉ Finset.univ.image (Pipeline.arrRef spec0) → V8' m c b = V7' m c b :=
  fun b hb => Gen.V8_of m (outs m) c b fun hmem => hb (by
    simp only [List.mem_cons, List.mem_nil_iff, or_false] at hmem
    rcases hmem with rfl | rfl | rfl
    · exact Finset.mem_image.mpr ⟨3, Finset.mem_univ _, rfl⟩
    · exact Finset.mem_image.mpr ⟨4, Finset.mem_univ _, rfl⟩
    · exact Finset.mem_image.mpr ⟨5, Finset.mem_univ _, rfl⟩)

theorem outs10_0 (c : Dev nD) : Gen.V10 m (outs m) c main_v71_0 = (dat1 (V9' m) c).arrAt 5 cfg1.N := by
  have h1 : (Proc.devRef .tc main_v71_0 : DevRef τ sig) ≠ Proc.devRef .tc main_v71_1 := StableHlo.devRef_ne_of_ne (by decide)
  simp only [Gen.V10, Function.update_of_ne h1, Function.update_self, outs_10]
  rw [V9'_eq]
  exact W10_arr m c 5
theorem outs10_1 (c : Dev nD) : Gen.V10 m (outs m) c main_v71_1 = (dat1 (V9' m) c).arrAt 6 cfg1.N := by
  simp only [Gen.V10, Function.update_self, outs_10]
  rw [V9'_eq]
  exact W10_arr m c 6

theorem hF1_0 (c : Dev nD) : (dat1 (V9' m) c).arrAt 0 cfg1.N = V10' m c (Pipeline.arrRef spec1 0) :=
  ((dat1 (V9' m) c).arrAt_in 0 rfl _).trans ((A_eq1 (V9' m) c 0).trans (Gen.V10_of m (outs m) c main_arg1 (by decide)).symm)
theorem hF1_1 (c : Dev nD) : (dat1 (V9' m) c).arrAt 1 cfg1.N = V10' m c (Pipeline.arrRef spec1 1) :=
  ((dat1 (V9' m) c).arrAt_in 1 rfl _).trans ((A_eq1 (V9' m) c 1).trans (Gen.V10_of m (outs m) c main_v70 (by decide)).symm)
theorem hF1_2 (c : Dev nD) : (dat1 (V9' m) c).arrAt 2 cfg1.N = V10' m c (Pipeline.arrRef spec1 2) :=
  ((dat1 (V9' m) c).arrAt_in 2 rfl _).trans ((A_eq1 (V9' m) c 2).trans (Gen.V10_of m (outs m) c main_v48 (by decide)).symm)
theorem hF1_3 (c : Dev nD) : (dat1 (V9' m) c).arrAt 3 cfg1.N = V10' m c (Pipeline.arrRef spec1 3) :=
  ((dat1 (V9' m) c).arrAt_in 3 rfl _).trans ((A_eq1 (V9' m) c 3).trans (Gen.V10_of m (outs m) c main_v49 (by decide)).symm)
theorem hF1_4 (c : Dev nD) : (dat1 (V9' m) c).arrAt 4 cfg1.N = V10' m c (Pipeline.arrRef spec1 4) :=
  ((dat1 (V9' m) c).arrAt_in 4 rfl _).trans ((A_eq1 (V9' m) c 4).trans (Gen.V10_of m (outs m) c main_v65 (by decide)).symm)

theorem hF1 (c : Dev nD) (w : Fin cfg1.W) : (dat1 (V9' m) c).arrAt w cfg1.N = V10' m c (Pipeline.arrRef spec1 w) := by
  obtain ⟨w, hw⟩ := w
  match w, hw with
  | 0, _ => exact hF1_0 m c
  | 1, _ => exact hF1_1 m c
  | 2, _ => exact hF1_2 m c
  | 3, _ => exact hF1_3 m c
  | 4, _ => exact hF1_4 m c
  | 5, _ => exact (outs10_0 m c).symm
  | 6, _ => exact (outs10_1 m c).symm
  | n + 7, h => exact absurd h (Nat.not_lt.2 (Nat.le_add_left _ _))

theorem hrest1 (c : Dev nD) : ∀ b, b ∉ Finset.univ.image (Pipeline.arrRef spec1) → V10' m c b = V9' m c b :=
  fun b hb => Gen.V10_of m (outs m) c b fun hmem => hb (by
    simp only [List.mem_cons, List.mem_nil_iff, or_false] at hmem
    rcases hmem with rfl | rfl
    · exact Finset.mem_image.mpr ⟨5, Finset.mem_univ _, rfl⟩
    · exact Finset.mem_image.mpr ⟨6, Finset.mem_univ _, rfl⟩)

def pdats : (p : Fin 2) → (c : Dev nD) → Dat τ (Elt F) Unit ℕ (UR sig nD τ) ℕ (cfgs p) c
  | ⟨0, _⟩ => fun c => dat0 (V7' m) c
  | ⟨1, _⟩ => fun c => dat1 (V9' m) c

abbrev Lz : GSem nD τ sig → Finset Unit := fun _ => ∅
abbrev lvz : GSem nD τ sig → Unit → ℕ := fun _ _ => 0

abbrev Rr (c : Dev nD) : sProp 𝕄 :=
  iprop((∃ r, prngReg c r) ∗ ∃ W, owes (c : Thread nD τ) (0 : CellTallies nD τ sig Unit) W)

set_option backward.isDefEq.respectTransparency.types false in
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (V7' m) c).loose
  hwaits := Pipeline.hwaits_of_owed_zero _ _ _ _ Lz lvz 0 fun _ _ => rfl
  pre c := iprop(StableHlo.held (c : Thread nD τ) (Pipeline.ucRefs τ sig) (Gen.V7 m c) ∗ Rr c)
  post c := iprop(StableHlo.held (c : Thread nD τ) (Pipeline.ucRefs τ sig) (Gen.V8 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (V7' m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V7' m c) fun w => A_eq0 (V7' m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V7' m) c)
    unfold Pipeline.ΦA
    iintro ⟨Hp, -, Hr⟩
    isplitl [Hr]; · iexact Hr
    iexact Hp
  hout c := by
    rw [Pipeline.ownSems0_none]
    refine BIBase.Entails.trans (hout0 (V7' m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V7' m c) (V8' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (V9' m) c).loose
  hwaits := Pipeline.hwaits_of_owed_zero _ _ _ _ Lz lvz 1 fun _ _ => rfl
  pre c := iprop(StableHlo.held (c : Thread nD τ) (Pipeline.ucRefs τ sig) (Gen.V9 m (outs m) c) ∗ Rr c)
  post c := iprop(StableHlo.held (c : Thread nD τ) (Pipeline.ucRefs τ sig) (Gen.V10 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (V9' m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (V9' m c) fun w => A_eq1 (V9' m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (V9' m c) (V10' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem last_state (c : Dev nD) :
    (iprop(StableHlo.held (c : Thread nD τ) (Pipeline.ucRefs τ sig) (Gen.V10 m (outs m) c) ∗ Rr c) : sProp 𝕄)
      ⊢ iprop(StableHlo.held (c : Thread nD τ) (Pipeline.ucRefs τ sig) (Gen.V10 m (outs m) c) ∗ ∃ W, owes (c : Thread nD τ) (0 : CellTallies nD τ sig Unit) W) := by
  iintro ⟨Hh, -, HO⟩
  isplitl [Hh]; · iexact Hh
  iexact HO

/-- Core `c`'s twelve argument arrays hold in `mem` what they held at the launch. -/
def argsKept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)

set_option backward.isDefEq.respectTransparency.types false in
theorem run_values : θ_run defs (onTc (τ := τ) (main (F := F))) ⟨m, fun _ => 0, ρ⟩ (fun r => ∀ c : Dev nD,
      r.2.mem ((c.tc : Thread nD τ).loc main_v69) = Gen.V10 m (outs m) c main_v69
      ∧ r.2.mem ((c.tc : Thread nD τ).loc main_v71_0) = Gen.V10 m (outs m) c main_v71_0
      ∧ r.2.mem ((c.tc : Thread nD τ).loc main_v71_1) = Gen.V10 m (outs m) c main_v71_1
      ∧ argsKept m r.2.mem c) := by
  refine Pipeline.θ_run_regions_kit_dev (pcfgs (F := F)) Gen.adm (pdats m) () cellOf_inj emb₁ defs₀ Variants.none Lz lvz m ρ main
    (Gen.segs m (outs m) Variants.none Lz lvz (fun _ => Rr) () (pdats m) (reg0 m) (reg1 m))
    (fun c Q => by
      rewrite [main_chain c, Pipeline.Seg.run_eq_chain,
        show (Gen.segs m (outs m) Variants.none Lz lvz (fun _ => Rr) () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c))
    (Tₙ := fun c => StableHlo.held (c : Thread nD τ) (Pipeline.ucRefs τ sig) (Gen.V10 m (outs m) c))
    (hch := fun c => ⟨.rfl, .rfl, .rfl, .rfl, .rfl, .rfl, .rfl, .rfl, .rfl, .rfl, last_state m c⟩)
    (hinit := ?_)
    (QY := fun c s => s.mem ((c.tc : Thread nD τ).loc main_v69) = Gen.V10 m (outs m) c main_v69
      ∧ s.mem ((c.tc : Thread nD τ).loc main_v71_0) = Gen.V10 m (outs m) c main_v71_0
      ∧ s.mem ((c.tc : Thread nD τ).loc main_v71_1) = Gen.V10 m (outs m) c main_v71_1
      ∧ argsKept m s.mem c)
    (hfin := fun c s' => ?_) (hQ := fun _ h => h)
  ·

    refine Pipeline.initEach Lz lvz fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (Gen.V10 m (outs m) c) s') $$ [Hh HSI]
    · isplitl [Hh] <;> iassumption
    icases Hr with ⟨%h, HSI⟩
    imodintro
    isplitr
    · ipureintro
      have rd := fun (b : Ref sig .tc) (hb : _) => h (Proc.devRef .tc b) (Finset.mem_filter.mpr ⟨StableHlo.devRef_mem_tcRefs b, hb⟩)
      exact ⟨rd main_v69 (by decide), rd main_v71_0 (by decide), rd main_v71_1 (by decide),
        (rd main_arg0 (by decide)).trans (Gen.V10_main_arg0 m (outs m) c),
        (rd main_arg1 (by decide)).trans (Gen.V10_main_arg1 m (outs m) c),
        (rd main_arg2 (by decide)).trans (Gen.V10_main_arg2 m (outs m) c),
        (rd main_arg3 (by decide)).trans (Gen.V10_main_arg3 m (outs m) c),
        (rd main_arg4 (by decide)).trans (Gen.V10_main_arg4 m (outs m) c),
        (rd main_arg5 (by decide)).trans (Gen.V10_main_arg5 m (outs m) c),
        (rd main_arg6 (by decide)).trans (Gen.V10_main_arg6 m (outs m) c),
        (rd main_arg7 (by decide)).trans (Gen.V10_main_arg7 m (outs m) c),
        (rd main_arg8 (by decide)).trans (Gen.V10_main_arg8 m (outs m) c),
        (rd main_arg9 (by decide)).trans (Gen.V10_main_arg9 m (outs m) c),
        (rd main_arg10 (by decide)).trans (Gen.V10_main_arg10 m (outs m) c),
        (rd main_arg11 (by decide)).trans (Gen.V10_main_arg11 m (outs m) c)⟩
    · iexact HSI

theorem frame : θ_run defs (onTc (τ := τ) (main (F := F))) ⟨m, fun _ => 0, ρ⟩ (fun r => ∀ c : Dev nD,
      argsKept m r.2.mem c) :=
  (θ_run defs _ _).mono (fun _ h c => (h c).2.2.2) (run_values m ρ)

end Cert.Kernel.Hand

end
-- ==== Proof.KI.R0Kit.lean ====
import proofs.«429040_j74268574482523_3_alg».proof.Proof.Gen.KernelIdeal.Launch
import proofs.«429040_j74268574482523_3_alg».proof.Proof.Gen.KernelIdeal.Skeleton
import proofs.«429040_j74268574482523_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
/-- The totals are reset exactly at the first step of a row of the grid. -/
theorem hcond0_0 : ∀ t : Fin cfg0.N, cond0_0 (grid0.coords t) ↔ t.val % 32 = 0 :=
  (by decide +kernel : ∀ t : Fin grid0.N, cond0_0 (grid0.coords t) ↔ t.val % 32 = 0)

abbrev cond0_1 (i : grid0.Coords) : Prop := k0_cond2 i = 1#1
/-- The totals are handed over to the outputs exactly at the last step of a row. -/
theorem hcond0_1 : ∀ t : Fin cfg0.N, cond0_1 (grid0.coords t) ↔ t.val % 32 = 31 :=
  (by decide +kernel : ∀ t : Fin grid0.N, cond0_1 (grid0.coords t) ↔ t.val % 32 = 31)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0 : ∀ t : Fin cfg0.N, ¬t.val % 32 = 31 → ∀ w : Fin cfg0.W, 3 ≤ w.val →
    cfg0.idle w (grid0.coords t) = true ∧ (cfg0.win w).flush t = false := by decide +kernel
theorem liveAt0 : ∀ t : Fin cfg0.N, t.val % 32 = 31 → ∀ w : Fin cfg0.W, cfg0.idle w (grid0.coords t) = false := by decide +kernel

abbrev scM0_0 : Memref sig .tc .vmem S512x1 .f32 := Memref.whole cc0_scratch0
abbrev scM0_1 : Memref sig .tc .vmem S512x1 .f32 := Memref.whole cc0_scratch1
abbrev scM0_2 : Memref sig .tc .vmem S512x128 .f32 := Memref.whole cc0_scratch2

theorem hz2 : (![0, 0] : Fin 2 → Nat) = fun _ => 0 := funext fun a => by fin_cases a <;> rfl
theorem hz3 : (![0, 0, 0] : Fin 3 → Nat) = fun _ => 0 := funext fun a => by fin_cases a <;> rfl

/-- The three running totals: the read normaliser, the write normaliser, the read accumulator. -/
abbrev Acc (F : FTy → Type) [FloatOps F] : Type := Vec F S512x1 .f32 × Vec F S512x1 .f32 × Vec F S512x128 .f32

/-- The totals as a reset leaves them. -/
def acc00 : Acc F := (k0_pay6, k0_pay7, k0_pay8)

/-- One step: each total grows by the share of the block `x0` of memory rows, against the queries `x1` and shifts `x2`. -/
def accStep (x0 : Vec F S2048x128 .f32) (x1 : Vec F S1024x128 .bf16) (x2 : Vec F S1024x1 .f32) (s : Acc F) : Acc F :=
  (k0_pay13 x0 x1 x2 s.1, k0_pay1 (k0_pay14 x0 x1 x2 s.2.1), k0_pay2 (k0_pay9 x0) (k0_pay12 x0 x1 x2) s.2.2)

/-- What the invariant carries beside the three totals. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The call's invariant, with `φ0`, `φ1`, `φ2` saying what the three totals hold. -/
def accInv (c : Dev nD) (φ0 φ1 φ2 : sProp 𝕄) : sProp 𝕄 := iprop(iprop(φ0 ∗ φ1 ∗ φ2 ∗ rest0 c) ∗ (∃ r, prngReg c r))

theorem PhiA0_eq (c : Dev nD) :
    (Pipeline.ΦA spec0 c : sProp 𝕄) = accInv c iprop(∃ d, owns (c : Thread nD τ) scM0_0 fullShare d)
      iprop(∃ d, owns (c : Thread nD τ) scM0_1 fullShare d) iprop(∃ d, owns (c : Thread nD τ) scM0_2 fullShare d) := by
  unfold Pipeline.ΦA accInv rest0; rw [scopedRest0_eq]; simp only [scM0_0, scM0_1, scM0_2, owns_whole]; try rfl

end Cert.KernelIdeal.Hand

end
-- ==== Proof.KI.R0RunA.lean ====
import proofs.«429040_j74268574482523_3_alg».proof.Proof.KI.R0Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S2048x128 .f32) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hc0 : cond0_0 i) (hc1 : ¬cond0_1 i)
    (x0 : Vec F S2048x128 .f32) (x1 : Vec F S1024x128 .bf16) (x2 : Vec F S1024x1 .f32) :
    Σ' (L3 : List (View.Piece (Elt F) S1x512x128 .f32)), Σ' (L4 : List (View.Piece (Elt F) S1x512x1 .f32)), Σ' (L5 : List (View.Piece (Elt F) S1x512x1 .f32)), Σ' (LS0 : List (View.Piece (Elt F) S512x1 .f32)), Σ' (LS1 : List (View.Piece (Elt F) S512x1 .f32)), { LS2 : List (View.Piece (Elt F) S512x128 .f32) //
      ∀ (xi3 : Vec F S1x512x128 .f32) (xi4 : Vec F S1x512x1 .f32) (xi5 : Vec F S1x512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

/-- At the first step of a row the three stores read as one step from the reset totals. -/
theorem pieces0_A (c : Dev nD) (i : grid0.Coords) (arg2 : Memref sig .tc .vmem S2048x128 .f32) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hc0 : cond0_0 i) (hc1 : ¬cond0_1 i)
    (x0 : Vec F S2048x128 .f32) (x1 : Vec F S1024x128 .bf16) (x2 : Vec F S1024x1 .f32) :
    (∀ f, arg8.view.read (Elt F) (arg8.view.writes (Elt F) f (kernelRun0_A c i arg2 harg2 arg3 harg3 arg4 harg4 arg5 harg5 arg6 harg6 arg7 harg7 arg8 harg8 arg9 harg9 arg10 harg10 hc0 hc1 x0 x1 x2).2.2.2.1) = k0_pay13 x0 x1 x2 k0_pay6)
    ∧ (∀ f, arg9.view.read (Elt F) (arg9.view.writes (Elt F) f (kernelRun0_A c i arg2 harg2 arg3 harg3 arg4 harg4 arg5 harg5 arg6 harg6 arg7 harg7 arg8 harg8 arg9 harg9 arg10 harg10 hc0 hc1 x0 x1 x2).2.2.2.2.1) = k0_pay1 (k0_pay14 x0 x1 x2 k0_pay7))
    ∧ (∀ f, arg10.view.read (Elt F) (arg10.view.writes (Elt F) f (kernelRun0_A c i arg2 harg2 arg3 harg3 arg4 harg4 arg5 harg5 arg6 harg6 arg7 harg7 arg8 harg8 arg9 harg9 arg10 harg10 hc0 hc1 x0 x1 x2).2.2.2.2.2.1) = k0_pay2 (k0_pay9 x0) (k0_pay12 x0 x1 x2) k0_pay8) := by
  refine ⟨?_, ?_, ?_⟩ <;>
  (intro f
   rw [View.read_writes_eq_canon _ _ _ (View.cover_of_tiledL _ (Shape.size _) (by sl_kernel_rfl))]
   unfold kernelRun0_A
   dsimp only
   try sl_unfold_words
   first | rw [View.canon_cons_unit_zero hz2] | rw [View.canon_cons_unit_zero hz3]
   simp only [View.readAt_eq_ld, harg2.read_unread, harg3.read_unread, harg4.read_unread, harg5.read_unread, harg6.read_unread, harg7.read_unread, harg8.read_unread, harg9.read_unread, harg10.read_unread, View.ld_unit_zero (S := S2048x128) hz2, View.ld_unit_zero (S := S1024x128) hz2, View.ld_unit_zero (S := S1024x1) hz2, View.ld_unit_zero (S := S512x1) hz2, View.ld_unit_zero (S := S512x128) hz2, View.ld_unit_zero (S := S1x512x128) hz3, View.ld_unit_zero (S := S1x512x1) hz3, View.readCov_unit_zero (S := S512x1) _ hz2, View.readCov_unit_zero (S := S512x128) _ hz2])

end Cert.KernelIdeal.Hand

end
-- ==== Proof.KI.R0RunB.lean ====
import proofs.«429040_j74268574482523_3_alg».proof.Proof.KI.R0Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S2048x128 .f32) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hc0 : ¬cond0_0 i) (hc1 : ¬cond0_1 i)
    (x0 : Vec F S2048x128 .f32) (x1 : Vec F S1024x128 .bf16) (x2 : Vec F S1024x1 .f32) (xs0 : Vec F S512x1 .f32) (xs1 : Vec F S512x1 .f32) (xs2 : Vec F S512x128 .f32) :
    Σ' (L3 : List (View.Piece (Elt F) S1x512x128 .f32)), Σ' (L4 : List (View.Piece (Elt F) S1x512x1 .f32)), Σ' (L5 : List (View.Piece (Elt F) S1x512x1 .f32)), Σ' (LS0 : List (View.Piece (Elt F) S512x1 .f32)), Σ' (LS1 : List (View.Piece (Elt F) S512x1 .f32)), { LS2 : List (View.Piece (Elt F) S512x128 .f32) //
      ∀ (xi3 : Vec F S1x512x128 .f32) (xi4 : Vec F S1x512x1 .f32) (xi5 : Vec F S1x512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

/-- At a middle step the three stores read as one step from the totals found. -/
theorem pieces0_B (c : Dev nD) (i : grid0.Coords) (arg2 : Memref sig .tc .vmem S2048x128 .f32) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hc0 : ¬cond0_0 i) (hc1 : ¬cond0_1 i)
    (x0 : Vec F S2048x128 .f32) (x1 : Vec F S1024x128 .bf16) (x2 : Vec F S1024x1 .f32) (xs0 : Vec F S512x1 .f32) (xs1 : Vec F S512x1 .f32) (xs2 : Vec F S512x128 .f32) :
    (∀ f, arg8.view.read (Elt F) (arg8.view.writes (Elt F) f (kernelRun0_B c i arg2 harg2 arg3 harg3 arg4 harg4 arg5 harg5 arg6 harg6 arg7 harg7 arg8 harg8 arg9 harg9 arg10 harg10 hc0 hc1 x0 x1 x2 xs0 xs1 xs2).2.2.2.1) = k0_pay13 x0 x1 x2 xs0)
    ∧ (∀ f, arg9.view.read (Elt F) (arg9.view.writes (Elt F) f (kernelRun0_B c i arg2 harg2 arg3 harg3 arg4 harg4 arg5 harg5 arg6 harg6 arg7 harg7 arg8 harg8 arg9 harg9 arg10 harg10 hc0 hc1 x0 x1 x2 xs0 xs1 xs2).2.2.2.2.1) = k0_pay1 (k0_pay14 x0 x1 x2 xs1))
    ∧ (∀ f, arg10.view.read (Elt F) (arg10.view.writes (Elt F) f (kernelRun0_B c i arg2 harg2 arg3 harg3 arg4 harg4 arg5 harg5 arg6 harg6 arg7 harg7 arg8 harg8 arg9 harg9 arg10 harg10 hc0 hc1 x0 x1 x2 xs0 xs1 xs2).2.2.2.2.2.1) = k0_pay2 (k0_pay9 x0) (k0_pay12 x0 x1 x2) xs2) := by
  refine ⟨?_, ?_, ?_⟩ <;>
  (intro f
   rw [View.read_writes_eq_canon _ _ _ (View.cover_of_tiledL _ (Shape.size _) (by sl_kernel_rfl))]
   unfold kernelRun0_B
   dsimp only
   try sl_unfold_words
   first | rw [View.canon_cons_unit_zero hz2] | rw [View.canon_cons_unit_zero hz3]
   simp only [View.readAt_eq_ld, harg2.read_unread, harg3.read_unread, harg4.read_unread, harg5.read_unread, harg6.read_unread, harg7.read_unread, harg8.read_unread, harg9.read_unread, harg10.read_unread, View.ld_unit_zero (S := S2048x128) hz2, View.ld_unit_zero (S := S1024x128) hz2, View.ld_unit_zero (S := S1024x1) hz2, View.ld_unit_zero (S := S512x1) hz2, View.ld_unit_zero (S := S512x128) hz2, View.ld_unit_zero (S := S1x512x128) hz3, View.ld_unit_zero (S := S1x512x1) hz3, View.readCov_unit_zero (S := S512x1) _ hz2, View.readCov_unit_zero (S := S512x128) _ hz2])

end Cert.KernelIdeal.Hand

end
-- ==== Proof.KI.R0RunC.lean ====
import proofs.«429040_j74268574482523_3_alg».proof.Proof.KI.R0Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S2048x128 .f32) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hc0 : ¬cond0_0 i) (hc1 : cond0_1 i)
    (x0 : Vec F S2048x128 .f32) (x1 : Vec F S1024x128 .bf16) (x2 : Vec F S1024x1 .f32) (xs0 : Vec F S512x1 .f32) (xs1 : Vec F S512x1 .f32) (xs2 : Vec F S512x128 .f32) :
    Σ' (L3 : List (View.Piece (Elt F) S1x512x128 .f32)), Σ' (L4 : List (View.Piece (Elt F) S1x512x1 .f32)), Σ' (L5 : List (View.Piece (Elt F) S1x512x1 .f32)), Σ' (LS0 : List (View.Piece (Elt F) S512x1 .f32)), Σ' (LS1 : List (View.Piece (Elt F) S512x1 .f32)), { LS2 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

/-- At the last step of a row the totals step as ever and each output block ends at one of the new totals. -/
theorem pieces0_C (c : Dev nD) (i : grid0.Coords) (arg2 : Memref sig .tc .vmem S2048x128 .f32) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hc0 : ¬cond0_0 i) (hc1 : cond0_1 i)
    (x0 : Vec F S2048x128 .f32) (x1 : Vec F S1024x128 .bf16) (x2 : Vec F S1024x1 .f32) (xs0 : Vec F S512x1 .f32) (xs1 : Vec F S512x1 .f32) (xs2 : Vec F S512x128 .f32) :
    (∀ f, arg8.view.read (Elt F) (arg8.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.2.2.1) = k0_pay13 x0 x1 x2 xs0)
    ∧ (∀ f, arg9.view.read (Elt F) (arg9.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.2.2.2.1) = k0_pay1 (k0_pay14 x0 x1 x2 xs1))
    ∧ (∀ f, arg10.view.read (Elt F) (arg10.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.2.2.2.2.1) = k0_pay2 (k0_pay9 x0) (k0_pay12 x0 x1 x2) xs2)
    ∧ (∀ f, arg5.view.read (Elt F) (arg5.view.writes (Elt F) f (kernelRun0_C c i arg2 harg2 arg3 harg3 arg4 harg4 arg5 harg5 arg6 harg6 arg7 harg7 arg8 harg8 arg9 harg9 arg10 harg10 hc0 hc1 x0 x1 x2 xs0 xs1 xs2).1) = k0_pay3 (k0_pay2 (k0_pay9 x0) (k0_pay12 x0 x1 x2) xs2))
    ∧ (∀ f, arg6.view.read (Elt F) (arg6.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.1) = k0_pay4 (k0_pay13 x0 x1 x2 xs0))
    ∧ (∀ f, arg7.view.read (Elt F) (arg7.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.2.1) = k0_pay5 (k0_pay1 (k0_pay14 x0 x1 x2 xs1))) := by
  refine ⟨?_, ?_, ?_, ?_, ?_, ?_⟩ <;>
  (intro f
   rw [View.read_writes_eq_canon _ _ _ (View.cover_of_tiledL _ (Shape.size _) (by sl_kernel_rfl))]
   unfold kernelRun0_C
   dsimp only
   try sl_unfold_words
   first | rw [View.canon_cons_unit_zero hz2] | rw [View.canon_cons_unit_zero hz3]
   simp only [View.readAt_eq_ld, harg2.read_unread, harg3.read_unread, harg4.read_unread, harg5.read_unread, harg6.read_unread, harg7.read_unread, harg8.read_unread, harg9.read_unread, harg10.read_unread, View.ld_unit_zero (S := S2048x128) hz2, View.ld_unit_zero (S := S1024x128) hz2, View.ld_unit_zero (S := S1024x1) hz2, View.ld_unit_zero (S := S512x1) hz2, View.ld_unit_zero (S := S512x128) hz2, View.ld_unit_zero (S := S1x512x128) hz3, View.ld_unit_zero (S := S1x512x1) hz3, View.readCov_unit_zero (S := S512x1) _ hz2, View.readCov_unit_zero (S := S512x128) _ hz2])

end Cert.KernelIdeal.Hand

end
-- ==== Proof.KI.R0Frame.lean ====
import proofs.«429040_j74268574482523_3_alg».proof.Proof.KI.R0RunA
import proofs.«429040_j74268574482523_3_alg».proof.Proof.KI.R0RunB
import proofs.«429040_j74268574482523_3_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at step `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The totals after step `n`: one step from the reset totals at the first step of a row, else from the step before. -/
def accsAt0 (c : Dev nD) : (n : ℕ) → n < cfg0.N → Acc F
  | 0, hn => accStep (iblk0 V c 0 ⟨0, hn⟩) (iblk0 V c 1 ⟨0, hn⟩) (iblk0 V c 2 ⟨0, hn⟩) acc00
  | n + 1, hn => accStep (iblk0 V c 0 ⟨n + 1, hn⟩) (iblk0 V c 1 ⟨n + 1, hn⟩) (iblk0 V c 2 ⟨n + 1, hn⟩)
      (if (n + 1) % 32 = 0 then acc00 else accsAt0 c n (Nat.lt_of_succ_lt hn))

/-- What the step before `t` left. -/
abbrev prevAcc0 (c : Dev nD) (t : Fin cfg0.N) : Acc F := accsAt0 V c (t.val - 1) (Nat.lt_of_le_of_lt (Nat.sub_le _ _) t.isLt)

theorem accsAt0_first (c : Dev nD) (t : Fin cfg0.N) (h0 : t.val % 32 = 0) :
    accsAt0 V c t.val t.isLt = accStep (iblk0 V c 0 t) (iblk0 V c 1 t) (iblk0 V c 2 t) acc00 := by
  obtain ⟨n, hn⟩ := t
  cases n with
  | zero => rfl
  | succ n =>
    have h : (n + 1) % 32 = 0 := h0
    show accStep _ _ _ (if (n + 1) % 32 = 0 then acc00 else _) = _
    rw [if_pos h]

theorem accsAt0_next (c : Dev nD) (t : Fin cfg0.N) (h0 : ¬t.val % 32 = 0) :
    accsAt0 V c t.val t.isLt = accStep (iblk0 V c 0 t) (iblk0 V c 1 t) (iblk0 V c 2 t) (prevAcc0 V c t) := by
  obtain ⟨n, hn⟩ := t
  cases n with
  | zero => exact absurd (Nat.zero_mod _) h0
  | succ n =>
    have h : ¬(n + 1) % 32 = 0 := h0
    show accStep _ _ _ (if (n + 1) % 32 = 0 then acc00 else _) = _
    rw [if_neg h]; rfl

/-- The invariant before step `n` names the totals the step before left. -/
def PhiS0 (c : Dev nD) : (n : ℕ) → n ≤ cfg0.N → sProp 𝕄
  | 0, _ => Pipeline.ΦA spec0 c
  | n + 1, hn => accInv c (owns (c : Thread nD τ) scM0_0 fullShare (accsAt0 V c n hn).1)
      (owns (c : Thread nD τ) scM0_1 fullShare (accsAt0 V c n hn).2.1) (owns (c : Thread nD τ) scM0_2 fullShare (accsAt0 V c n hn).2.2)

theorem PhiS0_pos (c : Dev nD) (n : ℕ) (h : n ≤ cfg0.N) (hz : n ≠ 0) :
    PhiS0 V c n h = accInv c (owns (c : Thread nD τ) scM0_0 fullShare (accsAt0 V c (n - 1) (by omega)).1)
      (owns (c : Thread nD τ) scM0_1 fullShare (accsAt0 V c (n - 1) (by omega)).2.1) (owns (c : Thread nD τ) scM0_2 fullShare (accsAt0 V c (n - 1) (by omega)).2.2) := by
  cases n with
  | zero => exact absurd rfl hz
  | succ n => rfl

theorem PhiS0_succ (c : Dev nD) (n : ℕ) (hn : n < cfg0.N) :
    PhiS0 V c (n + 1) hn = accInv c (owns (c : Thread nD τ) scM0_0 fullShare (accsAt0 V c n hn).1)
      (owns (c : Thread nD τ) scM0_1 fullShare (accsAt0 V c n hn).2.1) (owns (c : Thread nD τ) scM0_2 fullShare (accsAt0 V c n hn).2.2) := rfl

/-- Forgetting what the totals hold gives the call's own invariant back, before any step. -/
theorem Phi_any0 (c : Dev nD) (n : ℕ) (h : n ≤ cfg0.N) : PhiS0 V c n h ⊢ accInv c iprop(∃ d, owns (c : Thread nD τ) scM0_0 fullShare d) iprop(∃ d, owns (c : Thread nD τ) scM0_1 fullShare d) iprop(∃ d, owns (c : Thread nD τ) scM0_2 fullShare d) := by
  cases n with
  | zero => rw [← PhiA0_eq]; exact .rfl
  | succ n =>
    rw [PhiS0_succ]; unfold accInv
    iintro ⟨⟨HS0, HS1, HS2, HR⟩, Hg⟩
    isplitl [HS0 HS1 HS2 HR]
    · isplitl [HS0]; · iexists _; iexact HS0
      isplitl [HS1]; · iexists _; iexact HS1
      isplitl [HS2]; · iexists _; iexact HS2
      iexact HR
    iexact Hg

/-- The proof data: step `t` leaves each input block as it was and hands each output one of the totals. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accsAt0 V c t.val t.isLt).2.2
    | ⟨4, _⟩ => k0_pay4 (accsAt0 V c t.val t.isLt).1
    | ⟨5, _⟩ => k0_pay5 (accsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (accsAt0 V c t.val t.isLt).2.2 := by dsimp only [dat0]
theorem after0_4 (c : Dev nD) (t : Fin cfg0.N) : (dat0 V c).after 4 t = k0_pay4 (accsAt0 V c t.val t.isLt).1 := by dsimp only [dat0]
theorem after0_5 (c : Dev nD) (t : Fin cfg0.N) : (dat0 V c).after 5 t = k0_pay5 (accsAt0 V c t.val t.isLt).2.1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- At any step the body takes the totals from the invariant and hands them back one step on; an output is stored only at the last step of a row. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl,
    show (dat0 V c).Φ t.castSucc = PhiS0 V c t.val (Nat.le_of_lt t.isLt) from rfl]
  have hN : t.val < 64 := lt_of_lt_of_eq t.isLt (show cfg0.N = 64 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [PhiS0_succ]
  by_cases h1 : t.val % 32 = 31
  · have h0 : ¬t.val % 32 = 0 := by omega
    rw [show (dat0 V c).leavesExact 3 t = owns (c : Thread nD τ) (st0_3 t) fullShare ((dat0 V c).after 3 t) from by
      unfold Dat.leavesExact; rw [liveAt0 t h1 3], after0_3]
    rw [show (dat0 V c).leavesExact 4 t = owns (c : Thread nD τ) (st0_4 t) fullShare ((dat0 V c).after 4 t) from by
      unfold Dat.leavesExact; rw [liveAt0 t h1 4], after0_4]
    rw [show (dat0 V c).leavesExact 5 t = owns (c : Thread nD τ) (st0_5 t) fullShare ((dat0 V c).after 5 t) from by
      unfold Dat.leavesExact; rw [liveAt0 t h1 5], after0_5]
    rw [PhiS0_pos V c t.val _ (by omega), accsAt0_next V c t h0]
    unfold accInv
    iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
    iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) _ _ _).2.2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    iintro ⟨H0, H1, H2, ⟨%e3, H3⟩, ⟨%e4, H4⟩, ⟨%e5, H5⟩, ⟨%es0, HS0⟩, ⟨%es1, HS1⟩, ⟨%es2, HS2⟩⟩
    isplitl [HS0 HS1 HS2 HR Hg]
    · isplitl [HS0 HS1 HS2 HR]
      · isplitl [HS0]
        · unfold owns; iexists _; isplitr
          swap; · iexact HS0
          ipureintro; exact ((pieces0_C c _ _ _ _ _ _ _ _ _ _ _ _ _ _ _ _ _ _ _ (fun h => h0 ((hcond0_0 t).mp h)) ((hcond0_1 t).mpr h1) (iblk0 V c 0 t) (iblk0 V c 1 t) (iblk0 V c 2 t) _ _ _).1 _)
        isplitl [HS1]
        · unfold owns; iexists _; isplitr
          swap; · iexact HS1
          ipureintro; exact ((pieces0_C c _ _ _ _ _ _ _ _ _ _ _ _ _ _ _ _ _ _ _ (fun h => h0 ((hcond0_0 t).mp h)) ((hcond0_1 t).mpr h1) (iblk0 V c 0 t) (iblk0 V c 1 t) (iblk0 V c 2 t) _ _ _).2.1 _)
        isplitl [HS2]
        · unfold owns; iexists _; isplitr
          swap; · iexact HS2
          ipureintro; exact ((pieces0_C c _ _ _ _ _ _ _ _ _ _ _ _ _ _ _ _ _ _ _ (fun h => h0 ((hcond0_0 t).mp h)) ((hcond0_1 t).mpr h1) (iblk0 V c 0 t) (iblk0 V c 1 t) (iblk0 V c 2 t) _ _ _).2.2.1 _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact ((pieces0_C c _ _ _ _ _ _ _ _ _ _ _ _ _ _ _ _ _ _ _ (fun h => h0 ((hcond0_0 t).mp h)) ((hcond0_1 t).mpr h1) (iblk0 V c 0 t) (iblk0 V c 1 t) (iblk0 V c 2 t) _ _ _).2.2.2.1 _)
    isplitl [H4]
    · unfold owns; iexists _; isplitr
      swap; · iexact H4
      ipureintro; exact ((pieces0_C c _ _ _ _ _ _ _ _ _ _ _ _ _ _ _ _ _ _ _ (fun h => h0 ((hcond0_0 t).mp h)) ((hcond0_1 t).mpr h1) (iblk0 V c 0 t) (iblk0 V c 1 t) (iblk0 V c 2 t) _ _ _).2.2.2.2.1 _)
    unfold owns; iexists _; isplitr
    swap; · iexact H5
    ipureintro; exact ((pieces0_C c _ _ _ _ _ _ _ _ _ _ _ _ _ _ _ _ _ _ _ (fun h => h0 ((hcond0_0 t).mp h)) ((hcond0_1 t).mpr h1) (iblk0 V c 0 t) (iblk0 V c 1 t) (iblk0 V c 2 t) _ _ _).2.2.2.2.2 _)
  · rw [Dat.leavesExact_idle (dat0 V c) 3 t (idleAt0 t h1 3 (by decide)).1 (idleAt0 t h1 3 (by decide)).2]
    rw [Dat.leavesExact_idle (dat0 V c) 4 t (idleAt0 t h1 4 (by decide)).1 (idleAt0 t h1 4 (by decide)).2]
    rw [Dat.leavesExact_idle (dat0 V c) 5 t (idleAt0 t h1 5 (by decide)).1 (idleAt0 t h1 5 (by decide)).2]
    by_cases h0 : t.val % 32 = 0
    · rw [accsAt0_first V c t h0]
      iintro ⟨HΦ, Ho, ⟨%d0, H0⟩, ⟨%d1, H1⟩, ⟨%d2, H2⟩, ⟨%d3, H3⟩, ⟨%d4, H4⟩, ⟨%d5, H5⟩⟩
      ihave HΦ := (Phi_any0 V c _ _) $$ HΦ
      unfold accInv
      icases HΦ with ⟨⟨HS0, HS1, HS2, HR⟩, Hg⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t)).2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 HR Hg]
      · isplitl [HS0 HS1 HS2 HR]
        · isplitl [HS0]
          · unfold owns; iexists _; isplitr
            swap; · iexact HS0
            ipureintro; exact ((pieces0_A c _ _ _ _ _ _ _ _ _ _ _ _ _ _ _ _ _ _ _ ((hcond0_0 t).mpr h0) (fun h => h1 ((hcond0_1 t).mp h)) (iblk0 V c 0 t) (iblk0 V c 1 t) (iblk0 V c 2 t)).1 _)
          isplitl [HS1]
          · unfold owns; iexists _; isplitr
            swap; · iexact HS1
            ipureintro; exact ((pieces0_A c _ _ _ _ _ _ _ _ _ _ _ _ _ _ _ _ _ _ _ ((hcond0_0 t).mpr h0) (fun h => h1 ((hcond0_1 t).mp h)) (iblk0 V c 0 t) (iblk0 V c 1 t) (iblk0 V c 2 t)).2.1 _)
          isplitl [HS2]
          · unfold owns; iexists _; isplitr
            swap; · iexact HS2
            ipureintro; exact ((pieces0_A c _ _ _ _ _ _ _ _ _ _ _ _ _ _ _ _ _ _ _ ((hcond0_0 t).mpr h0) (fun h => h1 ((hcond0_1 t).mp h)) (iblk0 V c 0 t) (iblk0 V c 1 t) (iblk0 V c 2 t)).2.2 _)
          iexact HR
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · rw [PhiS0_pos V c t.val _ (by omega), accsAt0_next V c t h0]
      unfold accInv
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) _ _ _).2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 HR Hg]
      · isplitl [HS0 HS1 HS2 HR]
        · isplitl [HS0]
          · unfold owns; iexists _; isplitr
            swap; · iexact HS0
            ipureintro; exact ((pieces0_B c _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) _ _ _).1 _)
          isplitl [HS1]
          · unfold owns; iexists _; isplitr
            swap; · iexact HS1
            ipureintro; exact ((pieces0_B c _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) _ _ _).2.1 _)
          isplitl [HS2]
          · unfold owns; iexists _; isplitr
            swap; · iexact HS2
            ipureintro; exact ((pieces0_B c _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) _ _ _).2.2 _)
          iexact HR
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  show _ ⊢ Pipeline.ΦA spec0 c; exact .rfl

theorem hout0 (c : Dev nD) : (dat0 V c).Φ (Fin.last cfg0.N) ⊢ Pipeline.ΦA spec0 c := by
  rw [PhiA0_eq]; exact Phi_any0 V c (Fin.last cfg0.N).val _

end Region0

end Cert.KernelIdeal.Hand

end
-- ==== Proof.KI.R1Run.lean ====
import proofs.«429040_j74268574482523_3_alg».proof.Proof.KI.R0Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg1 : Memref sig .tc .vmem S2048x128 .f32) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x1 .f32) (harg5 : arg5.IsWhole) (arg6 : Memref sig .tc .vmem S512x2048 .f32) (harg6 : arg6.IsWhole) (arg7 : Memref sig .tc .vmem S2048x128 .f32) (harg7 : arg7.IsWhole)
    (x0 : Vec F S2048x128 .f32) (x1 x2 x3 : Vec F S512x128 .bf16) (x4 : Vec F S512x1 .f32) :
    Σ' (L5 : List (View.Piece (Elt F) S512x2048 .f32)), { L6 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc1__pass2_kernel i arg1 harg1 arg2 harg2 arg3 harg3 arg4 harg4 arg5 harg5 arg6 harg6 arg7 harg7) K } := by
  refine ⟨?_, ?_, fun E K => ?run⟩
  case run =>
    simp only [cc1__pass2_kernel_eq_skeleton]; unfold cc1__pass2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

/-- What the update pass's two stores read as. -/
theorem pieces1 (c : Dev nD) (i : grid1.Coords) (arg1 : Memref sig .tc .vmem S2048x128 .f32) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x1 .f32) (harg5 : arg5.IsWhole) (arg6 : Memref sig .tc .vmem S512x2048 .f32) (harg6 : arg6.IsWhole) (arg7 : Memref sig .tc .vmem S2048x128 .f32) (harg7 : arg7.IsWhole)
    (x0 : Vec F S2048x128 .f32) (x1 x2 x3 : Vec F S512x128 .bf16) (x4 : Vec F S512x1 .f32) :
    (∀ f, arg6.view.read (Elt F) (arg6.view.writes (Elt F) f (kernelRun1_A c i arg1 harg1 arg2 harg2 arg3 harg3 arg4 harg4 arg5 harg5 arg6 harg6 arg7 harg7 x0 x1 x2 x3 x4).1) = k1_pay2 x0 x1 x4)
    ∧ (∀ f, arg7.view.read (Elt F) (arg7.view.writes (Elt F) f (kernelRun1_A c i arg1 harg1 arg2 harg2 arg3 harg3 arg4 harg4 arg5 harg5 arg6 harg6 arg7 harg7 x0 x1 x2 x3 x4).2.1) = k1_pay1 x0 (k1_pay4 x0 x1 x4 x3) (k1_pay5 x0 x1 x4 x2)) := by
  refine ⟨?_, ?_⟩ <;>
  (intro f
   rw [View.read_writes_eq_canon _ _ _ (View.cover_of_tiledL _ (Shape.size _) (by sl_kernel_rfl))]
   unfold kernelRun1_A
   dsimp only
   try sl_unfold_words
   rw [View.canon_unit_zero hz2]
   simp only [View.readAt_eq_ld, harg1.read_unread, harg2.read_unread, harg3.read_unread, harg4.read_unread, harg5.read_unread,
     View.ld_unit_zero (S := S2048x128) hz2, View.ld_unit_zero (S := S512x128) hz2, View.ld_unit_zero (S := S512x1) hz2])

end Cert.KernelIdeal.Hand

end
-- ==== Proof.KI.R1Frame.lean ====
import proofs.«429040_j74268574482523_3_alg».proof.Proof.KI.R1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at step `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: step `t` leaves each input block as it was; its outputs are the write weights and the updated rows of the block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay2 (iblk1 V c 0 t) (iblk1 V c 1 t) (iblk1 V c 4 t)
    | ⟨6, _⟩ => k1_pay1 (iblk1 V c 0 t) (k1_pay4 (iblk1 V c 0 t) (iblk1 V c 1 t) (iblk1 V c 4 t) (iblk1 V c 3 t)) (k1_pay5 (iblk1 V c 0 t) (iblk1 V c 1 t) (iblk1 V c 4 t) (iblk1 V c 2 t))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay2 (iblk1 V c 0 t) (iblk1 V c 1 t) (iblk1 V c 4 t) := by dsimp only [dat1]
theorem after1_6 (c : Dev nD) (t : Fin cfg1.N) : (dat1 V c).after 6 t = k1_pay1 (iblk1 V c 0 t) (k1_pay4 (iblk1 V c 0 t) (iblk1 V c 1 t) (iblk1 V c 4 t) (iblk1 V c 3 t)) (k1_pay5 (iblk1 V c 0 t) (iblk1 V c 1 t) (iblk1 V c 4 t) (iblk1 V c 2 t)) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1_A c (grid1.coords t) _ _ _ _ _ _ _ _ _ _ _ _ _ _ (iblk1 V c 0 t) (iblk1 V c 1 t) (iblk1 V c 2 t) (iblk1 V c 3 t) (iblk1 V c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact (pieces1 c _ _ _ _ _ _ _ _ _ _ _ _ _ _ _ (iblk1 V c 0 t) (iblk1 V c 1 t) (iblk1 V c 2 t) (iblk1 V c 3 t) (iblk1 V c 4 t)).1 _
  unfold owns; iexists _; isplitr
  swap; · iexact H6
  ipureintro; exact (pieces1 c _ _ _ _ _ _ _ _ _ _ _ _ _ _ _ (iblk1 V c 0 t) (iblk1 V c 1 t) (iblk1 V c 2 t) (iblk1 V c 3 t) (iblk1 V c 4 t)).2 _

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Regs.lean ====
import proofs.«429040_j74268574482523_3_alg».proof.Proof.KI.R0Frame
import proofs.«429040_j74268574482523_3_alg».proof.Proof.KI.R1Frame
import proofs.«429040_j74268574482523_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V7' : (c : Dev nD) → (b : Ref sig .tc) → Buf (Elt F) ((c : Thread nD τ).loc b) :=
  fun c b => Gen.V7 m c (Proc.devRef .tc b)

def W8 (c : Dev nD) : Valuation τ sig (Elt F) :=
  Pipeline.withArrays spec0 c (Gen.V7 m c) fun w => (dat0 (V7' m) c).arrAt w cfg0.N

theorem W8_arr (c : Dev nD) (w : Fin cfg0.W) :
    W8 m c (Proc.devRef .tc (Pipeline.arrRef spec0 w)) = (dat0 (V7' m) c).arrAt w cfg0.N := by
  unfold W8; exact Pipeline.withArrays_arr spec0 launch0.win.arr_inj c _ _ w

def outsA : (r : Ref sig .tc) → (c : Dev nD) → Buf (Elt F) ((c : Thread nD τ).loc r) :=
  fun r c => W8 m c (Proc.devRef .tc r)

abbrev V9A' : (c : Dev nD) → (b : Ref sig .tc) → Buf (Elt F) ((c : Thread nD τ).loc b) :=
  fun c b => Gen.V9 m (fun _ => outsA m) c (Proc.devRef .tc b)

def W10 (c : Dev nD) : Valuation τ sig (Elt F) :=
  Pipeline.withArrays spec1 c (Gen.V9 m (fun _ => outsA m) c) fun w => (dat1 (V9A' m) c).arrAt w cfg1.N

theorem W10_arr (c : Dev nD) (w : Fin cfg1.W) :
    W10 m c (Proc.devRef .tc (Pipeline.arrRef spec1 w)) = (dat1 (V9A' m) c).arrAt w cfg1.N := by
  unfold W10; exact Pipeline.withArrays_arr spec1 launch1.win.arr_inj c _ _ w

def outsB : (r : Ref sig .tc) → (c : Dev nD) → Buf (Elt F) ((c : Thread nD τ).loc r) :=
  fun r c => W10 m c (Proc.devRef .tc r)

def outs : Gen.Outs (F := F) := fun J => if J = 10 then outsB m else outsA m

theorem outs_8 : outs m 8 = outsA m := if_neg (by decide)
theorem outs_10 : outs m 10 = outsB m := if_pos rfl

theorem V8_outs (c : Dev nD) : Gen.V8 m (outs m) c = Gen.V8 m (fun _ => outsA m) c := by
  simp only [Gen.V8, outs_8]

theorem V9_outs (c : Dev nD) : Gen.V9 m (outs m) c = Gen.V9 m (fun _ => outsA m) c :=
  congrArg (StableHlo.after hostOps1) (V8_outs m c)

abbrev V9' : (c : Dev nD) → (b : Ref sig .tc) → Buf (Elt F) ((c : Thread nD τ).loc b) :=
  fun c b => Gen.V9 m (outs m) c (Proc.devRef .tc b)

theorem V9'_eq : V9' m = V9A' m :=
  funext fun c => funext fun b => congrFun (V9_outs m c) (Proc.devRef .tc b)

abbrev V8' : (c : Dev nD) → (b : Ref sig .tc) → Buf (Elt F) ((c : Thread nD τ).loc b) :=
  fun c b => Gen.V8 m (outs m) c (Proc.devRef .tc b)
abbrev V10' : (c : Dev nD) → (b : Ref sig .tc) → Buf (Elt F) ((c : Thread nD τ).loc b) :=
  fun c b => Gen.V10 m (outs m) c (Proc.devRef .tc b)

theorem outs8_0 (c : Dev nD) : Gen.V8 m (outs m) c main_v50_0 = (dat0 (V7' m) c).arrAt 3 cfg0.N := by
  have h1 : (Proc.devRef .tc main_v50_0 : DevRef τ sig) ≠ Proc.devRef .tc main_v50_2 := StableHlo.devRef_ne_of_ne (by decide)
  have h2 : (Proc.devRef .tc main_v50_0 : DevRef τ sig) ≠ Proc.devRef .tc main_v50_1 := StableHlo.devRef_ne_of_ne (by decide)
  simp only [Gen.V8, Function.update_of_ne h1, Function.update_of_ne h2, Function.update_self, outs_8]
  exact W8_arr m c 3
theorem outs8_1 (c : Dev nD) : Gen.V8 m (outs m) c main_v50_1 = (dat0 (V7' m) c).arrAt 4 cfg0.N := by
  have h1 : (Proc.devRef .tc main_v50_1 : DevRef τ sig) ≠ Proc.devRef .tc main_v50_2 := StableHlo.devRef_ne_of_ne (by decide)
  simp only [Gen.V8, Function.update_of_ne h1, Function.update_self, outs_8]
  exact W8_arr m c 4
theorem outs8_2 (c : Dev nD) : Gen.V8 m (outs m) c main_v50_2 = (dat0 (V7' m) c).arrAt 5 cfg0.N := by
  simp only [Gen.V8, Function.update_self, outs_8]
  exact W8_arr m c 5

theorem hF0_0 (c : Dev nD) : (dat0 (V7' m) c).arrAt 0 cfg0.N = V8' m c (Pipeline.arrRef spec0 0) :=
  ((dat0 (V7' m) c).arrAt_in 0 rfl _).trans ((A_eq0 (V7' m) c 0).trans (Gen.V8_of m (outs m) c main_arg1 (by decide)).symm)
theorem hF0_1 (c : Dev nD) : (dat0 (V7' m) c).arrAt 1 cfg0.N = V8' m c (Pipeline.arrRef spec0 1) :=
  ((dat0 (V7' m) c).arrAt_in 1 rfl _).trans ((A_eq0 (V7' m) c 1).trans (Gen.V8_of m (outs m) c main_v45 (by decide)).symm)
theorem hF0_2 (c : Dev nD) : (dat0 (V7' m) c).arrAt 2 cfg0.N = V8' m c (Pipeline.arrRef spec0 2) :=
  ((dat0 (V7' m) c).arrAt_in 2 rfl _).trans ((A_eq0 (V7' m) c 2).trans (Gen.V8_of m (outs m) c main_v47 (by decide)).symm)

theorem hF0 (c : Dev nD) (w : Fin cfg0.W) : (dat0 (V7' m) c).arrAt w cfg0.N = V8' m c (Pipeline.arrRef spec0 w) := by
  obtain ⟨w, hw⟩ := w
  match w, hw with
  | 0, _ => exact hF0_0 m c
  | 1, _ => exact hF0_1 m c
  | 2, _ => exact hF0_2 m c
  | 3, _ => exact (outs8_0 m c).symm
  | 4, _ => exact (outs8_1 m c).symm
  | 5, _ => exact (outs8_2 m c).symm
  | n + 6, h => exact absurd h (Nat.not_lt.2 (Nat.le_add_left _ _))

theorem hrest0 (c : Dev nD) : ∀ b, b ∉ Finset.univ.image (Pipeline.arrRef spec0) → V8' m c b = V7' m c b :=
  fun b hb => Gen.V8_of m (outs m) c b fun hmem => hb (by
    simp only [List.mem_cons, List.mem_nil_iff, or_false] at hmem
    rcases hmem with rfl | rfl | rfl
    · exact Finset.mem_image.mpr ⟨3, Finset.mem_univ _, rfl⟩
    · exact Finset.mem_image.mpr ⟨4, Finset.mem_univ _, rfl⟩
    · exact Finset.mem_image.mpr ⟨5, Finset.mem_univ _, rfl⟩)

theorem outs10_0 (c : Dev nD) : Gen.V10 m (outs m) c main_v71_0 = (dat1 (V9' m) c).arrAt 5 cfg1.N := by
  have h1 : (Proc.devRef .tc main_v71_0 : DevRef τ sig) ≠ Proc.devRef .tc main_v71_1 := StableHlo.devRef_ne_of_ne (by decide)
  simp only [Gen.V10, Function.update_of_ne h1, Function.update_self, outs_10]
  rw [V9'_eq]
  exact W10_arr m c 5
theorem outs10_1 (c : Dev nD) : Gen.V10 m (outs m) c main_v71_1 = (dat1 (V9' m) c).arrAt 6 cfg1.N := by
  simp only [Gen.V10, Function.update_self, outs_10]
  rw [V9'_eq]
  exact W10_arr m c 6

theorem hF1_0 (c : Dev nD) : (dat1 (V9' m) c).arrAt 0 cfg1.N = V10' m c (Pipeline.arrRef spec1 0) :=
  ((dat1 (V9' m) c).arrAt_in 0 rfl _).trans ((A_eq1 (V9' m) c 0).trans (Gen.V10_of m (outs m) c main_arg1 (by decide)).symm)
theorem hF1_1 (c : Dev nD) : (dat1 (V9' m) c).arrAt 1 cfg1.N = V10' m c (Pipeline.arrRef spec1 1) :=
  ((dat1 (V9' m) c).arrAt_in 1 rfl _).trans ((A_eq1 (V9' m) c 1).trans (Gen.V10_of m (outs m) c main_v70 (by decide)).symm)
theorem hF1_2 (c : Dev nD) : (dat1 (V9' m) c).arrAt 2 cfg1.N = V10' m c (Pipeline.arrRef spec1 2) :=
  ((dat1 (V9' m) c).arrAt_in 2 rfl _).trans ((A_eq1 (V9' m) c 2).trans (Gen.V10_of m (outs m) c main_v48 (by decide)).symm)
theorem hF1_3 (c : Dev nD) : (dat1 (V9' m) c).arrAt 3 cfg1.N = V10' m c (Pipeline.arrRef spec1 3) :=
  ((dat1 (V9' m) c).arrAt_in 3 rfl _).trans ((A_eq1 (V9' m) c 3).trans (Gen.V10_of m (outs m) c main_v49 (by decide)).symm)
theorem hF1_4 (c : Dev nD) : (dat1 (V9' m) c).arrAt 4 cfg1.N = V10' m c (Pipeline.arrRef spec1 4) :=
  ((dat1 (V9' m) c).arrAt_in 4 rfl _).trans ((A_eq1 (V9' m) c 4).trans (Gen.V10_of m (outs m) c main_v65 (by decide)).symm)

theorem hF1 (c : Dev nD) (w : Fin cfg1.W) : (dat1 (V9' m) c).arrAt w cfg1.N = V10' m c (Pipeline.arrRef spec1 w) := by
  obtain ⟨w, hw⟩ := w
  match w, hw with
  | 0, _ => exact hF1_0 m c
  | 1, _ => exact hF1_1 m c
  | 2, _ => exact hF1_2 m c
  | 3, _ => exact hF1_3 m c
  | 4, _ => exact hF1_4 m c
  | 5, _ => exact (outs10_0 m c).symm
  | 6, _ => exact (outs10_1 m c).symm
  | n + 7, h => exact absurd h (Nat.not_lt.2 (Nat.le_add_left _ _))

theorem hrest1 (c : Dev nD) : ∀ b, b ∉ Finset.univ.image (Pipeline.arrRef spec1) → V10' m c b = V9' m c b :=
  fun b hb => Gen.V10_of m (outs m) c b fun hmem => hb (by
    simp only [List.mem_cons, List.mem_nil_iff, or_false] at hmem
    rcases hmem with rfl | rfl
    · exact Finset.mem_image.mpr ⟨5, Finset.mem_univ _, rfl⟩
    · exact Finset.mem_image.mpr ⟨6, Finset.mem_univ _, rfl⟩)

def pdats : (p : Fin 2) → (c : Dev nD) → Dat τ (Elt F) Unit ℕ (UR sig nD τ) ℕ (cfgs p) c
  | ⟨0, _⟩ => fun c => dat0 (V7' m) c
  | ⟨1, _⟩ => fun c => dat1 (V9' m) c

abbrev Lz : GSem nD τ sig → Finset Unit := fun _ => ∅
abbrev lvz : GSem nD τ sig → Unit → ℕ := fun _ _ => 0

abbrev Rr (c : Dev nD) : sProp 𝕄 :=
  iprop((∃ r, prngReg c r) ∗ ∃ W, owes (c : Thread nD τ) (0 : CellTallies nD τ sig Unit) W)

set_option backward.isDefEq.respectTransparency.types false in
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (V7' m) c).loose
  hwaits := Pipeline.hwaits_of_owed_zero _ _ _ _ Lz lvz 0 fun _ _ => rfl
  pre c := iprop(StableHlo.held (c : Thread nD τ) (Pipeline.ucRefs τ sig) (Gen.V7 m c) ∗ Rr c)
  post c := iprop(StableHlo.held (c : Thread nD τ) (Pipeline.ucRefs τ sig) (Gen.V8 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (V7' m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V7' m c) fun w => A_eq0 (V7' m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V7' m) c)
    unfold Pipeline.ΦA
    iintro ⟨Hp, -, Hr⟩
    isplitl [Hr]; · iexact Hr
    iexact Hp
  hout c := by
    rw [Pipeline.ownSems0_none]
    refine BIBase.Entails.trans (hout0 (V7' m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V7' m c) (V8' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (V9' m) c).loose
  hwaits := Pipeline.hwaits_of_owed_zero _ _ _ _ Lz lvz 1 fun _ _ => rfl
  pre c := iprop(StableHlo.held (c : Thread nD τ) (Pipeline.ucRefs τ sig) (Gen.V9 m (outs m) c) ∗ Rr c)
  post c := iprop(StableHlo.held (c : Thread nD τ) (Pipeline.ucRefs τ sig) (Gen.V10 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (V9' m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (V9' m c) fun w => A_eq1 (V9' m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (V9' m c) (V10' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem last_state (c : Dev nD) :
    (iprop(StableHlo.held (c : Thread nD τ) (Pipeline.ucRefs τ sig) (Gen.V10 m (outs m) c) ∗ Rr c) : sProp 𝕄)
      ⊢ iprop(StableHlo.held (c : Thread nD τ) (Pipeline.ucRefs τ sig) (Gen.V10 m (outs m) c) ∗ ∃ W, owes (c : Thread nD τ) (0 : CellTallies nD τ sig Unit) W) := by
  iintro ⟨Hh, -, HO⟩
  isplitl [Hh]; · iexact Hh
  iexact HO

/-- Core `c`'s twelve argument arrays hold in `mem` what they held at the launch. -/
def argsKept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)

set_option backward.isDefEq.respectTransparency.types false in
theorem run_values : θ_run defs (onTc (τ := τ) (main (F := F))) ⟨m, fun _ => 0, ρ⟩ (fun r => ∀ c : Dev nD,
      r.2.mem ((c.tc : Thread nD τ).loc main_v69) = Gen.V10 m (outs m) c main_v69
      ∧ r.2.mem ((c.tc : Thread nD τ).loc main_v71_0) = Gen.V10 m (outs m) c main_v71_0
      ∧ r.2.mem ((c.tc : Thread nD τ).loc main_v71_1) = Gen.V10 m (outs m) c main_v71_1
      ∧ argsKept m r.2.mem c) := by
  refine Pipeline.θ_run_regions_kit_dev (pcfgs (F := F)) Gen.adm (pdats m) () cellOf_inj emb₁ defs₀ Variants.none Lz lvz m ρ main
    (Gen.segs m (outs m) Variants.none Lz lvz (fun _ => Rr) () (pdats m) (reg0 m) (reg1 m))
    (fun c Q => by
      rewrite [main_chain c, Pipeline.Seg.run_eq_chain,
        show (Gen.segs m (outs m) Variants.none Lz lvz (fun _ => Rr) () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c))
    (Tₙ := fun c => StableHlo.held (c : Thread nD τ) (Pipeline.ucRefs τ sig) (Gen.V10 m (outs m) c))
    (hch := fun c => ⟨.rfl, .rfl, .rfl, .rfl, .rfl, .rfl, .rfl, .rfl, .rfl, .rfl, last_state m c⟩)
    (hinit := ?_)
    (QY := fun c s => s.mem ((c.tc : Thread nD τ).loc main_v69) = Gen.V10 m (outs m) c main_v69
      ∧ s.mem ((c.tc : Thread nD τ).loc main_v71_0) = Gen.V10 m (outs m) c main_v71_0
      ∧ s.mem ((c.tc : Thread nD τ).loc main_v71_1) = Gen.V10 m (outs m) c main_v71_1
      ∧ argsKept m s.mem c)
    (hfin := fun c s' => ?_) (hQ := fun _ h => h)
  ·

    refine Pipeline.initEach Lz lvz fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (Gen.V10 m (outs m) c) s') $$ [Hh HSI]
    · isplitl [Hh] <;> iassumption
    icases Hr with ⟨%h, HSI⟩
    imodintro
    isplitr
    · ipureintro
      have rd := fun (b : Ref sig .tc) (hb : _) => h (Proc.devRef .tc b) (Finset.mem_filter.mpr ⟨StableHlo.devRef_mem_tcRefs b, hb⟩)
      exact ⟨rd main_v69 (by decide), rd main_v71_0 (by decide), rd main_v71_1 (by decide),
        (rd main_arg0 (by decide)).trans (Gen.V10_main_arg0 m (outs m) c),
        (rd main_arg1 (by decide)).trans (Gen.V10_main_arg1 m (outs m) c),
        (rd main_arg2 (by decide)).trans (Gen.V10_main_arg2 m (outs m) c),
        (rd main_arg3 (by decide)).trans (Gen.V10_main_arg3 m (outs m) c),
        (rd main_arg4 (by decide)).trans (Gen.V10_main_arg4 m (outs m) c),
        (rd main_arg5 (by decide)).trans (Gen.V10_main_arg5 m (outs m) c),
        (rd main_arg6 (by decide)).trans (Gen.V10_main_arg6 m (outs m) c),
        (rd main_arg7 (by decide)).trans (Gen.V10_main_arg7 m (outs m) c),
        (rd main_arg8 (by decide)).trans (Gen.V10_main_arg8 m (outs m) c),
        (rd main_arg9 (by decide)).trans (Gen.V10_main_arg9 m (outs m) c),
        (rd main_arg10 (by decide)).trans (Gen.V10_main_arg10 m (outs m) c),
        (rd main_arg11 (by decide)).trans (Gen.V10_main_arg11 m (outs m) c)⟩
    · iexact HSI

theorem frame : θ_run defs (onTc (τ := τ) (main (F := F))) ⟨m, fun _ => 0, ρ⟩ (fun r => ∀ c : Dev nD,
      argsKept m r.2.mem c) :=
  (θ_run defs _ _).mono (fun _ h c => (h c).2.2.2) (run_values m ρ)

end Cert.KernelIdeal.Hand

end
-- ==== Proof.Spec.lean ====
import Idealize.ShloMosaic.PureOps.Ideal
import Mathlib.Algebra.BigOperators.Fin

noncomputable section

namespace Cert.MemSpec

open Idealize.ShloMosaic

def eps : EReal := Ideal.ofBits .f32 0x322BCC77#32

def one : EReal := Ideal.ofBits .f32 0x3F800000#32

def invB : EReal := Ideal.ofBits .f32 0x3B000000#32

def jOf (blk : Fin 64) (l : Fin 2048) : Fin 131072 := ⟨blk.val * 2048 + l.val, by omega⟩

def blkOf (p : Fin 2) (i : Fin 32) : Fin 64 := ⟨p.val * 32 + i.val, by omega⟩

section

variable (mem : Fin 131072 → Fin 128 → EReal) (rq wq er ad : Fin 512 → Fin 128 → EReal)
  (ks qnr qnw : Fin 512 → EReal)

def mn (j : Fin 131072) : EReal := max (Ideal.sqrt (∑ d : Fin 128, mem j d * mem j d)) eps

def mu (j : Fin 131072) (d : Fin 128) : EReal := Ideal.div (mem j d) (mn mem j)

def fqR (b : Fin 512) (d : Fin 128) : EReal := rq b d * Ideal.div (ks b) (qnr b)
def fqW (b : Fin 512) (d : Fin 128) : EReal := Ideal.div (wq b d) (qnw b)

def simKR (b : Fin 512) (j : Fin 131072) : EReal := ∑ d : Fin 128, fqR rq ks qnr b d * mu mem j d
def simKW (b : Fin 512) (j : Fin 131072) : EReal := ∑ d : Fin 128, fqW wq qnw b d * mu mem j d

def pR (b : Fin 512) (j : Fin 131072) : EReal := Ideal.exp (simKR mem rq ks qnr b j - ks b)
def pW (b : Fin 512) (j : Fin 131072) : EReal := Ideal.exp (simKW mem wq qnw b j - one)

def lBlkR (b : Fin 512) (blk : Fin 64) : EReal := ∑ l : Fin 2048, pR mem rq ks qnr b (jOf blk l)
def lBlkW (b : Fin 512) (blk : Fin 64) : EReal := ∑ l : Fin 2048, pW mem wq qnw b (jOf blk l)
def accBlk (b : Fin 512) (d : Fin 128) (blk : Fin 64) : EReal :=
  ∑ l : Fin 2048, pR mem rq ks qnr b (jOf blk l) * mem (jOf blk l) d

def lPartR (p : Fin 2) (b : Fin 512) : EReal := ∑ i : Fin 32, lBlkR mem rq ks qnr b (blkOf p i)
def lPartW (p : Fin 2) (b : Fin 512) : EReal := ∑ i : Fin 32, lBlkW mem wq qnw b (blkOf p i)
def accPart (p : Fin 2) (b : Fin 512) (d : Fin 128) : EReal := ∑ i : Fin 32, accBlk mem rq ks qnr b d (blkOf p i)

def lKR (b : Fin 512) : EReal := lPartR mem rq ks qnr 0 b + lPartR mem rq ks qnr 1 b
def lKW (b : Fin 512) : EReal := lPartW mem wq qnw 0 b + lPartW mem wq qnw 1 b
def accK (b : Fin 512) (d : Fin 128) : EReal := accPart mem rq ks qnr 0 b d + accPart mem rq ks qnr 1 b d

def readVecK (b : Fin 512) (d : Fin 128) : EReal := accK mem rq ks qnr b d * Ideal.div one (lKR mem rq ks qnr b)
def wK (b : Fin 512) (j : Fin 131072) : EReal := pW mem wq qnw b j * Ideal.div one (lKW mem wq qnw b)
def eraseMeanK (j : Fin 131072) (d : Fin 128) : EReal := (∑ b : Fin 512, wK mem wq qnw b j * er b d) * invB
def addMeanK (j : Fin 131072) (d : Fin 128) : EReal := (∑ b : Fin 512, wK mem wq qnw b j * ad b d) * invB
def newMemK (j : Fin 131072) (d : Fin 128) : EReal :=
  mem j d * (one - eraseMeanK mem wq er qnw j d) + addMeanK mem wq ad qnw j d

variable (mxr mxw : Fin 512 → EReal)

def simRR (b : Fin 512) (j : Fin 131072) : EReal :=
  Ideal.div (∑ d : Fin 128, rq b d * mem j d) (qnr b * mn mem j) * ks b
def simRW (b : Fin 512) (j : Fin 131072) : EReal :=
  Ideal.div (∑ d : Fin 128, wq b d * mem j d) (qnw b * mn mem j)
def eRR (b : Fin 512) (j : Fin 131072) : EReal := Ideal.exp (simRR mem rq ks qnr b j - mxr b)
def eRW (b : Fin 512) (j : Fin 131072) : EReal := Ideal.exp (simRW mem wq qnw b j - mxw b)
def readWR (b : Fin 512) (j : Fin 131072) : EReal :=
  Ideal.div (eRR mem rq ks qnr mxr b j) (∑ j' : Fin 131072, eRR mem rq ks qnr mxr b j')
def wR (b : Fin 512) (j : Fin 131072) : EReal :=
  Ideal.div (eRW mem wq qnw mxw b j) (∑ j' : Fin 131072, eRW mem wq qnw mxw b j')
def readVecR (b : Fin 512) (d : Fin 128) : EReal := ∑ j : Fin 131072, readWR mem rq ks qnr mxr b j * mem j d
def eraseMeanR (j : Fin 131072) (d : Fin 128) : EReal := (∑ b : Fin 512, wR mem wq qnw mxw b j * er b d) * invB
def addMeanR (j : Fin 131072) (d : Fin 128) : EReal := (∑ b : Fin 512, wR mem wq qnw mxw b j * ad b d) * invB
def newMemR (j : Fin 131072) (d : Fin 128) : EReal :=
  mem j d * (one - eraseMeanR mem wq er qnw mxw j d) + addMeanR mem wq ad qnw mxw j d

end

def lo (b : Fin 512) : Fin 1024 := ⟨b.val, by omega⟩
def hi (b : Fin 512) : Fin 1024 := ⟨512 + b.val, by omega⟩

section

variable (mem : Fin 131072 → Fin 128 → EReal) (fq : Fin 1024 → Fin 128 → EReal) (sh : Fin 1024 → EReal)

def simG (r : Fin 1024) (j : Fin 131072) : EReal := ∑ d : Fin 128, fq r d * mu mem j d
def pG (r : Fin 1024) (j : Fin 131072) : EReal := Ideal.exp (simG mem fq r j - sh r)

def lBlkG (r : Fin 1024) (blk : Fin 64) : EReal := ∑ l : Fin 2048, pG mem fq sh r (jOf blk l)
def accBlkG (b : Fin 512) (d : Fin 128) (blk : Fin 64) : EReal :=
  ∑ l : Fin 2048, pG mem fq sh (lo b) (jOf blk l) * mem (jOf blk l) d

def lPartG (p : Fin 2) (r : Fin 1024) : EReal := ∑ i : Fin 32, lBlkG mem fq sh r (blkOf p i)
def accPartG (p : Fin 2) (b : Fin 512) (d : Fin 128) : EReal := ∑ i : Fin 32, accBlkG mem fq sh b d (blkOf p i)

variable (wqa era ada : Fin 512 → Fin 128 → EReal) (lw : Fin 512 → EReal)

def wG (b : Fin 512) (j : Fin 131072) : EReal :=
  Ideal.exp ((∑ d : Fin 128, wqa b d * mu mem j d) - one) * Ideal.div one (lw b)
def newMemG (j : Fin 131072) (d : Fin 128) : EReal :=
  mem j d * (one - (∑ b : Fin 512, wG mem wqa lw b j * era b d) * invB) + (∑ b : Fin 512, wG mem wqa lw b j * ada b d) * invB

end

def Real1 {α : Type} (f : α → EReal) : Prop := ∃ g : α → ℝ, ∀ a, f a = (g a : EReal)
def Real2 {α β : Type} (f : α → β → EReal) : Prop := ∃ g : α → β → ℝ, ∀ a b, f a b = (g a b : EReal)

def Pos1 {α : Type} (f : α → EReal) : Prop := ∃ g : α → ℝ, ∀ a, 0 < g a ∧ f a = (g a : EReal)

end Cert.MemSpec

end
-- ==== Proof.Val.Algebra.lean ====
import proofs.«429040_j74268574482523_3_alg».proof.Proof.Spec

noncomputable section

namespace Cert.MemSpec

open Idealize.ShloMosaic

theorem one_eq : one = 1 := by
  unfold one
  simp [Ideal.ofBits, Ideal.ieee, -EReal.coe_mul]; norm_num

theorem invB_val : invB = (((1 : ℝ) / 512 : ℝ) : EReal) := by
  unfold invB
  simp [Ideal.ofBits, Ideal.ieee, -EReal.coe_mul]
  norm_num

theorem eps_val : eps = ((11258999 * (2 : ℝ) ^ (-50 : ℤ) : ℝ) : EReal) := by
  unfold eps
  simp [Ideal.ofBits, Ideal.ieee, -EReal.coe_mul]

theorem eps_pos : ∃ r : ℝ, 0 < r ∧ eps = (r : EReal) :=
  ⟨11258999 * (2 : ℝ) ^ (-50 : ℤ), by positivity, eps_val⟩

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) :=
  EReal.coe_strictMono.monotone.map_max

def rowEquiv : Fin 64 × Fin 2048 ≃ Fin 131072 where
  toFun x := jOf x.1 x.2
  invFun j := (⟨j.val / 2048, by omega⟩, ⟨j.val % 2048, by omega⟩)
  left_inv := by
    rintro ⟨a, b⟩
    refine Prod.ext (Fin.ext ?_) (Fin.ext ?_)
    · show (a.val * 2048 + b.val) / 2048 = a.val
      omega
    · show (a.val * 2048 + b.val) % 2048 = b.val
      omega
  right_inv := by
    intro j
    refine Fin.ext ?_
    show j.val / 2048 * 2048 + j.val % 2048 = j.val
    omega

def halfEquiv : Fin 2 × Fin 32 ≃ Fin 64 where
  toFun x := blkOf x.1 x.2
  invFun k := (⟨k.val / 32, by omega⟩, ⟨k.val % 32, by omega⟩)
  left_inv := by
    rintro ⟨a, b⟩
    refine Prod.ext (Fin.ext ?_) (Fin.ext ?_)
    · show (a.val * 32 + b.val) / 32 = a.val
      omega
    · show (a.val * 32 + b.val) % 32 = b.val
      omega
  right_inv := by
    intro k
    refine Fin.ext ?_
    show k.val / 32 * 32 + k.val % 32 = k.val
    omega

section Regroup

variable {M : Type*} [AddCommMonoid M]

theorem sum_jOf (f : Fin 131072 → M) :
    ∑ blk : Fin 64, ∑ l : Fin 2048, f (jOf blk l) = ∑ j : Fin 131072, f j := by
  rw [← Fintype.sum_prod_type' (f := fun blk l => f (jOf blk l))]
  exact Equiv.sum_comp rowEquiv f

theorem sum_blkOf (F : Fin 64 → M) :
    (∑ i : Fin 32, F (blkOf 0 i)) + (∑ i : Fin 32, F (blkOf 1 i)) = ∑ blk : Fin 64, F blk := by
  rw [← Equiv.sum_comp halfEquiv F, Fintype.sum_prod_type, Fin.sum_univ_two]
  rfl

theorem sum_halves (f : Fin 131072 → M) :
    (∑ i : Fin 32, ∑ l : Fin 2048, f (jOf (blkOf 0 i) l)) + (∑ i : Fin 32, ∑ l : Fin 2048, f (jOf (blkOf 1 i) l))
      = ∑ j : Fin 131072, f j :=
  (sum_blkOf (fun blk => ∑ l : Fin 2048, f (jOf blk l))).trans (sum_jOf f)

end Regroup

section Softmax

variable {J : Type*} [Fintype J] [Nonempty J]

theorem sum_exp_pos (s : J → ℝ) (a : ℝ) : 0 < ∑ j, Real.exp (s j - a) :=
  Finset.sum_pos (fun j _ => Real.exp_pos _) Finset.univ_nonempty

theorem exp_shift (x a m : ℝ) : Real.exp (x - a) = Real.exp (x - m) * Real.exp (m - a) := by
  rw [← Real.exp_add]; congr 1; ring

theorem sum_exp_shift (s : J → ℝ) (a m : ℝ) :
    ∑ j, Real.exp (s j - a) = (∑ j, Real.exp (s j - m)) * Real.exp (m - a) := by
  rw [Finset.sum_mul]; exact Finset.sum_congr rfl (fun j _ => exp_shift _ _ _)

theorem softmax_shift (s : J → ℝ) (a m : ℝ) (j : J) :
    Real.exp (s j - a) * (1 / ∑ j', Real.exp (s j' - a)) =
      Real.exp (s j - m) * (1 / ∑ j', Real.exp (s j' - m)) := by
  have hS := sum_exp_pos s m
  have hc := Real.exp_pos (m - a)
  rw [sum_exp_shift s a m, exp_shift (s j) a m]
  field_simp

theorem softmax_shift_sum (s : J → ℝ) (a m : ℝ) (v : J → ℝ) :
    (∑ j, Real.exp (s j - a) * v j) * (1 / ∑ j', Real.exp (s j' - a)) =
      ∑ j, Real.exp (s j - m) * (1 / ∑ j', Real.exp (s j' - m)) * v j := by
  rw [Finset.sum_mul]
  refine Finset.sum_congr rfl (fun j _ => ?_)
  rw [← softmax_shift s a m j]; ring

end Softmax

section RealSide

variable (g : Fin 131072 → Fin 128 → ℝ) (ε : ℝ)

def mnr (j : Fin 131072) : ℝ := max (Real.sqrt (∑ d : Fin 128, g j d * g j d)) ε

theorem mnr_pos (hε : 0 < ε) (j : Fin 131072) : 0 < mnr g ε j := lt_max_of_lt_right hε

variable (q : Fin 512 → Fin 128 → ℝ) (k n : Fin 512 → ℝ)

def simr (b : Fin 512) (j : Fin 131072) : ℝ := (∑ d : Fin 128, q b d * g j d) * (1 / (n b * mnr g ε j)) * k b

def simw (b : Fin 512) (j : Fin 131072) : ℝ := (∑ d : Fin 128, q b d * g j d) * (1 / (n b * mnr g ε j))

theorem simr_scaled (b : Fin 512) (j : Fin 131072) :
    ∑ d : Fin 128, q b d * (k b * (1 / n b)) * (g j d * (1 / mnr g ε j)) = simr g ε q k n b j := by
  unfold simr
  rw [Finset.sum_mul, Finset.sum_mul]
  exact Finset.sum_congr rfl (fun d _ => by ring)

theorem simw_scaled (b : Fin 512) (j : Fin 131072) :
    ∑ d : Fin 128, q b d * (1 / n b) * (g j d * (1 / mnr g ε j)) = simw g ε q n b j := by
  unfold simw
  rw [Finset.sum_mul]
  exact Finset.sum_congr rfl (fun d _ => by ring)

end RealSide

section Coe

variable {mem : Fin 131072 → Fin 128 → EReal} {g : Fin 131072 → Fin 128 → ℝ} {ε : ℝ}

theorem mn_coe (hg : ∀ j d, mem j d = (g j d : EReal)) (heps : eps = (ε : EReal)) (j : Fin 131072) :
    mn mem j = (mnr g ε j : EReal) := by
  unfold mn mnr
  simp only [hg, ← EReal.coe_mul, ← coe_sum]
  rw [Ideal.sqrt_coe, if_neg (not_lt.mpr (Finset.sum_nonneg fun d _ => mul_self_nonneg _)), heps, coe_max]

theorem mu_coe (hg : ∀ j d, mem j d = (g j d : EReal)) (heps : eps = (ε : EReal)) (hε : 0 < ε)
    (j : Fin 131072) (d : Fin 128) : mu mem j d = ((g j d * (1 / mnr g ε j) : ℝ) : EReal) := by
  unfold mu
  rw [mn_coe hg heps, Ideal.div_coe (mnr_pos g ε hε j).ne', hg, ← EReal.coe_mul]

variable {qe : Fin 512 → Fin 128 → EReal} {q : Fin 512 → Fin 128 → ℝ} {ks qn mx : Fin 512 → EReal}
  {k n m : Fin 512 → ℝ}

theorem simKR_coe (hg : ∀ j d, mem j d = (g j d : EReal)) (heps : eps = (ε : EReal)) (hε : 0 < ε)
    (hq : ∀ b d, qe b d = (q b d : EReal)) (hk : ∀ b, ks b = (k b : EReal)) (hn : ∀ b, qn b = (n b : EReal))
    (hnpos : ∀ b, 0 < n b) (b : Fin 512) (j : Fin 131072) :
    simKR mem qe ks qn b j = (simr g ε q k n b j : EReal) := by
  rw [← simr_scaled]
  unfold simKR fqR
  simp only [mu_coe hg heps hε, hq, hk, hn, Ideal.div_coe (hnpos b).ne', ← EReal.coe_mul, ← coe_sum]

theorem simRR_coe (hg : ∀ j d, mem j d = (g j d : EReal)) (heps : eps = (ε : EReal)) (hε : 0 < ε)
    (hq : ∀ b d, qe b d = (q b d : EReal)) (hk : ∀ b, ks b = (k b : EReal)) (hn : ∀ b, qn b = (n b : EReal))
    (hnpos : ∀ b, 0 < n b) (b : Fin 512) (j : Fin 131072) :
    simRR mem qe ks qn b j = (simr g ε q k n b j : EReal) := by
  unfold simRR simr
  simp only [mn_coe hg heps, hg, hq, hk, hn, ← EReal.coe_mul, ← coe_sum]
  rw [Ideal.div_coe (mul_pos (hnpos b) (mnr_pos g ε hε j)).ne', ← EReal.coe_mul, ← EReal.coe_mul]

theorem pR_coe (hg : ∀ j d, mem j d = (g j d : EReal)) (heps : eps = (ε : EReal)) (hε : 0 < ε)
    (hq : ∀ b d, qe b d = (q b d : EReal)) (hk : ∀ b, ks b = (k b : EReal)) (hn : ∀ b, qn b = (n b : EReal))
    (hnpos : ∀ b, 0 < n b) (b : Fin 512) (j : Fin 131072) :
    pR mem qe ks qn b j = ((Real.exp (simr g ε q k n b j - k b) : ℝ) : EReal) := by
  unfold pR
  rw [simKR_coe hg heps hε hq hk hn hnpos, hk, ← EReal.coe_sub, Ideal.exp_coe]

theorem eRR_coe (hg : ∀ j d, mem j d = (g j d : EReal)) (heps : eps = (ε : EReal)) (hε : 0 < ε)
    (hq : ∀ b d, qe b d = (q b d : EReal)) (hk : ∀ b, ks b = (k b : EReal)) (hn : ∀ b, qn b = (n b : EReal))
    (hnpos : ∀ b, 0 < n b) (hm : ∀ b, mx b = (m b : EReal)) (b : Fin 512) (j : Fin 131072) :
    eRR mem qe ks qn mx b j = ((Real.exp (simr g ε q k n b j - m b) : ℝ) : EReal) := by
  unfold eRR
  rw [simRR_coe hg heps hε hq hk hn hnpos, hm, ← EReal.coe_sub, Ideal.exp_coe]

theorem lKR_coe (hg : ∀ j d, mem j d = (g j d : EReal)) (heps : eps = (ε : EReal)) (hε : 0 < ε)
    (hq : ∀ b d, qe b d = (q b d : EReal)) (hk : ∀ b, ks b = (k b : EReal)) (hn : ∀ b, qn b = (n b : EReal))
    (hnpos : ∀ b, 0 < n b) (b : Fin 512) :
    lKR mem qe ks qn b = ((∑ j : Fin 131072, Real.exp (simr g ε q k n b j - k b) : ℝ) : EReal) := by
  unfold lKR lPartR lBlkR
  refine (sum_halves (fun j => pR mem qe ks qn b j)).trans ?_
  simp only [pR_coe hg heps hε hq hk hn hnpos, ← coe_sum]

theorem accK_coe (hg : ∀ j d, mem j d = (g j d : EReal)) (heps : eps = (ε : EReal)) (hε : 0 < ε)
    (hq : ∀ b d, qe b d = (q b d : EReal)) (hk : ∀ b, ks b = (k b : EReal)) (hn : ∀ b, qn b = (n b : EReal))
    (hnpos : ∀ b, 0 < n b) (b : Fin 512) (d : Fin 128) :
    accK mem qe ks qn b d = ((∑ j : Fin 131072, Real.exp (simr g ε q k n b j - k b) * g j d : ℝ) : EReal) := by
  unfold accK accPart accBlk
  refine (sum_halves (fun j => pR mem qe ks qn b j * mem j d)).trans ?_
  simp only [pR_coe hg heps hε hq hk hn hnpos, hg, ← EReal.coe_mul, ← coe_sum]

theorem readVecK_coe (hg : ∀ j d, mem j d = (g j d : EReal)) (heps : eps = (ε : EReal)) (hε : 0 < ε)
    (hq : ∀ b d, qe b d = (q b d : EReal)) (hk : ∀ b, ks b = (k b : EReal)) (hn : ∀ b, qn b = (n b : EReal))
    (hnpos : ∀ b, 0 < n b) (b : Fin 512) (d : Fin 128) :
    readVecK mem qe ks qn b d =
      (((∑ j : Fin 131072, Real.exp (simr g ε q k n b j - k b) * g j d) *
          (1 / ∑ j : Fin 131072, Real.exp (simr g ε q k n b j - k b)) : ℝ) : EReal) := by
  have hS : (∑ j : Fin 131072, Real.exp (simr g ε q k n b j - k b)) ≠ 0 :=
    (sum_exp_pos (fun j => simr g ε q k n b j) (k b)).ne'
  unfold readVecK
  rw [accK_coe hg heps hε hq hk hn hnpos, lKR_coe hg heps hε hq hk hn hnpos, Ideal.div_coe hS, one_eq, one_mul,
    ← EReal.coe_mul]

theorem readVecR_coe (hg : ∀ j d, mem j d = (g j d : EReal)) (heps : eps = (ε : EReal)) (hε : 0 < ε)
    (hq : ∀ b d, qe b d = (q b d : EReal)) (hk : ∀ b, ks b = (k b : EReal)) (hn : ∀ b, qn b = (n b : EReal))
    (hnpos : ∀ b, 0 < n b) (hm : ∀ b, mx b = (m b : EReal)) (b : Fin 512) (d : Fin 128) :
    readVecR mem qe ks qn mx b d =
      ((∑ j : Fin 131072, Real.exp (simr g ε q k n b j - m b) *
          (1 / ∑ j' : Fin 131072, Real.exp (simr g ε q k n b j' - m b)) * g j d : ℝ) : EReal) := by
  have hS : (∑ j : Fin 131072, Real.exp (simr g ε q k n b j - m b)) ≠ 0 :=
    (sum_exp_pos (fun j => simr g ε q k n b j) (m b)).ne'
  unfold readVecR readWR
  simp only [eRR_coe hg heps hε hq hk hn hnpos hm, hg, ← coe_sum, Ideal.div_coe hS, ← EReal.coe_mul]

theorem simKW_coe (hg : ∀ j d, mem j d = (g j d : EReal)) (heps : eps = (ε : EReal)) (hε : 0 < ε)
    (hq : ∀ b d, qe b d = (q b d : EReal)) (hn : ∀ b, qn b = (n b : EReal))
    (hnpos : ∀ b, 0 < n b) (b : Fin 512) (j : Fin 131072) :
    simKW mem qe qn b j = (simw g ε q n b j : EReal) := by
  rw [← simw_scaled]
  unfold simKW fqW
  simp only [mu_coe hg heps hε, hq, hn, Ideal.div_coe (hnpos b).ne', ← EReal.coe_mul, ← coe_sum]

theorem simRW_coe (hg : ∀ j d, mem j d = (g j d : EReal)) (heps : eps = (ε : EReal)) (hε : 0 < ε)
    (hq : ∀ b d, qe b d = (q b d : EReal)) (hn : ∀ b, qn b = (n b : EReal))
    (hnpos : ∀ b, 0 < n b) (b : Fin 512) (j : Fin 131072) :
    simRW mem qe qn b j = (simw g ε q n b j : EReal) := by
  unfold simRW simw
  simp only [mn_coe hg heps, hg, hq, hn, ← EReal.coe_mul, ← coe_sum]
  rw [Ideal.div_coe (mul_pos (hnpos b) (mnr_pos g ε hε j)).ne', ← EReal.coe_mul]

theorem pW_coe (hg : ∀ j d, mem j d = (g j d : EReal)) (heps : eps = (ε : EReal)) (hε : 0 < ε)
    (hq : ∀ b d, qe b d = (q b d : EReal)) (hn : ∀ b, qn b = (n b : EReal))
    (hnpos : ∀ b, 0 < n b) (b : Fin 512) (j : Fin 131072) :
    pW mem qe qn b j = ((Real.exp (simw g ε q n b j - 1) : ℝ) : EReal) := by
  unfold pW
  rw [simKW_coe hg heps hε hq hn hnpos, one_eq, ← EReal.coe_one, ← EReal.coe_sub, Ideal.exp_coe]

theorem eRW_coe (hg : ∀ j d, mem j d = (g j d : EReal)) (heps : eps = (ε : EReal)) (hε : 0 < ε)
    (hq : ∀ b d, qe b d = (q b d : EReal)) (hn : ∀ b, qn b = (n b : EReal))
    (hnpos : ∀ b, 0 < n b) (hm : ∀ b, mx b = (m b : EReal)) (b : Fin 512) (j : Fin 131072) :
    eRW mem qe qn mx b j = ((Real.exp (simw g ε q n b j - m b) : ℝ) : EReal) := by
  unfold eRW
  rw [simRW_coe hg heps hε hq hn hnpos, hm, ← EReal.coe_sub, Ideal.exp_coe]

theorem lKW_coe (hg : ∀ j d, mem j d = (g j d : EReal)) (heps : eps = (ε : EReal)) (hε : 0 < ε)
    (hq : ∀ b d, qe b d = (q b d : EReal)) (hn : ∀ b, qn b = (n b : EReal))
    (hnpos : ∀ b, 0 < n b) (b : Fin 512) :
    lKW mem qe qn b = ((∑ j : Fin 131072, Real.exp (simw g ε q n b j - 1) : ℝ) : EReal) := by
  unfold lKW lPartW lBlkW
  refine (sum_halves (fun j => pW mem qe qn b j)).trans ?_
  simp only [pW_coe hg heps hε hq hn hnpos, ← coe_sum]

theorem wK_coe (hg : ∀ j d, mem j d = (g j d : EReal)) (heps : eps = (ε : EReal)) (hε : 0 < ε)
    (hq : ∀ b d, qe b d = (q b d : EReal)) (hn : ∀ b, qn b = (n b : EReal))
    (hnpos : ∀ b, 0 < n b) (b : Fin 512) (j : Fin 131072) :
    wK mem qe qn b j =
      ((Real.exp (simw g ε q n b j - 1) * (1 / ∑ j' : Fin 131072, Real.exp (simw g ε q n b j' - 1)) : ℝ) : EReal) := by
  have hS : (∑ j : Fin 131072, Real.exp (simw g ε q n b j - 1)) ≠ 0 :=
    (sum_exp_pos (fun j => simw g ε q n b j) 1).ne'
  unfold wK
  rw [pW_coe hg heps hε hq hn hnpos, lKW_coe hg heps hε hq hn hnpos, Ideal.div_coe hS, one_eq, one_mul,
    ← EReal.coe_mul]

theorem wR_coe (hg : ∀ j d, mem j d = (g j d : EReal)) (heps : eps = (ε : EReal)) (hε : 0 < ε)
    (hq : ∀ b d, qe b d = (q b d : EReal)) (hn : ∀ b, qn b = (n b : EReal))
    (hnpos : ∀ b, 0 < n b) (hm : ∀ b, mx b = (m b : EReal)) (b : Fin 512) (j : Fin 131072) :
    wR mem qe qn mx b j =
      ((Real.exp (simw g ε q n b j - m b) * (1 / ∑ j' : Fin 131072, Real.exp (simw g ε q n b j' - m b)) : ℝ) :
        EReal) := by
  have hS : (∑ j : Fin 131072, Real.exp (simw g ε q n b j - m b)) ≠ 0 :=
    (sum_exp_pos (fun j => simw g ε q n b j) (m b)).ne'
  unfold wR
  simp only [eRW_coe hg heps hε hq hn hnpos hm, ← coe_sum]
  rw [Ideal.div_coe hS, ← EReal.coe_mul]

end Coe

section Agree

variable {mem : Fin 131072 → Fin 128 → EReal} {rq wq er ad : Fin 512 → Fin 128 → EReal}
  {ks qnr qnw mxr mxw : Fin 512 → EReal}

theorem readVec_eq (hmem : Real2 mem) (hrq : Real2 rq) (hks : Real1 ks) (hqnr : Pos1 qnr) (hmxr : Real1 mxr) :
    readVecK mem rq ks qnr = readVecR mem rq ks qnr mxr := by
  obtain ⟨g, hg⟩ := hmem
  obtain ⟨q, hq⟩ := hrq
  obtain ⟨k, hk⟩ := hks
  obtain ⟨n, hn⟩ := hqnr
  obtain ⟨m, hm⟩ := hmxr
  obtain ⟨ε, hε, heps⟩ := eps_pos
  funext b d
  rw [readVecK_coe hg heps hε hq hk (fun b => (hn b).2) (fun b => (hn b).1),
    readVecR_coe hg heps hε hq hk (fun b => (hn b).2) (fun b => (hn b).1) hm,
    softmax_shift_sum (fun j => simr g ε q k n b j) (k b) (m b)]

theorem w_eq (hmem : Real2 mem) (hwq : Real2 wq) (hqnw : Pos1 qnw) (hmxw : Real1 mxw) :
    wK mem wq qnw = wR mem wq qnw mxw := by
  obtain ⟨g, hg⟩ := hmem
  obtain ⟨q, hq⟩ := hwq
  obtain ⟨n, hn⟩ := hqnw
  obtain ⟨m, hm⟩ := hmxw
  obtain ⟨ε, hε, heps⟩ := eps_pos
  funext b j
  rw [wK_coe hg heps hε hq (fun b => (hn b).2) (fun b => (hn b).1),
    wR_coe hg heps hε hq (fun b => (hn b).2) (fun b => (hn b).1) hm,
    softmax_shift (fun j => simw g ε q n b j) 1 (m b) j]

theorem newMem_eq (hmem : Real2 mem) (hwq : Real2 wq) (her : Real2 er) (had : Real2 ad) (hqnw : Pos1 qnw)
    (hmxw : Real1 mxw) : newMemK mem wq er ad qnw = newMemR mem wq er ad qnw mxw := by
  funext j d
  unfold newMemK newMemR eraseMeanK eraseMeanR addMeanK addMeanR
  rw [w_eq hmem hwq hqnw hmxw]

end Agree

end Cert.MemSpec

end
-- ==== Proof.Val.Finite.lean ====
import proofs.«429040_j74268574482523_3_alg».proof.Defs
import proofs.«429040_j74268574482523_3_alg».proof.Proof.Gen.Pre_finite_inputs
import Idealize.ShloMosaic.Lib.ReduceAll
import Idealize.ShloMosaic.Lib.ValueIdx

noncomputable section

namespace Cert.Val.Finite

open Idealize.ShloMosaic Idealize.SL.Sem

instance : Subsingleton Cert.Pre_finite_inputs.S_.Idx := ⟨fun a b => funext fun d => d.elim0⟩

theorem real_of_abs_lt_top (x : EReal) (h : max x (-x) < ⊤) : ∃ r : ℝ, x = (r : EReal) := by
  induction x using EReal.rec with
  | bot => simp at h
  | coe r => exact ⟨r, rfl⟩
  | top => simp at h

theorem inf_word : Ideal.ofBits .f32 0x7F800000#32 = (⊤ : EReal) := by simp [Ideal.ofBits, Ideal.ieee]

theorem bit_one : ∀ b : Bool, BitVec.ofBool b = 1#1 → b = true := by decide

theorem real_of_all_finite {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (j : Cert.Pre_finite_inputs.S_.Idx)
    (e : Host.reduce IntOp.andi
          (cmpf .olt (Host.absf x)
            (broadcastInDim s ![] hb (constant Cert.Pre_finite_inputs.S_ .f32 0x7F800000#32)))
          (constantI Cert.Pre_finite_inputs.S_ 1 1#1) hr hu j = 1#1)
    (i : s.Idx) : ∃ r : ℝ, x i = (r : EReal) := by
  have h := Host.reduce_andi_all _ _ hr hu j e i
  have h1 : BitVec.ofBool (decide (max (x i) (-(x i)) < Ideal.ofBits .f32 0x7F800000#32)) = 1#1 := h
  have h2 : max (x i) (-(x i)) < Ideal.ofBits .f32 0x7F800000#32 := of_decide_eq_true (bit_one _ h1)
  rw [inf_word] at h2
  exact real_of_abs_lt_top _ h2

theorem and_bit {s : Shape} (p q : IVec s 1) (j : s.Idx) (h : andi p q j = 1#1) : p j = 1#1 ∧ q j = 1#1 :=
  IntOp.andi_eq_one.1 h

theorem args_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal))
      ∧ (∀ i, ∃ r : ℝ, m ((c.tc : Thread Cert.KernelIdeal.nD Cert.KernelIdeal.τ).loc Cert.KernelIdeal.main_arg11) i = (r : EReal)) := by
  have h0 := congrFun (h c) ValueIdx.ix0
  dsimp only [Cert.Pre_finite_inputs.fn, Cert.Pre_finite_inputs.fn_part1, Cert.Pre_finite_inputs.fn_part2,
    Cert.Pre_finite_inputs.fn_part3] at h0
  obtain ⟨h0, e11⟩ := and_bit _ _ _ h0
  obtain ⟨h0, e10⟩ := and_bit _ _ _ h0
  obtain ⟨h0, e9⟩ := and_bit _ _ _ h0
  obtain ⟨h0, e8⟩ := and_bit _ _ _ h0
  obtain ⟨h0, e7⟩ := and_bit _ _ _ h0
  obtain ⟨h0, e6⟩ := and_bit _ _ _ h0
  obtain ⟨h0, e5⟩ := and_bit _ _ _ h0
  obtain ⟨h0, e4⟩ := and_bit _ _ _ h0
  obtain ⟨h0, e3⟩ := and_bit _ _ _ h0
  obtain ⟨h0, e2⟩ := and_bit _ _ _ h0
  obtain ⟨e0, e1⟩ := and_bit _ _ _ h0
  exact ⟨real_of_all_finite _ _ _ _ _ e0, real_of_all_finite _ _ _ _ _ e1, real_of_all_finite _ _ _ _ _ e2,
    real_of_all_finite _ _ _ _ _ e3, real_of_all_finite _ _ _ _ _ e4, real_of_all_finite _ _ _ _ _ e5,
    real_of_all_finite _ _ _ _ _ e6, real_of_all_finite _ _ _ _ _ e7, real_of_all_finite _ _ _ _ _ e8,
    real_of_all_finite _ _ _ _ _ e9, real_of_all_finite _ _ _ _ _ e10, real_of_all_finite _ _ _ _ _ e11⟩

end Cert.Val.Finite
-- ==== Proof.Val.SharedReal.lean ====
import proofs.«429040_j74268574482523_3_alg».proof.Proof.Gen.ReferenceIdeal.Read
import proofs.«429040_j74268574482523_3_alg».proof.Proof.Spec
import proofs.«429040_j74268574482523_3_alg».proof.Proof.Val.Algebra
import Idealize.ShloMosaic.Lib.ValueIdx
import Idealize.ShloMosaic.PureOps.Ideal.Laws

noncomputable section

namespace Cert.Val.SharedReal

open Idealize.ShloMosaic Idealize.ShloMosaic.ValueIdx Cert.ReferenceIdeal Cert.ReferenceIdeal.Read

def IsReal (x : EReal) : Prop := ∃ r : ℝ, x = (r : EReal)

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_neg {x : EReal} (hx : IsReal x) : IsReal (-x) := by
  obtain ⟨a, rfl⟩ := hx; exact ⟨-a, (EReal.coe_neg a).symm⟩

theorem isReal_max {x y : EReal} (hx : IsReal x) (hy : IsReal y) : IsReal (max x y) := by
  obtain ⟨a, rfl⟩ := hx; obtain ⟨b, rfl⟩ := hy; exact ⟨max a b, (Cert.MemSpec.coe_max a b).symm⟩

theorem isReal_sum {ι : Type} [Fintype ι] {f : ι → EReal} (h : ∀ k, IsReal (f k)) : IsReal (∑ k, f k) := by
  choose g hg using h
  exact ⟨∑ k, g k, by rw [Cert.MemSpec.coe_sum]; exact Finset.sum_congr rfl fun k _ => hg k⟩

theorem sumsq_nonneg {ι : Type} [Fintype ι] {f : ι → EReal} (h : ∀ k, IsReal (f k)) :
    ∃ s : ℝ, 0 ≤ s ∧ ∑ k, f k * f k = (s : EReal) := by
  choose g hg using h
  refine ⟨∑ k, g k * g k, Finset.sum_nonneg fun k _ => mul_self_nonneg (g k), ?_⟩
  rw [Cert.MemSpec.coe_sum]
  exact Finset.sum_congr rfl fun k _ => by rw [hg k, EReal.coe_mul]

theorem isReal_tanh {x : EReal} (hx : IsReal x) : IsReal (Ideal.tanh x) := by
  obtain ⟨a, rfl⟩ := hx; exact ⟨Real.tanh a, Ideal.tanh_coe a⟩

theorem isReal_log1p_exp {x : EReal} (hx : IsReal x) : IsReal (Ideal.log1p (Ideal.exp x)) := by
  obtain ⟨a, rfl⟩ := hx
  have hpos : ¬ (1 + Real.exp a ≤ 0) := not_le.mpr (by positivity)
  refine ⟨Real.log (1 + Real.exp a), ?_⟩
  rw [Ideal.log1p, Ideal.exp_coe, ← EReal.coe_one, ← EReal.coe_add, Ideal.log_coe, if_neg hpos]

theorem isReal_div {x y : EReal} (hx : IsReal x) {s : ℝ} (hy : y = (s : EReal)) (hs : s ≠ 0) : IsReal (Ideal.div x y) := by
  obtain ⟨a, rfl⟩ := hx
  exact ⟨a * (1 / s), by rw [hy, Ideal.div_coe hs, ← EReal.coe_mul]⟩

theorem isReal_zeroWord : IsReal (Ideal.ofBits .f32 0x00000000#32) := ⟨0, by rw [Ideal.ofBits_zero_f32, EReal.coe_zero]⟩

theorem oneWord : Ideal.ofBits .f32 0x3F800000#32 = ((1 : ℝ) : EReal) := by
  rw [EReal.coe_one]; exact Cert.MemSpec.one_eq

theorem isReal_logistic {x : EReal} (hx : IsReal x) :
    IsReal (Ideal.div (Ideal.ofBits .f32 0x3F800000#32) (Ideal.ofBits .f32 0x3F800000#32 + Ideal.exp (-x))) := by
  obtain ⟨a, rfl⟩ := hx
  have hpos : (0 : ℝ) < 1 + Real.exp (-a) := by positivity
  refine isReal_div ⟨1, oneWord⟩ (s := 1 + Real.exp (-a)) ?_ hpos.ne'
  rw [oneWord, ← EReal.coe_neg, Ideal.exp_coe, ← EReal.coe_add]

theorem isReal_softplus {z o : EReal} (hz : IsReal z) (ho : IsReal o) :
    IsReal (max z o + Ideal.log1p (Ideal.exp (-(max (z - o) (-(z - o)))))) :=
  isReal_add (isReal_max hz ho)
    (isReal_log1p_exp (isReal_neg (isReal_max (isReal_sub hz ho) (isReal_neg (isReal_sub hz ho)))))

theorem cmp_une_self (y : EReal) : Ideal.cmp .une y y = 0#1 := by simp [Ideal.cmp]

theorem pos_max_sqrt {ι : Type} [Fintype ι] {f : ι → EReal} (h : ∀ k, IsReal (f k)) {e : EReal}
    (he : ∃ r : ℝ, 0 < r ∧ e = (r : EReal)) :
    ∃ r : ℝ, 0 < r ∧ max (Ideal.sqrt (∑ k, f k * f k)) e = (r : EReal) := by
  obtain ⟨s, hs, hsum⟩ := sumsq_nonneg h
  obtain ⟨r, hr, rfl⟩ := he
  refine ⟨max (Real.sqrt s) r, lt_max_of_lt_right hr, ?_⟩
  rw [hsum, Ideal.sqrt_coe, if_neg (not_lt.mpr hs), Cert.MemSpec.coe_max]

theorem real2_of {α β : Type} {f : α → β → EReal} (h : ∀ a b, IsReal (f a b)) : Cert.MemSpec.Real2 f :=
  ⟨fun a b => (h a b).choose, fun a b => (h a b).choose_spec⟩
theorem real1_of {α : Type} {f : α → EReal} (h : ∀ a, IsReal (f a)) : Cert.MemSpec.Real1 f :=
  ⟨fun a => (h a).choose, fun a => (h a).choose_spec⟩
theorem pos1_of {α : Type} {f : α → EReal} (h : ∀ a, ∃ r : ℝ, 0 < r ∧ f a = (r : EReal)) : Cert.MemSpec.Pos1 f :=
  ⟨fun a => (h a).choose, fun a => (h a).choose_spec⟩

section Stages

variable (x0 : (⟨S512x1024, .f32⟩ : BufTy).Contents (Elt Ideal))
  (h0 : ∀ i, ∃ r : ℝ, x0 i = (r : EReal))
include h0

theorem affine128_real (W : (⟨S128x1024, .f32⟩ : BufTy).Contents (Elt Ideal)) (bias : (⟨S128, .f32⟩ : BufTy).Contents (Elt Ideal))
    (hW : ∀ i, ∃ r : ℝ, W i = (r : EReal)) (hb : ∀ i, ∃ r : ℝ, bias i = (r : EReal)) (i : S512x128.Idx) :
    IsReal (val_main_v4 (F := Ideal) x0 W bias i) := by
  rw [val_main_v4_apply, Ideal.addf_def, val_main_v1_apply, val_main_v3_apply, val_main_v2_apply]
  refine isReal_add (isReal_sum fun k => isReal_mul (h0 _) ?_) (hb _)
  rw [val_main_v0_apply]; exact hW _

theorem affine1_real (W : (⟨S1x1024, .f32⟩ : BufTy).Contents (Elt Ideal)) (bias : (⟨S1, .f32⟩ : BufTy).Contents (Elt Ideal))
    (hW : ∀ i, ∃ r : ℝ, W i = (r : EReal)) (hb : ∀ i, ∃ r : ℝ, bias i = (r : EReal)) (i : S512x1.Idx) :
    IsReal (val_main_v9 (F := Ideal) x0 W bias i) := by
  rw [val_main_v9_apply, Ideal.addf_def, val_main_v6_apply, val_main_v8_apply, val_main_v7_apply]
  refine isReal_add (isReal_sum fun k => isReal_mul (h0 _) ?_) (hb _)
  rw [val_main_v5_apply]; exact hW _

theorem softplus_real (W : (⟨S1x1024, .f32⟩ : BufTy).Contents (Elt Ideal)) (bias : (⟨S1, .f32⟩ : BufTy).Contents (Elt Ideal))
    (hW : ∀ i, ∃ r : ℝ, W i = (r : EReal)) (hb : ∀ i, ∃ r : ℝ, bias i = (r : EReal)) (i : S512x1.Idx) :
    IsReal (val_main_v10 (F := Ideal) x0 W bias i) := by
  have hz := affine1_real x0 h0 W bias hW hb i
  simp only [val_main_v10_apply, val_main_call0_v4_apply, val_main_call0_v11_apply, val_main_call0_v1_apply,
    val_main_call0_v10_apply, val_main_call0_v9_apply, val_main_call0_v8_apply, val_main_call0_v7_apply,
    val_main_call0_v3_apply, val_main_call0_v0_apply, val_main_call0_v2_apply, val_main_call0_cst_apply,
    Ideal.cmpf_def, cmp_une_self, select_zero, Ideal.addf_def, Ideal.subf_def, Ideal.maximumf_def, Ideal.hostNegf_def,
    Ideal.hostAbsf_def, Ideal.negf_def, Ideal.absf_def, Ideal.hostUnary_exp_def, Ideal.hostUnary_log1p_def, Ideal.ofBits_def]
  exact isReal_softplus hz isReal_zeroWord

theorem gate_real (W : (⟨S128x1024, .f32⟩ : BufTy).Contents (Elt Ideal)) (bias : (⟨S128, .f32⟩ : BufTy).Contents (Elt Ideal))
    (hW : ∀ i, ∃ r : ℝ, W i = (r : EReal)) (hb : ∀ i, ∃ r : ℝ, bias i = (r : EReal)) (i : S512x128.Idx) :
    IsReal (val_main_v77 (F := Ideal) x0 W bias i) := by
  have hz : IsReal (val_main_v71 (F := Ideal) x0 W bias i) := affine128_real x0 h0 W bias hW hb i
  simp only [val_main_v77_apply, val_main_v76_apply, val_main_v75_apply, val_main_v74_apply, val_main_v73_apply,
    val_main_v72_apply, val_main_cst_9_apply, val_main_cst_10_apply, Ideal.hostDivf_def, Ideal.addf_def, Ideal.hostNegf_def,
    Ideal.negf_def, Ideal.hostUnary_exp_def, Ideal.ofBits_def]
  exact isReal_logistic hz

theorem tanh_real (W : (⟨S128x1024, .f32⟩ : BufTy).Contents (Elt Ideal)) (bias : (⟨S128, .f32⟩ : BufTy).Contents (Elt Ideal))
    (hW : ∀ i, ∃ r : ℝ, W i = (r : EReal)) (hb : ∀ i, ∃ r : ℝ, bias i = (r : EReal)) (i : S512x128.Idx) :
    IsReal (val_main_v83 (F := Ideal) x0 W bias i) := by
  have hz : IsReal (val_main_v82 (F := Ideal) x0 W bias i) := affine128_real x0 h0 W bias hW hb i
  rw [val_main_v83_apply, Ideal.hostUnary_tanh_def]
  exact isReal_tanh hz

theorem norm_pos (W : (⟨S128x1024, .f32⟩ : BufTy).Contents (Elt Ideal)) (bias : (⟨S128, .f32⟩ : BufTy).Contents (Elt Ideal))
    (hW : ∀ i, ∃ r : ℝ, W i = (r : EReal)) (hb : ∀ i, ∃ r : ℝ, bias i = (r : EReal)) (i : S512x1.Idx) :
    ∃ r : ℝ, 0 < r ∧ val_main_v13 (F := Ideal) x0 W bias i = (r : EReal) := by
  rw [val_main_v13_apply, val_main_v11_apply, val_main_call1_v2_apply, val_main_call1_v1_apply, val_main_v12_apply,
    val_main_cst_apply, val_main_call1_cst_apply]
  simp only [val_main_call1_v0_apply, Ideal.maximumf_def, Ideal.hostUnary_sqrt_def, Ideal.mulf_def, Ideal.ofBits_def,
    Ideal.ofBits_zero_f32, zero_add]
  exact pos_max_sqrt (fun k => affine128_real x0 h0 W bias hW hb _) Cert.MemSpec.eps_pos

end Stages

section Seven

variable {x0 : (⟨S512x1024, .f32⟩ : BufTy).Contents (Elt Ideal)}
  {x2 x4 x8 x10 : (⟨S128x1024, .f32⟩ : BufTy).Contents (Elt Ideal)} {x3 x5 x9 x11 : (⟨S128, .f32⟩ : BufTy).Contents (Elt Ideal)}
  {x6 : (⟨S1x1024, .f32⟩ : BufTy).Contents (Elt Ideal)} {x7 : (⟨S1, .f32⟩ : BufTy).Contents (Elt Ideal)}

theorem rq_real (h0 : ∀ i, ∃ r : ℝ, x0 i = (r : EReal)) (h2 : ∀ i, ∃ r : ℝ, x2 i = (r : EReal)) (h3 : ∀ i, ∃ r : ℝ, x3 i = (r : EReal)) :
    Cert.MemSpec.Real2 (fun (b : Fin 512) (d : Fin 128) => val_main_v4 (F := Ideal) x0 x2 x3 (ix2 b d)) :=
  real2_of fun b d => affine128_real x0 h0 x2 x3 h2 h3 (ix2 b d)

theorem wq_real (h0 : ∀ i, ∃ r : ℝ, x0 i = (r : EReal)) (h4 : ∀ i, ∃ r : ℝ, x4 i = (r : EReal)) (h5 : ∀ i, ∃ r : ℝ, x5 i = (r : EReal)) :
    Cert.MemSpec.Real2 (fun (b : Fin 512) (d : Fin 128) => val_main_v42 (F := Ideal) x0 x4 x5 (ix2 b d)) :=
  real2_of fun b d => affine128_real x0 h0 x4 x5 h4 h5 (ix2 b d)

theorem er_real (h0 : ∀ i, ∃ r : ℝ, x0 i = (r : EReal)) (h8 : ∀ i, ∃ r : ℝ, x8 i = (r : EReal)) (h9 : ∀ i, ∃ r : ℝ, x9 i = (r : EReal)) :
    Cert.MemSpec.Real2 (fun (b : Fin 512) (d : Fin 128) => val_main_v77 (F := Ideal) x0 x8 x9 (ix2 b d)) :=
  real2_of fun b d => gate_real x0 h0 x8 x9 h8 h9 (ix2 b d)

theorem ad_real (h0 : ∀ i, ∃ r : ℝ, x0 i = (r : EReal)) (h10 : ∀ i, ∃ r : ℝ, x10 i = (r : EReal)) (h11 : ∀ i, ∃ r : ℝ, x11 i = (r : EReal)) :
    Cert.MemSpec.Real2 (fun (b : Fin 512) (d : Fin 128) => val_main_v83 (F := Ideal) x0 x10 x11 (ix2 b d)) :=
  real2_of fun b d => tanh_real x0 h0 x10 x11 h10 h11 (ix2 b d)

theorem ks_real (h0 : ∀ i, ∃ r : ℝ, x0 i = (r : EReal)) (h6 : ∀ i, ∃ r : ℝ, x6 i = (r : EReal)) (h7 : ∀ i, ∃ r : ℝ, x7 i = (r : EReal)) :
    Cert.MemSpec.Real1 (fun b : Fin 512 => val_main_v10 (F := Ideal) x0 x6 x7 (ix2 b (0 : Fin 1))) :=
  real1_of fun b => softplus_real x0 h0 x6 x7 h6 h7 (ix2 b (0 : Fin 1))

theorem qnr_pos (h0 : ∀ i, ∃ r : ℝ, x0 i = (r : EReal)) (h2 : ∀ i, ∃ r : ℝ, x2 i = (r : EReal)) (h3 : ∀ i, ∃ r : ℝ, x3 i = (r : EReal)) :
    Cert.MemSpec.Pos1 (fun b : Fin 512 => val_main_v13 (F := Ideal) x0 x2 x3 (ix2 b (0 : Fin 1))) :=
  pos1_of fun b => norm_pos x0 h0 x2 x3 h2 h3 (ix2 b (0 : Fin 1))

theorem qnw_pos (h0 : ∀ i, ∃ r : ℝ, x0 i = (r : EReal)) (h4 : ∀ i, ∃ r : ℝ, x4 i = (r : EReal)) (h5 : ∀ i, ∃ r : ℝ, x5 i = (r : EReal)) :
    Cert.MemSpec.Pos1 (fun b : Fin 512 => val_main_v45 (F := Ideal) x0 x4 x5 (ix2 b (0 : Fin 1))) :=
  pos1_of fun b => norm_pos x0 h0 x4 x5 h4 h5 (ix2 b (0 : Fin 1))

end Seven

end Cert.Val.SharedReal

end
-- ==== Proof.Val.RefValue.lean ====
import proofs.«429040_j74268574482523_3_alg».proof.Proof.Gen.ReferenceIdeal.Read
import proofs.«429040_j74268574482523_3_alg».proof.Proof.Spec
import Idealize.ShloMosaic.Lib.ValueIdx
import Idealize.ShloMosaic.PureOps.Ideal.Laws
import Mathlib.Data.Finset.Lattice.Fold

noncomputable section

namespace Cert.Val.RefValue

open Cert.ReferenceIdeal Cert.ReferenceIdeal.Gen Idealize.ShloMosaic Idealize.ShloMosaic.ValueIdx Idealize.ShloMosaic.StableHlo

variable (x0 : (⟨S512x1024, .f32⟩ : BufTy).Contents (Elt Ideal)) (x1 : (⟨S131072x128, .f32⟩ : BufTy).Contents (Elt Ideal))
  (x2 : (⟨S128x1024, .f32⟩ : BufTy).Contents (Elt Ideal)) (x3 : (⟨S128, .f32⟩ : BufTy).Contents (Elt Ideal))
  (x4 : (⟨S128x1024, .f32⟩ : BufTy).Contents (Elt Ideal)) (x5 : (⟨S128, .f32⟩ : BufTy).Contents (Elt Ideal))
  (x6 : (⟨S1x1024, .f32⟩ : BufTy).Contents (Elt Ideal)) (x7 : (⟨S1, .f32⟩ : BufTy).Contents (Elt Ideal))
  (x8 : (⟨S128x1024, .f32⟩ : BufTy).Contents (Elt Ideal)) (x9 : (⟨S128, .f32⟩ : BufTy).Contents (Elt Ideal))
  (x10 : (⟨S128x1024, .f32⟩ : BufTy).Contents (Elt Ideal)) (x11 : (⟨S128, .f32⟩ : BufTy).Contents (Elt Ideal))

abbrev memS (j : Fin 131072) (d : Fin 128) : EReal := x1 (ix2 j d)

abbrev rq (b : Fin 512) (d : Fin 128) : EReal := Read.val_main_v4 (F := Ideal) x0 x2 x3 (ix2 b d)

abbrev wq (b : Fin 512) (d : Fin 128) : EReal := Read.val_main_v42 (F := Ideal) x0 x4 x5 (ix2 b d)

abbrev ks (b : Fin 512) : EReal := Read.val_main_v10 (F := Ideal) x0 x6 x7 (ix2 b (0 : Fin 1))

abbrev er (b : Fin 512) (d : Fin 128) : EReal := Read.val_main_v77 (F := Ideal) x0 x8 x9 (ix2 b d)

abbrev ad (b : Fin 512) (d : Fin 128) : EReal := Read.val_main_v83 (F := Ideal) x0 x10 x11 (ix2 b d)

abbrev qnr (b : Fin 512) : EReal := Read.val_main_v13 (F := Ideal) x0 x2 x3 (ix2 b (0 : Fin 1))

abbrev qnw (b : Fin 512) : EReal := Read.val_main_v45 (F := Ideal) x0 x4 x5 (ix2 b (0 : Fin 1))

abbrev mxr (b : Fin 512) : EReal := Read.val_main_v28 (F := Ideal) x0 x1 x2 x3 x6 x7 (ix1 b)

abbrev mxw (b : Fin 512) : EReal := Read.val_main_v58 (F := Ideal) x0 x1 x4 x5 (ix1 b)

local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

theorem mnR_ref (j : Fin 131072) : Read.val_main_v16 (F := Ideal) x1 (ix1 j) = Cert.MemSpec.mn (memS x1) j := by
  rw [Read.val_main_v16_apply, Read.val_main_v14_apply, Read.val_main_v15_apply, Read.val_main_cst_0_apply,
    Read.val_main_call2_v1_apply, Read.val_main_call2_cst_apply]
  have e : ∀ k : Fin 128, Read.idx_main_call2_v1 (ix1 j) k = ix2 j k := fun k => by idx2
  simp only [Read.val_main_call2_v0_apply, e, Ideal.maximumf_def, Ideal.hostUnary_sqrt_def, Ideal.ofBits_def,
    Ideal.mulf_def, Ideal.ofBits_zero_f32, zero_add]
  rfl

theorem simR_ref (b : Fin 512) (j : Fin 131072) :
    Read.val_main_v25 (F := Ideal) x0 x1 x2 x3 x6 x7 (ix2 b j)
      = Cert.MemSpec.simRR (memS x1) (rq x0 x2 x3) (ks x0 x6 x7) (qnr x0 x2 x3) b j := by
  rw [Read.val_main_v25_apply, Read.val_main_v23_apply, Read.val_main_v18_apply, Read.val_main_v22_apply,
    Read.val_main_v20_apply, Read.val_main_v21_apply, Read.val_main_v19_apply, Read.val_main_v24_apply,
    show Read.idx_main_v20 (ix2 b j) = ix2 b (0 : Fin 1) by idx2,
    show Read.idx_main_v24 (ix2 b j) = ix2 b (0 : Fin 1) by idx2,
    show Read.idx_main_v19 (Read.idx_main_v21 (ix2 b j)) = ix1 j by idx1, mnR_ref]
  have el : ∀ k : Fin 128, Read.lidx_main_v18 (ix2 b j) k = ix2 b k := fun k => by idx2
  have er : ∀ k : Fin 128, Read.idx_main_v17 (Read.ridx_main_v18 (ix2 b j) k) = ix2 j k := fun k => by idx2
  simp only [Read.val_main_v17_apply, el, er, Ideal.mulf_def, Ideal.hostDivf_def]
  rfl

theorem eR_ref (b : Fin 512) (j : Fin 131072) :
    Read.val_main_v32 (F := Ideal) x0 x1 x2 x3 x6 x7 (ix2 b j)
      = Cert.MemSpec.eRR (memS x1) (rq x0 x2 x3) (ks x0 x6 x7) (qnr x0 x2 x3) (mxr x0 x1 x2 x3 x6 x7) b j := by
  rw [Read.val_main_v32_apply, Read.val_main_v31_apply, Read.val_main_v30_apply, Read.val_main_v29_apply, simR_ref,
    show Read.idx_main_v29 (Read.idx_main_v30 (ix2 b j)) = ix1 b by idx1]
  rfl

theorem lR_ref (b : Fin 512) :
    Read.val_main_v33 (F := Ideal) x0 x1 x2 x3 x6 x7 (ix1 b)
      = ∑ j : Fin 131072, Cert.MemSpec.eRR (memS x1) (rq x0 x2 x3) (ks x0 x6 x7) (qnr x0 x2 x3) (mxr x0 x1 x2 x3 x6 x7) b j := by
  rw [Read.val_main_v33_apply, Read.val_main_cst_3_apply, Ideal.ofBits_def, Ideal.ofBits_zero_f32, zero_add]
  refine Finset.sum_congr rfl fun k _ => ?_
  rw [show Read.idx_main_v33 (ix1 b) k = ix2 b k by idx2, eR_ref]

theorem readW_ref (b : Fin 512) (j : Fin 131072) :
    Read.val_main_v36 (F := Ideal) x0 x1 x2 x3 x6 x7 (ix2 b j)
      = Cert.MemSpec.readWR (memS x1) (rq x0 x2 x3) (ks x0 x6 x7) (qnr x0 x2 x3) (mxr x0 x1 x2 x3 x6 x7) b j := by
  rw [Read.val_main_v36_apply, Read.val_main_v35_apply, Read.val_main_v34_apply, eR_ref,
    show Read.idx_main_v34 (Read.idx_main_v35 (ix2 b j)) = ix1 b by idx1, lR_ref]
  rfl

theorem readVec_ref (b : Fin 512) (d : Fin 128) :
    Read.val_main_v37 (F := Ideal) x0 x1 x2 x3 x6 x7 (ix2 b d)
      = Cert.MemSpec.readVecR (memS x1) (rq x0 x2 x3) (ks x0 x6 x7) (qnr x0 x2 x3) (mxr x0 x1 x2 x3 x6 x7) b d := by
  rw [Read.val_main_v37_apply]
  refine Finset.sum_congr rfl fun k _ => ?_
  rw [show Read.lidx_main_v37 (ix2 b d) k = ix2 b k by idx2, show Read.ridx_main_v37 (ix2 b d) k = ix2 k d by idx2,
    readW_ref]

theorem mnW_ref (j : Fin 131072) : Read.val_main_v48 (F := Ideal) x1 (ix1 j) = Cert.MemSpec.mn (memS x1) j := by
  rw [Read.val_main_v48_apply, Read.val_main_v46_apply, Read.val_main_v47_apply, Read.val_main_cst_5_apply,
    Read.val_main_call4_v1_apply, Read.val_main_call4_cst_apply]
  have e : ∀ k : Fin 128, Read.idx_main_call4_v1 (ix1 j) k = ix2 j k := fun k => by idx2
  simp only [Read.val_main_call4_v0_apply, e, Ideal.maximumf_def, Ideal.hostUnary_sqrt_def, Ideal.ofBits_def,
    Ideal.mulf_def, Ideal.ofBits_zero_f32, zero_add]
  rfl

theorem simW_ref (b : Fin 512) (j : Fin 131072) :
    Read.val_main_v55 (F := Ideal) x0 x1 x4 x5 (ix2 b j)
      = Cert.MemSpec.simRW (memS x1) (wq x0 x4 x5) (qnw x0 x4 x5) b j := by
  rw [Read.val_main_v55_apply, Read.val_main_v50_apply, Read.val_main_v54_apply,
    Read.val_main_v52_apply, Read.val_main_v53_apply, Read.val_main_v51_apply,
    show Read.idx_main_v52 (ix2 b j) = ix2 b (0 : Fin 1) by idx2,
    show Read.idx_main_v51 (Read.idx_main_v53 (ix2 b j)) = ix1 j by idx1, mnW_ref]
  have el : ∀ k : Fin 128, Read.lidx_main_v50 (ix2 b j) k = ix2 b k := fun k => by idx2
  have er : ∀ k : Fin 128, Read.idx_main_v49 (Read.ridx_main_v50 (ix2 b j) k) = ix2 j k := fun k => by idx2
  simp only [Read.val_main_v49_apply, el, er, Ideal.mulf_def, Ideal.hostDivf_def]
  rfl

theorem eW_ref (b : Fin 512) (j : Fin 131072) :
    Read.val_main_v62 (F := Ideal) x0 x1 x4 x5 (ix2 b j)
      = Cert.MemSpec.eRW (memS x1) (wq x0 x4 x5) (qnw x0 x4 x5) (mxw x0 x1 x4 x5) b j := by
  rw [Read.val_main_v62_apply, Read.val_main_v61_apply, Read.val_main_v60_apply, Read.val_main_v59_apply, simW_ref,
    show Read.idx_main_v59 (Read.idx_main_v60 (ix2 b j)) = ix1 b by idx1]
  rfl

theorem lW_ref (b : Fin 512) :
    Read.val_main_v63 (F := Ideal) x0 x1 x4 x5 (ix1 b)
      = ∑ j : Fin 131072, Cert.MemSpec.eRW (memS x1) (wq x0 x4 x5) (qnw x0 x4 x5) (mxw x0 x1 x4 x5) b j := by
  rw [Read.val_main_v63_apply, Read.val_main_cst_8_apply, Ideal.ofBits_def, Ideal.ofBits_zero_f32, zero_add]
  refine Finset.sum_congr rfl fun k _ => ?_
  rw [show Read.idx_main_v63 (ix1 b) k = ix2 b k by idx2, eW_ref]

theorem w_ref (b : Fin 512) (j : Fin 131072) :
    Read.val_main_v66 (F := Ideal) x0 x1 x4 x5 (ix2 b j)
      = Cert.MemSpec.wR (memS x1) (wq x0 x4 x5) (qnw x0 x4 x5) (mxw x0 x1 x4 x5) b j := by
  rw [Read.val_main_v66_apply, Read.val_main_v65_apply, Read.val_main_v64_apply, eW_ref,
    show Read.idx_main_v64 (Read.idx_main_v65 (ix2 b j)) = ix1 b by idx1, lW_ref]
  rfl

theorem eraseMean_ref (j : Fin 131072) (d : Fin 128) :
    Read.val_main_v87 (F := Ideal) x0 x1 x4 x5 x8 x9 (ix2 j d)
      = Cert.MemSpec.eraseMeanR (memS x1) (wq x0 x4 x5) (er x0 x8 x9) (qnw x0 x4 x5) (mxw x0 x1 x4 x5) j d := by
  rw [Read.val_main_v87_apply, Read.val_main_v85_apply, Read.val_main_v86_apply, Read.val_main_cst_11_apply]
  refine congrArg₂ (· * ·) (Finset.sum_congr rfl fun k _ => ?_) rfl
  rw [Read.val_main_v84_apply, show Read.idx_main_v84 (Read.lidx_main_v85 (ix2 j d) k) = ix2 k j by idx2,
    show Read.ridx_main_v85 (ix2 j d) k = ix2 k d by idx2, w_ref]

theorem addMean_ref (j : Fin 131072) (d : Fin 128) :
    Read.val_main_v91 (F := Ideal) x0 x1 x4 x5 x10 x11 (ix2 j d)
      = Cert.MemSpec.addMeanR (memS x1) (wq x0 x4 x5) (ad x0 x10 x11) (qnw x0 x4 x5) (mxw x0 x1 x4 x5) j d := by
  rw [Read.val_main_v91_apply, Read.val_main_v89_apply, Read.val_main_v90_apply, Read.val_main_cst_12_apply]
  refine congrArg₂ (· * ·) (Finset.sum_congr rfl fun k _ => ?_) rfl
  rw [Read.val_main_v88_apply, show Read.idx_main_v88 (Read.lidx_main_v89 (ix2 j d) k) = ix2 k j by idx2,
    show Read.ridx_main_v89 (ix2 j d) k = ix2 k d by idx2, w_ref]

theorem newMem_ref (j : Fin 131072) (d : Fin 128) :
    Read.val_main_v95 (F := Ideal) x0 x1 x4 x5 x8 x9 x10 x11 (ix2 j d)
      = Cert.MemSpec.newMemR (memS x1) (wq x0 x4 x5) (er x0 x8 x9) (ad x0 x10 x11) (qnw x0 x4 x5) (mxw x0 x1 x4 x5) j d := by
  rw [Read.val_main_v95_apply, Read.val_main_v94_apply, Read.val_main_v93_apply, Read.val_main_v92_apply,
    Read.val_main_cst_13_apply, eraseMean_ref, addMean_ref]
  rfl

private theorem sup_real {ι : Type} (s : Finset ι) (hs : s.Nonempty) (f : ι → EReal)
    (hf : ∀ k, ∃ r : ℝ, f k = (r : EReal)) : ∃ r : ℝ, s.sup f = (r : EReal) := by
  obtain ⟨k, _, hk⟩ := Finset.exists_mem_eq_sup s hs f
  obtain ⟨r, hr⟩ := hf k
  exact ⟨r, hk.trans hr⟩

private theorem lift_row (h : S512x131072.Reduces [1] S512) (b : Fin 512) (k : Fin (S512x131072.size 1)) :
    h.lift (ix1 b) k = ix2 b (⟨k.val, k.isLt⟩ : Fin 131072) := by
  funext c
  apply Fin.ext
  match c with
  | ⟨0, _⟩ => rfl
  | ⟨1, _⟩ => rfl

private theorem rowmax_real (y : FVec Ideal S512x131072 .f32)
    (hy : ∀ (b : Fin 512) (j : Fin 131072), ∃ r : ℝ, y (ix2 b j) = (r : EReal)) (b : Fin 512) :
    ∃ r : ℝ, max (Ideal.ofBits .f32 0xFF800000#32)
      (Host.reduce (FloatOps.maximumf (F := Ideal) (φ := .f32)) y (constant (F := Ideal) S_ .f32 0xFF800000#32)
        reducesTo_S512x131072_S512_d1 h_S_ (ix1 b)) = (r : EReal) := by
  have hbot : Ideal.ofBits .f32 0xFF800000#32 = (⊥ : EReal) := by simp [Ideal.ofBits, Ideal.ieee]
  have h : S512x131072.Reduces [1] S512 := by decide
  rw [Host.reduce_eq_fold_single (FloatOps.maximumf (F := Ideal) (φ := .f32)) y _ reducesTo_S512x131072_S512_d1 h h_S_]
  have e : (Finset.univ : Finset (Fin (S512x131072.size 1))).fold (FloatOps.maximumf (F := Ideal) (φ := .f32))
      ((constant (F := Ideal) S_ .f32 0xFF800000#32) (Shape.Idx.first h_S_)) (y ∘ h.lift (ix1 b))
      = (Finset.univ : Finset (Fin (S512x131072.size 1))).sup (y ∘ h.lift (ix1 b)) := by
    show Finset.fold _ (Ideal.ofBits .f32 0xFF800000#32) _ _ = _
    rw [hbot]
    rfl
  rw [e, hbot, max_eq_right bot_le]
  refine sup_real _ ⟨⟨0, by decide⟩, Finset.mem_univ _⟩ _ fun k => ?_
  obtain ⟨r, hr⟩ := hy b ⟨k.val, k.isLt⟩
  exact ⟨r, by rw [Function.comp_apply, lift_row h b k, hr]⟩

theorem mxr_real
    (hsim : ∀ b j, ∃ r : ℝ, Cert.MemSpec.simRR (memS x1) (rq x0 x2 x3) (ks x0 x6 x7) (qnr x0 x2 x3) b j = (r : EReal)) :
    Cert.MemSpec.Real1 (mxr x0 x1 x2 x3 x6 x7) := by
  have h : ∀ b : Fin 512, ∃ r : ℝ, mxr x0 x1 x2 x3 x6 x7 b = (r : EReal) := fun b => by
    show ∃ r : ℝ, Read.val_main_v28 (F := Ideal) x0 x1 x2 x3 x6 x7 (ix1 b) = (r : EReal)
    rw [Read.val_main_v28_apply, Read.val_main_v27_apply, Read.val_main_cst_2_apply, Ideal.maximumf_def, Ideal.ofBits_def]
    exact rowmax_real (Read.val_main_v25 (F := Ideal) x0 x1 x2 x3 x6 x7)
      (fun b j => by rw [simR_ref]; exact hsim b j) b
  choose g hg using h
  exact ⟨g, hg⟩

theorem mxw_real
    (hsim : ∀ b j, ∃ r : ℝ, Cert.MemSpec.simRW (memS x1) (wq x0 x4 x5) (qnw x0 x4 x5) b j = (r : EReal)) :
    Cert.MemSpec.Real1 (mxw x0 x1 x4 x5) := by
  have h : ∀ b : Fin 512, ∃ r : ℝ, mxw x0 x1 x4 x5 b = (r : EReal) := fun b => by
    show ∃ r : ℝ, Read.val_main_v58 (F := Ideal) x0 x1 x4 x5 (ix1 b) = (r : EReal)
    rw [Read.val_main_v58_apply, Read.val_main_v57_apply, Read.val_main_cst_7_apply, Ideal.maximumf_def, Ideal.ofBits_def]
    exact rowmax_real (Read.val_main_v55 (F := Ideal) x0 x1 x4 x5)
      (fun b j => by rw [simW_ref]; exact hsim b j) b
  choose g hg using h
  exact ⟨g, hg⟩

end Cert.Val.RefValue

end
-- ==== Proof.Val.Arr0Cover.lean ====
import proofs.«429040_j74268574482523_3_alg».proof.Proof.KI.R0Frame
import proofs.«429040_j74268574482523_3_alg».proof.Proof.Spec
import Idealize.ShloMosaic.Lib.Pipeline.Value
import Idealize.ShloMosaic.Lib.ValueIdx

set_option maxRecDepth 16384

noncomputable section

namespace Cert.Val.Arr0Cover

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable {F : FTy → Type} [FloatOps F]

variable (V : (c : Dev nD) → (b : Ref sig .tc) → Buf (Elt F) ((c : Thread nD τ).loc b)) (c : Dev nD)

def lastPt (p : Fin 2) : Fin cfg0.N := ⟨p.val * 32 + 31, by rw [show cfg0.N = 64 from N_0]; have := p.isLt; omega⟩
theorem lastPt_val (p : Fin 2) : (lastPt p).val = p.val * 32 + 31 := rfl

theorem idx_facts0 : ∀ t : Fin cfg0.N,
    win0_3.index t (0 : Fin 3) = t.val / 32 ∧ win0_3.index t (1 : Fin 3) = 0 ∧ win0_3.index t (2 : Fin 3) = 0
    ∧ win0_4.index t (0 : Fin 3) = t.val / 32 ∧ win0_4.index t (1 : Fin 3) = 0 ∧ win0_4.index t (2 : Fin 3) = 0
    ∧ win0_5.index t (0 : Fin 3) = t.val / 32 ∧ win0_5.index t (1 : Fin 3) = 0 ∧ win0_5.index t (2 : Fin 3) = 0 :=
  (by decide +kernel : ∀ t : Fin grid0.N, _)

abbrev G3fun (G : Fin 2 → Fin 512 → Fin 128 → Elt F .f32) : S2x512x128.Idx → Elt F .f32 := fun i => G (i 0) (i 1) (i 2)

theorem after3_at (G : Fin 2 → Fin 512 → Fin 128 → Elt F .f32)
    (h : ∀ (p : Fin 2) (b : Fin 512) (d : Fin 128), ((dat0 V c).after 3 (lastPt p) : Vec F S1x512x128 .f32) (ix3 0 b d) = G p b d)
    (p : Fin 2) (y : S1x512x128.Idx) :
    ((dat0 V c).after 3 (lastPt p) : Vec F S1x512x128 .f32) y = G p (y 1) (y 2) := by
  have h0 : (y 0).val < 1 := (y 0).isLt
  have hy : y = ix3 0 (y 1) (y 2) := by
    funext a
    match a with
    | ⟨0, _⟩ => exact Fin.ext (by show (y 0).val = 0; omega)
    | ⟨1, _⟩ => rfl
    | ⟨2, _⟩ => rfl
  exact (congrArg ((dat0 V c).after 3 (lastPt p) : Vec F S1x512x128 .f32) hy).trans (h p (y 1) (y 2))

theorem flushed3_of_last (G : Fin 2 → Fin 512 → Fin 128 → Elt F .f32)
    (h : ∀ (p : Fin 2) (b : Fin 512) (d : Fin 128), ((dat0 V c).after 3 (lastPt p) : Vec F S1x512x128 .f32) (ix3 0 b d) = G p b d)
    (t : Fin cfg0.N) (hf : (cfg0.win 3).flush t = true) :
    (dat0 V c).flushed 3 t = ((cfg0.win 3).blk t).view.read (Elt F) (G3fun G) := by
  have h31 : t.val % 32 = 31 := (flush0_3 t).mp hf
  have hN : t.val < 64 := lt_of_lt_of_eq t.isLt N_0
  obtain ⟨p, rfl⟩ : ∃ p : Fin 2, t = lastPt p := ⟨⟨t.val / 32, by omega⟩, Fin.ext (by show t.val = t.val / 32 * 32 + 31; omega)⟩
  obtain ⟨e0, e1, e2, -⟩ := idx_facts0 (lastPt p)
  show (cfg0.win 3).cut (grid0.coords (lastPt p)) ((dat0 V c).after 3 (lastPt p)) = _
  funext y
  rw [View.read_apply]
  refine (after3_at V c G h p y).trans ?_
  show G3fun G (ix3 p (y 1) (y 2)) = _
  refine congrArg (G3fun G) ?_
  have hp : p.val < 2 := p.isLt
  have hl : (lastPt p).val = p.val * 32 + 31 := lastPt_val p
  have h0 : (y 0).val < 1 := (y 0).isLt
  funext a; apply Fin.ext
  match a with
  | ⟨0, _⟩ => show p.val = win0_3.index (lastPt p) (0 : Fin 3) * 1 + 1 * (y 0).val; rw [e0]; omega
  | ⟨1, _⟩ => show (y 1).val = win0_3.index (lastPt p) (1 : Fin 3) * 512 + 1 * (y 1).val; rw [e1]; omega
  | ⟨2, _⟩ => show (y 2).val = win0_3.index (lastPt p) (2 : Fin 3) * 128 + 1 * (y 2).val; rw [e2]; omega

theorem mem_blk3 (t : Fin cfg0.N) (i : S2x512x128.Idx) :
    i ∈ ((cfg0.win 3).blk t).view.set ↔ ∀ a : Fin 3, win0_3.index t a * S1x512x128.size a ≤ (i a).val ∧ (i a).val < win0_3.index t a * S1x512x128.size a + S1x512x128.size a := by
  show i ∈ ((View.whole main_v50_0).slice (win0_3.rect t)).set ↔ _
  rw [View.set_slice_whole, Rect.mem_set_unit]
  exact Iff.rfl

theorem cover3 (i : S2x512x128.Idx) :
    ∃ t : Fin cfg0.N, (cfg0.win 3).flush t = true ∧ i ∈ ((cfg0.win 3).blk t).view.set := by
  have hi0 : (i 0).val < 2 := (i 0).isLt
  have hi1 : (i 1).val < 512 := (i 1).isLt
  have hi2 : (i 2).val < 128 := (i 2).isLt
  obtain ⟨p, hp⟩ : ∃ p : Fin 2, p.val = (i 0).val := ⟨⟨(i 0).val, hi0⟩, rfl⟩
  have hl : (lastPt p).val = p.val * 32 + 31 := lastPt_val p
  obtain ⟨e0, e1, e2, -⟩ := idx_facts0 (lastPt p)
  refine ⟨lastPt p, (flush0_3 _).mpr (by omega), ?_⟩
  rw [mem_blk3]
  intro a
  match a with
  | ⟨0, _⟩ => show win0_3.index (lastPt p) (0 : Fin 3) * 1 ≤ (i 0).val ∧ (i 0).val < win0_3.index (lastPt p) (0 : Fin 3) * 1 + 1; rw [e0]; omega
  | ⟨1, _⟩ => show win0_3.index (lastPt p) (1 : Fin 3) * 512 ≤ (i 1).val ∧ (i 1).val < win0_3.index (lastPt p) (1 : Fin 3) * 512 + 512; rw [e1]; omega
  | ⟨2, _⟩ => show win0_3.index (lastPt p) (2 : Fin 3) * 128 ≤ (i 2).val ∧ (i 2).val < win0_3.index (lastPt p) (2 : Fin 3) * 128 + 128; rw [e2]; omega

theorem final3 (G : Fin 2 → Fin 512 → Fin 128 → Elt F .f32)
    (h : ∀ (p : Fin 2) (b : Fin 512) (d : Fin 128), ((dat0 V c).after 3 (lastPt p) : Vec F S1x512x128 .f32) (ix3 0 b d) = G p b d) :
    (dat0 V c).arrAt 3 cfg0.N = G3fun G :=
  (dat0 V c).arrAt_eq_of_cover 3 (G3fun G) (flushed3_of_last V c G h) cover3

theorem arr3_of_last (G : Fin 2 → Fin 512 → Fin 128 → Elt F .f32)
    (h : ∀ (p : Fin 2) (b : Fin 512) (d : Fin 128), ((dat0 V c).after 3 (lastPt p) : Vec F S1x512x128 .f32) (ix3 0 b d) = G p b d)
    (p : Fin 2) (b : Fin 512) (d : Fin 128) :
    ((dat0 V c).arrAt 3 cfg0.N : S2x512x128.Idx → Elt F .f32) (ix3 p b d) = G p b d := by
  rw [final3 V c G h]

abbrev G4fun (G : Fin 2 → Fin 512 → Elt F .f32) : S2x512x1.Idx → Elt F .f32 := fun i => G (i 0) (i 1)

theorem after4_at (G : Fin 2 → Fin 512 → Elt F .f32)
    (h : ∀ (p : Fin 2) (b : Fin 512), ((dat0 V c).after 4 (lastPt p) : Vec F S1x512x1 .f32) (ix3 0 b 0) = G p b)
    (p : Fin 2) (y : S1x512x1.Idx) :
    ((dat0 V c).after 4 (lastPt p) : Vec F S1x512x1 .f32) y = G p (y 1) := by
  have h0 : (y 0).val < 1 := (y 0).isLt
  have h2 : (y 2).val < 1 := (y 2).isLt
  have hy : y = ix3 0 (y 1) 0 := by
    funext a
    match a with
    | ⟨0, _⟩ => exact Fin.ext (by show (y 0).val = 0; omega)
    | ⟨1, _⟩ => rfl
    | ⟨2, _⟩ => exact Fin.ext (by show (y 2).val = 0; omega)
  exact (congrArg ((dat0 V c).after 4 (lastPt p) : Vec F S1x512x1 .f32) hy).trans (h p (y 1))

theorem flushed4_of_last (G : Fin 2 → Fin 512 → Elt F .f32)
    (h : ∀ (p : Fin 2) (b : Fin 512), ((dat0 V c).after 4 (lastPt p) : Vec F S1x512x1 .f32) (ix3 0 b 0) = G p b)
    (t : Fin cfg0.N) (hf : (cfg0.win 4).flush t = true) :
    (dat0 V c).flushed 4 t = ((cfg0.win 4).blk t).view.read (Elt F) (G4fun G) := by
  have h31 : t.val % 32 = 31 := (flush0_4 t).mp hf
  have hN : t.val < 64 := lt_of_lt_of_eq t.isLt N_0
  obtain ⟨p, rfl⟩ : ∃ p : Fin 2, t = lastPt p := ⟨⟨t.val / 32, by omega⟩, Fin.ext (by show t.val = t.val / 32 * 32 + 31; omega)⟩
  obtain ⟨-, -, -, e0, e1, e2, -⟩ := idx_facts0 (lastPt p)
  show (cfg0.win 4).cut (grid0.coords (lastPt p)) ((dat0 V c).after 4 (lastPt p)) = _
  funext y
  rw [View.read_apply]
  refine (after4_at V c G h p y).trans ?_
  show G4fun G (ix3 p (y 1) 0) = _
  refine congrArg (G4fun G) ?_
  have hp : p.val < 2 := p.isLt
  have hl : (lastPt p).val = p.val * 32 + 31 := lastPt_val p
  have h2 : (y 2).val < 1 := (y 2).isLt
  have h0 : (y 0).val < 1 := (y 0).isLt
  funext a; apply Fin.ext
  match a with
  | ⟨0, _⟩ => show p.val = win0_4.index (lastPt p) (0 : Fin 3) * 1 + 1 * (y 0).val; rw [e0]; omega
  | ⟨1, _⟩ => show (y 1).val = win0_4.index (lastPt p) (1 : Fin 3) * 512 + 1 * (y 1).val; rw [e1]; omega
  | ⟨2, _⟩ => show (0 : Fin 1).val = win0_4.index (lastPt p) (2 : Fin 3) * 1 + 1 * (y 2).val; rw [e2]; show 0 = 0 * 1 + 1 * (y 2).val; omega

theorem mem_blk4 (t : Fin cfg0.N) (i : S2x512x1.Idx) :
    i ∈ ((cfg0.win 4).blk t).view.set ↔ ∀ a : Fin 3, win0_4.index t a * S1x512x1.size a ≤ (i a).val ∧ (i a).val < win0_4.index t a * S1x512x1.size a + S1x512x1.size a := by
  show i ∈ ((View.whole main_v50_1).slice (win0_4.rect t)).set ↔ _
  rw [View.set_slice_whole, Rect.mem_set_unit]
  exact Iff.rfl

theorem cover4 (i : S2x512x1.Idx) :
    ∃ t : Fin cfg0.N, (cfg0.win 4).flush t = true ∧ i ∈ ((cfg0.win 4).blk t).view.set := by
  have hi0 : (i 0).val < 2 := (i 0).isLt
  have hi1 : (i 1).val < 512 := (i 1).isLt
  have hi2 : (i 2).val < 1 := (i 2).isLt
  obtain ⟨p, hp⟩ : ∃ p : Fin 2, p.val = (i 0).val := ⟨⟨(i 0).val, hi0⟩, rfl⟩
  have hl : (lastPt p).val = p.val * 32 + 31 := lastPt_val p
  obtain ⟨-, -, -, e0, e1, e2, -⟩ := idx_facts0 (lastPt p)
  refine ⟨lastPt p, (flush0_4 _).mpr (by omega), ?_⟩
  rw [mem_blk4]
  intro a
  match a with
  | ⟨0, _⟩ => show win0_4.index (lastPt p) (0 : Fin 3) * 1 ≤ (i 0).val ∧ (i 0).val < win0_4.index (lastPt p) (0 : Fin 3) * 1 + 1; rw [e0]; omega
  | ⟨1, _⟩ => show win0_4.index (lastPt p) (1 : Fin 3) * 512 ≤ (i 1).val ∧ (i 1).val < win0_4.index (lastPt p) (1 : Fin 3) * 512 + 512; rw [e1]; omega
  | ⟨2, _⟩ => show win0_4.index (lastPt p) (2 : Fin 3) * 1 ≤ (i 2).val ∧ (i 2).val < win0_4.index (lastPt p) (2 : Fin 3) * 1 + 1; rw [e2]; omega

theorem final4 (G : Fin 2 → Fin 512 → Elt F .f32)
    (h : ∀ (p : Fin 2) (b : Fin 512), ((dat0 V c).after 4 (lastPt p) : Vec F S1x512x1 .f32) (ix3 0 b 0) = G p b) :
    (dat0 V c).arrAt 4 cfg0.N = G4fun G :=
  (dat0 V c).arrAt_eq_of_cover 4 (G4fun G) (flushed4_of_last V c G h) cover4

theorem arr4_of_last (G : Fin 2 → Fin 512 → Elt F .f32)
    (h : ∀ (p : Fin 2) (b : Fin 512), ((dat0 V c).after 4 (lastPt p) : Vec F S1x512x1 .f32) (ix3 0 b 0) = G p b)
    (p : Fin 2) (b : Fin 512) :
    ((dat0 V c).arrAt 4 cfg0.N : S2x512x1.Idx → Elt F .f32) (ix3 p b 0) = G p b := by
  rw [final4 V c G h]

abbrev G5fun (G : Fin 2 → Fin 512 → Elt F .f32) : S2x512x1.Idx → Elt F .f32 := fun i => G (i 0) (i 1)

theorem after5_at (G : Fin 2 → Fin 512 → Elt F .f32)
    (h : ∀ (p : Fin 2) (b : Fin 512), ((dat0 V c).after 5 (lastPt p) : Vec F S1x512x1 .f32) (ix3 0 b 0) = G p b)
    (p : Fin 2) (y : S1x512x1.Idx) :
    ((dat0 V c).after 5 (lastPt p) : Vec F S1x512x1 .f32) y = G p (y 1) := by
  have h0 : (y 0).val < 1 := (y 0).isLt
  have h2 : (y 2).val < 1 := (y 2).isLt
  have hy : y = ix3 0 (y 1) 0 := by
    funext a
    match a with
    | ⟨0, _⟩ => exact Fin.ext (by show (y 0).val = 0; omega)
    | ⟨1, _⟩ => rfl
    | ⟨2, _⟩ => exact Fin.ext (by show (y 2).val = 0; omega)
  exact (congrArg ((dat0 V c).after 5 (lastPt p) : Vec F S1x512x1 .f32) hy).trans (h p (y 1))

theorem flushed5_of_last (G : Fin 2 → Fin 512 → Elt F .f32)
    (h : ∀ (p : Fin 2) (b : Fin 512), ((dat0 V c).after 5 (lastPt p) : Vec F S1x512x1 .f32) (ix3 0 b 0) = G p b)
    (t : Fin cfg0.N) (hf : (cfg0.win 5).flush t = true) :
    (dat0 V c).flushed 5 t = ((cfg0.win 5).blk t).view.read (Elt F) (G5fun G) := by
  have h31 : t.val % 32 = 31 := (flush0_5 t).mp hf
  have hN : t.val < 64 := lt_of_lt_of_eq t.isLt N_0
  obtain ⟨p, rfl⟩ : ∃ p : Fin 2, t = lastPt p := ⟨⟨t.val / 32, by omega⟩, Fin.ext (by show t.val = t.val / 32 * 32 + 31; omega)⟩
  obtain ⟨-, -, -, -, -, -, e0, e1, e2⟩ := idx_facts0 (lastPt p)
  show (cfg0.win 5).cut (grid0.coords (lastPt p)) ((dat0 V c).after 5 (lastPt p)) = _
  funext y
  rw [View.read_apply]
  refine (after5_at V c G h p y).trans ?_
  show G5fun G (ix3 p (y 1) 0) = _
  refine congrArg (G5fun G) ?_
  have hp : p.val < 2 := p.isLt
  have hl : (lastPt p).val = p.val * 32 + 31 := lastPt_val p
  have h2 : (y 2).val < 1 := (y 2).isLt
  have h0 : (y 0).val < 1 := (y 0).isLt
  funext a; apply Fin.ext
  match a with
  | ⟨0, _⟩ => show p.val = win0_5.index (lastPt p) (0 : Fin 3) * 1 + 1 * (y 0).val; rw [e0]; omega
  | ⟨1, _⟩ => show (y 1).val = win0_5.index (lastPt p) (1 : Fin 3) * 512 + 1 * (y 1).val; rw [e1]; omega
  | ⟨2, _⟩ => show (0 : Fin 1).val = win0_5.index (lastPt p) (2 : Fin 3) * 1 + 1 * (y 2).val; rw [e2]; show 0 = 0 * 1 + 1 * (y 2).val; omega

theorem mem_blk5 (t : Fin cfg0.N) (i : S2x512x1.Idx) :
    i ∈ ((cfg0.win 5).blk t).view.set ↔ ∀ a : Fin 3, win0_5.index t a * S1x512x1.size a ≤ (i a).val ∧ (i a).val < win0_5.index t a * S1x512x1.size a + S1x512x1.size a := by
  show i ∈ ((View.whole main_v50_2).slice (win0_5.rect t)).set ↔ _
  rw [View.set_slice_whole, Rect.mem_set_unit]
  exact Iff.rfl

theorem cover5 (i : S2x512x1.Idx) :
    ∃ t : Fin cfg0.N, (cfg0.win 5).flush t = true ∧ i ∈ ((cfg0.win 5).blk t).view.set := by
  have hi0 : (i 0).val < 2 := (i 0).isLt
  have hi1 : (i 1).val < 512 := (i 1).isLt
  have hi2 : (i 2).val < 1 := (i 2).isLt
  obtain ⟨p, hp⟩ : ∃ p : Fin 2, p.val = (i 0).val := ⟨⟨(i 0).val, hi0⟩, rfl⟩
  have hl : (lastPt p).val = p.val * 32 + 31 := lastPt_val p
  obtain ⟨-, -, -, -, -, -, e0, e1, e2⟩ := idx_facts0 (lastPt p)
  refine ⟨lastPt p, (flush0_5 _).mpr (by omega), ?_⟩
  rw [mem_blk5]
  intro a
  match a with
  | ⟨0, _⟩ => show win0_5.index (lastPt p) (0 : Fin 3) * 1 ≤ (i 0).val ∧ (i 0).val < win0_5.index (lastPt p) (0 : Fin 3) * 1 + 1; rw [e0]; omega
  | ⟨1, _⟩ => show win0_5.index (lastPt p) (1 : Fin 3) * 512 ≤ (i 1).val ∧ (i 1).val < win0_5.index (lastPt p) (1 : Fin 3) * 512 + 512; rw [e1]; omega
  | ⟨2, _⟩ => show win0_5.index (lastPt p) (2 : Fin 3) * 1 ≤ (i 2).val ∧ (i 2).val < win0_5.index (lastPt p) (2 : Fin 3) * 1 + 1; rw [e2]; omega

theorem final5 (G : Fin 2 → Fin 512 → Elt F .f32)
    (h : ∀ (p : Fin 2) (b : Fin 512), ((dat0 V c).after 5 (lastPt p) : Vec F S1x512x1 .f32) (ix3 0 b 0) = G p b) :
    (dat0 V c).arrAt 5 cfg0.N = G5fun G :=
  (dat0 V c).arrAt_eq_of_cover 5 (G5fun G) (flushed5_of_last V c G h) cover5

theorem arr5_of_last (G : Fin 2 → Fin 512 → Elt F .f32)
    (h : ∀ (p : Fin 2) (b : Fin 512), ((dat0 V c).after 5 (lastPt p) : Vec F S1x512x1 .f32) (ix3 0 b 0) = G p b)
    (p : Fin 2) (b : Fin 512) :
    ((dat0 V c).arrAt 5 cfg0.N : S2x512x1.Idx → Elt F .f32) (ix3 p b 0) = G p b := by
  rw [final5 V c G h]

end Cert.Val.Arr0Cover

end
-- ==== Proof.Val.Pay0.lean ====
import proofs.«429040_j74268574482523_3_alg».proof.Proof.Gen.KernelIdeal.Skeleton
import proofs.«429040_j74268574482523_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Val.Pay0

open Cert.KernelIdeal Cert.KernelIdeal.Gen Idealize.ShloMosaic Idealize.ShloMosaic.ValueIdx

section Defs
variable (x0 : Vec Ideal S2048x128 .f32) (x1 : Vec Ideal S1024x128 .bf16) (x2 : Vec Ideal S1024x1 .f32)

def mnB (l : Fin 2048) : EReal :=
  max (Ideal.sqrt (∑ d : Fin 128, x0 (ix2 l d) * x0 (ix2 l d))) Cert.MemSpec.eps

def pB (r : Fin 1024) (l : Fin 2048) : EReal :=
  Ideal.exp ((∑ d : Fin 128, x1 (ix2 r d) * Ideal.div (x0 (ix2 l d)) (mnB x0 l)) - x2 (ix2 r 0))

end Defs

section Ops
variable {s : Shape} {φ : FTy} {α : Type}

theorem sqrt_apply (v : FVec Ideal s φ) (i : s.Idx) : sqrt v i = Ideal.sqrt (v i) := rfl

theorem exp_apply (v : FVec Ideal s φ) (i : s.Idx) : exp v i = Ideal.exp (v i) := rfl

theorem laneSum_apply {n m : ℕ} (src : FVec Ideal ⟨2, ![n, m]⟩ .f32)
    (h : Shape.Reduces ⟨2, ![n, m]⟩ [1] ⟨1, ![n]⟩) (hφ : FKind.Formats .f32)
    (hacc : (0x00000000#32 : BitVec 32) = 0x00000000#32) (l : Fin n) :
    multiReduction (F := Ideal) .add [1] ⟨1, ![n]⟩ src 0x00000000#32 h hφ hacc (ix1 l) = ∑ d : Fin m, src (ix2 l d) := by
  refine (Ideal.multiReduction_add_single src 0x00000000#32 h hφ hacc (ix1 l)).trans ?_
  refine Finset.sum_congr rfl fun d _ => congrArg src (funext fun a => Fin.ext ?_)
  match a with
  | ⟨0, _⟩ => rfl
  | ⟨1, _⟩ => rfl

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Ops

section Products

theorem lhs_qk_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem lhs_qk_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q

theorem rhs_qk_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem rhs_qk_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

theorem qk_apply (A : FVec Ideal S1024x128 .bf16) (B : FVec Ideal S2048x128 .bf16) (r : Fin 1024) (l : Fin 2048) :
    matmul dot_S1024x128_S2048x128_S1024x2048_1_1_0_0_n_n none A B (constant (F := Ideal) S1024x2048 .f32 0x00000000#32) (ix2 r l)
      = ∑ d : Fin 128, A (ix2 r d) * B (ix2 l d) := by
  simp only [matmul]
  rw [Ideal.matmul_constant_zero_apply, ← Equiv.sum_comp (ValueIdx.contrEquiv1 dot_S1024x128_S2048x128_S1024x2048_1_1_0_0_n_n 128 rfl rfl).symm]
  refine Finset.sum_congr rfl fun k _ => ?_
  have hk := ValueIdx.contrEquiv1_symm_val dot_S1024x128_S2048x128_S1024x2048_1_1_0_0_n_n 128 rfl rfl k
  have el : dot_S1024x128_S2048x128_S1024x2048_1_1_0_0_n_n.lhsIdx (ix2 r l) ((ValueIdx.contrEquiv1 dot_S1024x128_S2048x128_S1024x2048_1_1_0_0_n_n 128 rfl rfl).symm k) = ix2 r k := funext fun a => Fin.ext (by
    match a with
    | ⟨0, _⟩ => exact lhs_qk_0 _ _
    | ⟨1, _⟩ => exact (lhs_qk_1 _ _).trans hk)
  have er : dot_S1024x128_S2048x128_S1024x2048_1_1_0_0_n_n.rhsIdx (ix2 r l) ((ValueIdx.contrEquiv1 dot_S1024x128_S2048x128_S1024x2048_1_1_0_0_n_n 128 rfl rfl).symm k) = ix2 l k := funext fun a => Fin.ext (by
    match a with
    | ⟨0, _⟩ => exact rhs_qk_0 _ _
    | ⟨1, _⟩ => exact (rhs_qk_1 _ _).trans hk)
  rw [el, er]

theorem lhs_pv_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem lhs_pv_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q

theorem rhs_pv_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem rhs_pv_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

theorem pv_apply (A : FVec Ideal S512x2048 .bf16) (B : FVec Ideal S2048x128 .bf16) (b : Fin 512) (d : Fin 128) :
    matmul dot_S512x2048_S2048x128_S512x128_1_0_0_1_n_n none A B (constant (F := Ideal) S512x128 .f32 0x00000000#32) (ix2 b d)
      = ∑ l : Fin 2048, A (ix2 b l) * B (ix2 l d) := by
  simp only [matmul]
  rw [Ideal.matmul_constant_zero_apply, ← Equiv.sum_comp (ValueIdx.contrEquiv1 dot_S512x2048_S2048x128_S512x128_1_0_0_1_n_n 2048 rfl rfl).symm]
  refine Finset.sum_congr rfl fun k _ => ?_
  have hk := ValueIdx.contrEquiv1_symm_val dot_S512x2048_S2048x128_S512x128_1_0_0_1_n_n 2048 rfl rfl k
  have el : dot_S512x2048_S2048x128_S512x128_1_0_0_1_n_n.lhsIdx (ix2 b d) ((ValueIdx.contrEquiv1 dot_S512x2048_S2048x128_S512x128_1_0_0_1_n_n 2048 rfl rfl).symm k) = ix2 b k := funext fun a => Fin.ext (by
    match a with
    | ⟨0, _⟩ => exact lhs_pv_0 _ _
    | ⟨1, _⟩ => exact (lhs_pv_1 _ _).trans hk)
  have er : dot_S512x2048_S2048x128_S512x128_1_0_0_1_n_n.rhsIdx (ix2 b d) ((ValueIdx.contrEquiv1 dot_S512x2048_S2048x128_S512x128_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

end Products

section Payloads
variable (x0 : Vec Ideal S2048x128 .f32) (x1 : Vec Ideal S1024x128 .bf16) (x2 : Vec Ideal S1024x1 .f32)

theorem rowNorm_apply (hφ : FKind.Formats .f32) (hacc : (0x00000000#32 : BitVec 32) = 0x00000000#32)
    (l : Fin 2048) (u : Fin 1) :
    (maximumf
        (sqrt (shapeCast S2048x1
          (multiReduction (F := Ideal) FKind.add [1] S2048 (mulf x0 x0) 0x00000000#32 reduces_S2048x128_S2048 hφ hacc)
          shapeCasts_S2048_S2048x1))
        (broadcast S2048x1 (FloatOps.ofBits (F := Ideal) FTy.f32 0x322BCC77#32))) (ix2 l u) = mnB x0 l := by
  unfold mnB
  refine (maximumf_apply _ _ _).trans ?_
  refine congrArg₂ (fun a b : EReal => max a b) ?_ rfl
  refine (sqrt_apply _ _).trans (congrArg Ideal.sqrt ?_)
  refine (shapeCast_a_a1_apply _ shapeCasts_S2048_S2048x1 l u).trans ?_
  exact laneSum_apply (mulf x0 x0) reduces_S2048x128_S2048 hφ hacc l

theorem pay10_apply (r : Fin 1024) (l : Fin 2048) :
    k0_pay10 (F := Ideal) x0 x1 x2 (ix2 r l) = pB x0 x1 x2 r l := by
  unfold k0_pay10 pB
  refine (exp_apply _ _).trans (congrArg Ideal.exp ?_)
  refine (subf_apply _ _ _).trans ?_
  refine congrArg₂ (fun a b : EReal => a - b) ?_ ?_
  · refine (qk_apply _ _ r l).trans ?_
    refine Finset.sum_congr rfl fun d _ => ?_
    refine congrArg₂ (fun a b : EReal => a * b) ?_ ?_
    · exact congrFun (shapeCast_self x1 shapeCasts_S1024x128_S1024x128) (ix2 r d)
    · refine (truncf_apply (ψ := FTy.bf16) _ bitsLt_bf16_f32 (ix2 l d)).trans ?_
      refine (divf_apply _ _ _).trans ?_
      refine congrArg (fun b : EReal => Ideal.div (x0 (ix2 l d)) b) ?_
      refine (broadcastTo_a1_ab_apply _ broadcasts_S2048x1_S2048x128 l d).trans ?_
      exact rowNorm_apply x0 _ _ l 0
  · refine (broadcastTo_a1_ab_apply _ broadcasts_S1024x1_S1024x2048 r l).trans ?_
    exact congrFun (shapeCast_self x2 shapeCasts_S1024x1_S1024x1) (ix2 r 0)

theorem pay11_apply (b : Fin 512) (l : Fin 2048) :
    k0_pay11 (F := Ideal) x0 x1 x2 (ix2 b l) = pB x0 x1 x2 (Cert.MemSpec.lo b) l := by
  unfold k0_pay11
  refine (slice2_axis0_apply 0 (k0_pay10 (F := Ideal) x0 x1 x2) slices_S1024x2048_o0_0_S512x2048 b l (Cert.MemSpec.lo b) ?_).trans ?_
  · show b.val = 0 + b.val
    omega
  · exact pay10_apply x0 x1 x2 (Cert.MemSpec.lo b) l

theorem pay13_apply (b : Fin 512) (v25 : Vec Ideal S512x1 .f32) :
    k0_pay13 (F := Ideal) x0 x1 x2 v25 (ix2 b 0) = v25 (ix2 b 0) + ∑ l : Fin 2048, pB x0 x1 x2 (Cert.MemSpec.lo b) l := by
  unfold k0_pay13
  refine (congrFun (shapeCast_self _ shapeCasts_S512x1_S512x1) (ix2 b 0)).trans ?_
  refine (addf_apply _ _ _).trans ?_
  refine congrArg (fun a : EReal => v25 (ix2 b 0) + a) ?_
  refine (shapeCast_a_a1_apply _ shapeCasts_S512_S512x1 b 0).trans ?_
  refine (laneSum_apply (k0_pay11 (F := Ideal) x0 x1 x2) reduces_S512x2048_S512 _ _ b).trans ?_
  exact Finset.sum_congr rfl fun l _ => pay11_apply x0 x1 x2 b l

theorem pay14_apply (b : Fin 512) (v32 : Vec Ideal S512x1 .f32) :
    k0_pay14 (F := Ideal) x0 x1 x2 v32 (ix2 b 0) = v32 (ix2 b 0) + ∑ l : Fin 2048, pB x0 x1 x2 (Cert.MemSpec.hi b) l := by
  unfold k0_pay14
  refine (addf_apply _ _ _).trans ?_
  refine congrArg (fun a : EReal => v32 (ix2 b 0) + a) ?_
  refine (shapeCast_a_a1_apply _ shapeCasts_S512_S512x1 b 0).trans ?_
  refine (laneSum_apply _ reduces_S512x2048_S512 _ _ b).trans ?_
  refine Finset.sum_congr rfl fun l _ => ?_
  refine (slice2_axis0_apply 512 (k0_pay10 (F := Ideal) x0 x1 x2) slices_S1024x2048_o512_0_S512x2048 b l (Cert.MemSpec.hi b) rfl).trans ?_
  exact pay10_apply x0 x1 x2 (Cert.MemSpec.hi b) l

theorem pay1_apply (v35 : FVec Ideal S512x1 .f32) : k0_pay1 (F := Ideal) v35 = v35 := by
  unfold k0_pay1
  exact shapeCast_self v35 shapeCasts_S512x1_S512x1

theorem pay2_apply (b : Fin 512) (d : Fin 128) (v39 : Vec Ideal S512x128 .f32) :
    k0_pay2 (F := Ideal) (k0_pay9 x0) (k0_pay12 x0 x1 x2) v39 (ix2 b d)
      = v39 (ix2 b d) + ∑ l : Fin 2048, pB x0 x1 x2 (Cert.MemSpec.lo b) l * x0 (ix2 l d) := by
  unfold k0_pay2
  refine (congrFun (shapeCast_self _ shapeCasts_S512x128_S512x128) (ix2 b d)).trans ?_
  refine (addf_apply _ _ _).trans ?_
  refine congrArg (fun a : EReal => v39 (ix2 b d) + a) ?_
  refine (pv_apply _ _ b d).trans ?_
  refine Finset.sum_congr rfl fun l _ => ?_
  refine congrArg₂ (fun a b : EReal => a * b) ?_ ?_
  · unfold k0_pay12
    refine (truncf_apply (ψ := FTy.bf16) (k0_pay11 (F := Ideal) x0 x1 x2) bitsLt_bf16_f32 (ix2 b l)).trans ?_
    exact pay11_apply x0 x1 x2 b l
  · unfold k0_pay9
    exact truncf_apply (ψ := FTy.bf16) x0 bitsLt_bf16_f32 (ix2 l d)

theorem pay3_apply (v48 : Vec Ideal S512x128 .f32) (b : Fin 512) (d : Fin 128) :
    k0_pay3 (F := Ideal) v48 (ix3 0 b d) = v48 (ix2 b d) := by
  unfold k0_pay3
  exact shapeCast_ab_1ab_apply v48 shapeCasts_S512x128_S1x512x128 0 b d

theorem pay4_apply (v52 : Vec Ideal S512x1 .f32) (b : Fin 512) :
    k0_pay4 (F := Ideal) v52 (ix3 0 b 0) = v52 (ix2 b 0) := by
  unfold k0_pay4
  exact shapeCast_ab_1ab_apply v52 shapeCasts_S512x1_S1x512x1 0 b 0

theorem pay5_apply (v56 : Vec Ideal S512x1 .f32) (b : Fin 512) :
    k0_pay5 (F := Ideal) v56 (ix3 0 b 0) = v56 (ix2 b 0) := by
  unfold k0_pay5
  exact shapeCast_ab_1ab_apply v56 shapeCasts_S512x1_S1x512x1 0 b 0

theorem pay6_apply (b : Fin 512) : (k0_pay6 (F := Ideal)) (ix2 b 0) = 0 := by
  unfold k0_pay6
  refine (congrFun (shapeCast_self _ shapeCasts_S512x1_S512x1) (ix2 b 0)).trans ?_
  exact Ideal.ofBits_zero_f32

theorem pay7_apply (b : Fin 512) : (k0_pay7 (F := Ideal)) (ix2 b 0) = 0 := by
  unfold k0_pay7
  refine (congrFun (shapeCast_self _ shapeCasts_S512x1_S512x1) (ix2 b 0)).trans ?_
  exact Ideal.ofBits_zero_f32

theorem pay8_apply (b : Fin 512) (d : Fin 128) : (k0_pay8 (F := Ideal)) (ix2 b d) = 0 := by
  unfold k0_pay8
  refine (congrFun (shapeCast_self _ shapeCasts_S512x128_S512x128) (ix2 b d)).trans ?_
  exact Ideal.ofBits_zero_f32

end Payloads

end Cert.Val.Pay0

end
-- ==== Proof.Val.Arr0.lean ====
import proofs.«429040_j74268574482523_3_alg».proof.Proof.KI.R0Frame
import proofs.«429040_j74268574482523_3_alg».proof.Proof.Val.Arr0Cover
import proofs.«429040_j74268574482523_3_alg».proof.Proof.Spec
import proofs.«429040_j74268574482523_3_alg».proof.Proof.Val.Pay0
import Idealize.ShloMosaic.Lib.ValueIdx
import Idealize.ShloMosaic.Lib.Pipeline.Value
import Mathlib.Algebra.BigOperators.Fin

set_option maxRecDepth 16384

noncomputable section

namespace Cert.Val.Arr0

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.MemSpec (jOf blkOf lo hi mn mu simG pG lBlkG accBlkG lPartG accPartG)
open Cert.Val.Pay0 (mnB pB)
open Cert.Val.Arr0Cover (lastPt)

variable (V : (c : Dev nD) → (b : Ref sig .tc) → Buf (Elt Ideal) ((c : Thread nD τ).loc b)) (c : Dev nD)

abbrev memV : Fin 131072 → Fin 128 → EReal := fun j d => V c main_arg1 (ix2 j d)
abbrev fqV : Fin 1024 → Fin 128 → EReal := fun r d => V c main_v45 (ix2 r d)
abbrev shV : Fin 1024 → EReal := fun r => V c main_v47 (ix2 r 0)

abbrev xblk (t : Fin cfg0.N) : Vec Ideal S2048x128 .f32 := iblk0 V c 0 t
abbrev qblk (t : Fin cfg0.N) : Vec Ideal S1024x128 .bf16 := iblk0 V c 1 t
abbrev sblk (t : Fin cfg0.N) : Vec Ideal S1024x1 .f32 := iblk0 V c 2 t

def blkIx (t : Fin cfg0.N) : Fin 64 := ⟨t.val, lt_of_lt_of_eq t.isLt N_0⟩

theorem idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem xblk_apply (t : Fin cfg0.N) (l : Fin 2048) (d : Fin 128) :
    xblk V c t (ix2 l d) = memV V c (jOf (blkIx t) l) d := by
  obtain ⟨e0, e1, -⟩ := idx_in t
  show iblk0 V c 0 t (ix2 l d) = V c main_arg1 (ix2 (jOf (blkIx t) l) d)
  unfold iblk0
  rw [View.read_apply]
  show V c main_arg1 (((cfg0.win 0).blk t).view.emb (ix2 l d)) = _
  refine congrArg (V c main_arg1) ?_
  funext a; apply Fin.ext
  match a with
  | ⟨0, _⟩ => show win0_0.index t (0 : Fin 2) * 2048 + 1 * l.val = t.val * 2048 + l.val; rw [e0]; omega
  | ⟨1, _⟩ => show win0_0.index t (1 : Fin 2) * 128 + 1 * d.val = d.val; rw [e1]; omega

theorem qblk_apply (t : Fin cfg0.N) (r : Fin 1024) (d : Fin 128) : qblk V c t (ix2 r d) = fqV V c r d := by
  obtain ⟨-, -, e0, e1, -⟩ := idx_in t
  show iblk0 V c 1 t (ix2 r d) = V c main_v45 (ix2 r d)
  unfold iblk0
  rw [View.read_apply]
  show V c main_v45 (((cfg0.win 1).blk t).view.emb (ix2 r d)) = _
  refine congrArg (V c main_v45) ?_
  funext a; apply Fin.ext
  match a with
  | ⟨0, _⟩ => show win0_1.index t (0 : Fin 2) * 1024 + 1 * r.val = r.val; rw [e0]; omega
  | ⟨1, _⟩ => show win0_1.index t (1 : Fin 2) * 128 + 1 * d.val = d.val; rw [e1]; omega

theorem sblk_apply (t : Fin cfg0.N) (r : Fin 1024) : sblk V c t (ix2 r 0) = shV V c r := by
  obtain ⟨-, -, -, -, e0, e1⟩ := idx_in t
  show iblk0 V c 2 t (ix2 r 0) = V c main_v47 (ix2 r 0)
  unfold iblk0
  rw [View.read_apply]
  show V c main_v47 (((cfg0.win 2).blk t).view.emb (ix2 r 0)) = _
  refine congrArg (V c main_v47) ?_
  funext a; apply Fin.ext
  match a with
  | ⟨0, _⟩ => show win0_2.index t (0 : Fin 2) * 1024 + 1 * r.val = r.val; rw [e0]; omega
  | ⟨1, _⟩ => show win0_2.index t (1 : Fin 2) * 1 + 1 * 0 = 0; rw [e1]

theorem mnB_blk (t : Fin cfg0.N) (l : Fin 2048) : mnB (xblk V c t) l = mn (memV V c) (jOf (blkIx t) l) := by
  unfold mnB mn
  simp only [xblk_apply]

theorem pB_blk (t : Fin cfg0.N) (r : Fin 1024) (l : Fin 2048) :
    pB (xblk V c t) (qblk V c t) (sblk V c t) r l = pG (memV V c) (fqV V c) (shV V c) r (jOf (blkIx t) l) := by
  unfold pB pG simG mu
  simp only [mnB_blk, xblk_apply, qblk_apply, sblk_apply]

def lBn (r : Fin 1024) (k : ℕ) : EReal := if h : k < 64 then lBlkG (memV V c) (fqV V c) (shV V c) r ⟨k, h⟩ else 0

def aBn (b : Fin 512) (d : Fin 128) (k : ℕ) : EReal := if h : k < 64 then accBlkG (memV V c) (fqV V c) (shV V c) b d ⟨k, h⟩ else 0

theorem sum_pB (t : Fin cfg0.N) (r : Fin 1024) :
    ∑ l : Fin 2048, pB (xblk V c t) (qblk V c t) (sblk V c t) r l = lBn V c r t.val := by
  unfold lBn lBlkG
  rw [dif_pos (lt_of_lt_of_eq t.isLt N_0)]
  simp only [pB_blk]
  rfl

theorem sum_pB_x (t : Fin cfg0.N) (b : Fin 512) (d : Fin 128) :
    ∑ l : Fin 2048, pB (xblk V c t) (qblk V c t) (sblk V c t) (lo b) l * xblk V c t (ix2 l d) = aBn V c b d t.val := by
  unfold aBn accBlkG
  rw [dif_pos (lt_of_lt_of_eq t.isLt N_0)]
  simp only [pB_blk, xblk_apply]
  rfl

theorem step_first (t : Fin cfg0.N) (h0 : t.val % 32 = 0) :
    (∀ b : Fin 512, (accsAt0 V c t.val t.isLt).1 (ix2 b 0) = lBn V c (lo b) t.val)
    ∧ (∀ b : Fin 512, (accsAt0 V c t.val t.isLt).2.1 (ix2 b 0) = lBn V c (hi b) t.val)
    ∧ (∀ (b : Fin 512) (d : Fin 128), (accsAt0 V c t.val t.isLt).2.2 (ix2 b d) = aBn V c b d t.val) := by
  rw [accsAt0_first V c t h0]
  dsimp only [accStep, acc00]
  refine ⟨fun b => ?_, fun b => ?_, fun b d => ?_⟩
  · refine (Pay0.pay13_apply (xblk V c t) (qblk V c t) (sblk V c t) b (k0_pay6 (F := Ideal))).trans ?_
    rw [Pay0.pay6_apply, zero_add]
    exact sum_pB V c t (lo b)
  · refine (congrFun (Pay0.pay1_apply (k0_pay14 (F := Ideal) (xblk V c t) (qblk V c t) (sblk V c t) (k0_pay7 (F := Ideal)))) (ix2 b 0)).trans ?_
    refine (Pay0.pay14_apply (xblk V c t) (qblk V c t) (sblk V c t) b (k0_pay7 (F := Ideal))).trans ?_
    rw [Pay0.pay7_apply, zero_add]
    exact sum_pB V c t (hi b)
  · refine (Pay0.pay2_apply (xblk V c t) (qblk V c t) (sblk V c t) b d (k0_pay8 (F := Ideal))).trans ?_
    rw [Pay0.pay8_apply, zero_add]
    exact sum_pB_x V c t b d

theorem step_next (t : Fin cfg0.N) (h0 : ¬t.val % 32 = 0) :
    (∀ b : Fin 512, (accsAt0 V c t.val t.isLt).1 (ix2 b 0) = (prevAcc0 V c t).1 (ix2 b 0) + lBn V c (lo b) t.val)
    ∧ (∀ b : Fin 512, (accsAt0 V c t.val t.isLt).2.1 (ix2 b 0) = (prevAcc0 V c t).2.1 (ix2 b 0) + lBn V c (hi b) t.val)
    ∧ (∀ (b : Fin 512) (d : Fin 128), (accsAt0 V c t.val t.isLt).2.2 (ix2 b d) = (prevAcc0 V c t).2.2 (ix2 b d) + aBn V c b d t.val) := by
  rw [accsAt0_next V c t h0]
  dsimp only [accStep]
  refine ⟨fun b => ?_, fun b => ?_, fun b d => ?_⟩
  · refine (Pay0.pay13_apply (xblk V c t) (qblk V c t) (sblk V c t) b (prevAcc0 V c t).1).trans ?_
    rw [sum_pB V c t (lo b)]
  · refine (congrFun (Pay0.pay1_apply (k0_pay14 (F := Ideal) (xblk V c t) (qblk V c t) (sblk V c t) (prevAcc0 V c t).2.1)) (ix2 b 0)).trans ?_
    refine (Pay0.pay14_apply (xblk V c t) (qblk V c t) (sblk V c t) b (prevAcc0 V c t).2.1).trans ?_
    rw [sum_pB V c t (hi b)]
  · refine (Pay0.pay2_apply (xblk V c t) (qblk V c t) (sblk V c t) b d (prevAcc0 V c t).2.2).trans ?_
    rw [sum_pB_x V c t b d]

theorem totals (n : ℕ) : ∀ hn : n < cfg0.N,
    (∀ b : Fin 512, (accsAt0 V c n hn).1 (ix2 b 0) = ∑ s ∈ Finset.range (n % 32 + 1), lBn V c (lo b) (n - n % 32 + s))
    ∧ (∀ b : Fin 512, (accsAt0 V c n hn).2.1 (ix2 b 0) = ∑ s ∈ Finset.range (n % 32 + 1), lBn V c (hi b) (n - n % 32 + s))
    ∧ (∀ (b : Fin 512) (d : Fin 128), (accsAt0 V c n hn).2.2 (ix2 b d) = ∑ s ∈ Finset.range (n % 32 + 1), aBn V c b d (n - n % 32 + s)) := by
  induction n using Nat.strong_induction_on with
  | _ n ih =>
    intro hn
    by_cases h0 : n % 32 = 0
    · obtain ⟨a0, a1, a2⟩ := step_first V c ⟨n, hn⟩ h0
      refine ⟨fun b => ?_, fun b => ?_, fun b d => ?_⟩
      · rw [h0, Nat.zero_add, Finset.sum_range_one, Nat.sub_zero, Nat.add_zero]; exact a0 b
      · rw [h0, Nat.zero_add, Finset.sum_range_one, Nat.sub_zero, Nat.add_zero]; exact a1 b
      · rw [h0, Nat.zero_add, Finset.sum_range_one, Nat.sub_zero, Nat.add_zero]; exact a2 b d
    · obtain ⟨a0, a1, a2⟩ := step_next V c ⟨n, hn⟩ h0
      obtain ⟨i0, i1, i2⟩ := ih (n - 1) (by omega) (Nat.lt_of_le_of_lt (Nat.sub_le _ _) hn)
      have m1 : (n - 1) % 32 + 1 = n % 32 := by omega
      have m2 : n - 1 - (n - 1) % 32 = n - n % 32 := by omega
      have m3 : n - n % 32 + n % 32 = n := by omega
      refine ⟨fun b => ?_, fun b => ?_, fun b d => ?_⟩
      · refine (a0 b).trans ?_
        rw [Finset.sum_range_succ, m3]
        refine congrArg (· + lBn V c (lo b) n) ?_
        have e := i0 b
        rw [m1, m2] at e
        exact e
      · refine (a1 b).trans ?_
        rw [Finset.sum_range_succ, m3]
        refine congrArg (· + lBn V c (hi b) n) ?_
        have e := i1 b
        rw [m1, m2] at e
        exact e
      · refine (a2 b d).trans ?_
        rw [Finset.sum_range_succ, m3]
        refine congrArg (· + aBn V c b d n) ?_
        have e := i2 b d
        rw [m1, m2] at e
        exact e

theorem sum_lBn (p : Fin 2) (r : Fin 1024) :
    ∑ s ∈ Finset.range 32, lBn V c r (p.val * 32 + s) = lPartG (memV V c) (fqV V c) (shV V c) p r := by
  unfold lPartG
  rw [Finset.sum_range]
  refine Finset.sum_congr rfl fun i _ => ?_
  unfold lBn
  rw [dif_pos (show p.val * 32 + i.val < 64 by have := p.isLt; have := i.isLt; omega)]
  rfl

theorem sum_aBn (p : Fin 2) (b : Fin 512) (d : Fin 128) :
    ∑ s ∈ Finset.range 32, aBn V c b d (p.val * 32 + s) = accPartG (memV V c) (fqV V c) (shV V c) p b d := by
  unfold accPartG
  rw [Finset.sum_range]
  refine Finset.sum_congr rfl fun i _ => ?_
  unfold aBn
  rw [dif_pos (show p.val * 32 + i.val < 64 by have := p.isLt; have := i.isLt; omega)]
  rfl

theorem lastPt_mod (p : Fin 2) : (lastPt p).val % 32 = 31 := by
  have := p.isLt; show (p.val * 32 + 31) % 32 = 31; omega
theorem lastPt_base (p : Fin 2) : (lastPt p).val - (lastPt p).val % 32 = p.val * 32 := by
  have := p.isLt; show p.val * 32 + 31 - (p.val * 32 + 31) % 32 = p.val * 32; omega

theorem last3 (p : Fin 2) (b : Fin 512) (d : Fin 128) :
    ((dat0 (F := Ideal) V c).after 3 (lastPt p) : Vec Ideal S1x512x128 .f32) (ix3 0 b d) = accPartG (memV V c) (fqV V c) (shV V c) p b d := by
  obtain ⟨-, -, i2⟩ := totals V c (lastPt p).val (lastPt p).isLt
  rw [after0_3 V c (lastPt p)]
  refine (Pay0.pay3_apply _ b d).trans ((i2 b d).trans ?_)
  rw [lastPt_base, lastPt_mod]
  exact sum_aBn V c p b d

theorem last4 (p : Fin 2) (b : Fin 512) :
    ((dat0 (F := Ideal) V c).after 4 (lastPt p) : Vec Ideal S1x512x1 .f32) (ix3 0 b 0) = lPartG (memV V c) (fqV V c) (shV V c) p (lo b) := by
  obtain ⟨i0, -, -⟩ := totals V c (lastPt p).val (lastPt p).isLt
  rw [after0_4 V c (lastPt p)]
  refine (Pay0.pay4_apply _ b).trans ((i0 b).trans ?_)
  rw [lastPt_base, lastPt_mod]
  exact sum_lBn V c p (lo b)

theorem last5 (p : Fin 2) (b : Fin 512) :
    ((dat0 (F := Ideal) V c).after 5 (lastPt p) : Vec Ideal S1x512x1 .f32) (ix3 0 b 0) = lPartG (memV V c) (fqV V c) (shV V c) p (hi b) := by
  obtain ⟨-, i1, -⟩ := totals V c (lastPt p).val (lastPt p).isLt
  rw [after0_5 V c (lastPt p)]
  refine (Pay0.pay5_apply _ b).trans ((i1 b).trans ?_)
  rw [lastPt_base, lastPt_mod]
  exact sum_lBn V c p (hi b)

theorem arr3 (p : Fin 2) (b : Fin 512) (d : Fin 128) :
    (dat0 (F := Ideal) V c).arrAt 3 cfg0.N (ix3 p b d) = accPartG (memV V c) (fqV V c) (shV V c) p b d :=
  Cert.Val.Arr0Cover.arr3_of_last V c (fun p b d => accPartG (memV V c) (fqV V c) (shV V c) p b d) (last3 V c) p b d

theorem arr4 (p : Fin 2) (b : Fin 512) :
    (dat0 (F := Ideal) V c).arrAt 4 cfg0.N (ix3 p b 0) = lPartG (memV V c) (fqV V c) (shV V c) p (lo b) :=
  Cert.Val.Arr0Cover.arr4_of_last V c (fun p b => lPartG (memV V c) (fqV V c) (shV V c) p (lo b)) (last4 V c) p b

theorem arr5 (p : Fin 2) (b : Fin 512) :
    (dat0 (F := Ideal) V c).arrAt 5 cfg0.N (ix3 p b 0) = lPartG (memV V c) (fqV V c) (shV V c) p (hi b) :=
  Cert.Val.Arr0Cover.arr5_of_last V c (fun p b => lPartG (memV V c) (fqV V c) (shV V c) p (hi b)) (last5 V c) p b

end Cert.Val.Arr0

end
-- ==== Proof.Val.Pay1.lean ====
import proofs.«429040_j74268574482523_3_alg».proof.Proof.Gen.KernelIdeal.Skeleton
import proofs.«429040_j74268574482523_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Val.Pay1

open Cert.KernelIdeal Cert.KernelIdeal.Gen
open Idealize.ShloMosaic Idealize.ShloMosaic.ValueIdx

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Layout

theorem lhs_qk_0 (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
theorem lhs_qk_1 (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
theorem rhs_qk_0 (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
theorem rhs_qk_1 (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

theorem matmul_qk_apply (A : FVec Ideal S512x128 .bf16) (B : FVec Ideal S2048x128 .bf16) (b : Fin 512) (l : Fin 2048) :
    matmul dot_S512x128_S2048x128_S512x2048_1_1_0_0_n_n none A B (constant (F := Ideal) S512x2048 .f32 0x00000000#32) (ix2 b l)
      = ∑ d : Fin 128, A (ix2 b d) * B (ix2 l d) := by
  simp only [matmul]
  rw [Ideal.matmul_constant_zero_apply, ← Equiv.sum_comp (ValueIdx.contrEquiv1 dot_S512x128_S2048x128_S512x2048_1_1_0_0_n_n 128 rfl rfl).symm]
  refine Finset.sum_congr rfl fun k _ => ?_
  have hk := ValueIdx.contrEquiv1_symm_val dot_S512x128_S2048x128_S512x2048_1_1_0_0_n_n 128 rfl rfl k
  have el : dot_S512x128_S2048x128_S512x2048_1_1_0_0_n_n.lhsIdx (ix2 b l) ((ValueIdx.contrEquiv1 dot_S512x128_S2048x128_S512x2048_1_1_0_0_n_n 128 rfl rfl).symm k) = ix2 b k := funext fun a => Fin.ext (by
    match a with
    | ⟨0, _⟩ => exact lhs_qk_0 _ _
    | ⟨1, _⟩ => exact (lhs_qk_1 _ _).trans hk)
  have er : dot_S512x128_S2048x128_S512x2048_1_1_0_0_n_n.rhsIdx (ix2 b l) ((ValueIdx.contrEquiv1 dot_S512x128_S2048x128_S512x2048_1_1_0_0_n_n 128 rfl rfl).symm k) = ix2 l k := funext fun a => Fin.ext (by
    match a with
    | ⟨0, _⟩ => exact rhs_qk_0 _ _
    | ⟨1, _⟩ => exact (rhs_qk_1 _ _).trans hk)
  rw [el, er]

theorem lhs_we_0 (i : S2048x128.Idx) (q : dot_S512x2048_S512x128_S2048x128_0_0_1_1_n_n.contr.Idx) :
    (dot_S512x2048_S512x128_S2048x128_0_0_1_1_n_n.lhsIdx i q 0).val = (q ⟨0, by decide⟩).val :=
  dot_S512x2048_S512x128_S2048x128_0_0_1_1_n_n.lhsIdx_val_of_single rfl i q
theorem lhs_we_1 (i : S2048x128.Idx) (q : dot_S512x2048_S512x128_S2048x128_0_0_1_1_n_n.contr.Idx) :
    (dot_S512x2048_S512x128_S2048x128_0_0_1_1_n_n.lhsIdx i q 1).val = (i 0).val := by
  unfold DotDims.lhsIdx
  rw [dif_neg (show ¬(1 : Fin S512x2048.rank) ∈ dot_S512x2048_S512x128_S2048x128_0_0_1_1_n_n.lhsBatch by decide), dif_pos (show (1 : Fin S512x2048.rank) ∈ dot_S512x2048_S512x128_S2048x128_0_0_1_1_n_n.lhsNonContracting by decide)]
  rfl
theorem rhs_we_0 (i : S2048x128.Idx) (q : dot_S512x2048_S512x128_S2048x128_0_0_1_1_n_n.contr.Idx) :
    (dot_S512x2048_S512x128_S2048x128_0_0_1_1_n_n.rhsIdx i q 0).val = (q ⟨0, by decide⟩).val :=
  dot_S512x2048_S512x128_S2048x128_0_0_1_1_n_n.rhsIdx_val_of_single rfl i q
theorem rhs_we_1 (i : S2048x128.Idx) (q : dot_S512x2048_S512x128_S2048x128_0_0_1_1_n_n.contr.Idx) :
    (dot_S512x2048_S512x128_S2048x128_0_0_1_1_n_n.rhsIdx i q 1).val = (i 1).val := by
  unfold DotDims.rhsIdx
  rw [dif_neg (show ¬(1 : Fin S512x128.rank) ∈ dot_S512x2048_S512x128_S2048x128_0_0_1_1_n_n.rhsBatch by decide), dif_pos (show (1 : Fin S512x128.rank) ∈ dot_S512x2048_S512x128_S2048x128_0_0_1_1_n_n.rhsNonContracting by decide)]
  rfl

theorem matmul_we_apply (W : FVec Ideal S512x2048 .bf16) (E : FVec Ideal S512x128 .bf16) (l : Fin 2048) (d : Fin 128) :
    matmul dot_S512x2048_S512x128_S2048x128_0_0_1_1_n_n none W E (constant (F := Ideal) S2048x128 .f32 0x00000000#32) (ix2 l d)
      = ∑ b : Fin 512, W (ix2 b l) * E (ix2 b d) := by
  simp only [matmul]
  rw [Ideal.matmul_constant_zero_apply, ← Equiv.sum_comp (ValueIdx.contrEquiv1 dot_S512x2048_S512x128_S2048x128_0_0_1_1_n_n 512 rfl rfl).symm]
  refine Finset.sum_congr rfl fun k _ => ?_
  have hk := ValueIdx.contrEquiv1_symm_val dot_S512x2048_S512x128_S2048x128_0_0_1_1_n_n 512 rfl rfl k
  have el : dot_S512x2048_S512x128_S2048x128_0_0_1_1_n_n.lhsIdx (ix2 l d) ((ValueIdx.contrEquiv1 dot_S512x2048_S512x128_S2048x128_0_0_1_1_n_n 512 rfl rfl).symm k) = ix2 k l := funext fun a => Fin.ext (by
    match a with
    | ⟨0, _⟩ => exact (lhs_we_0 _ _).trans hk
    | ⟨1, _⟩ => exact lhs_we_1 _ _)
  have er : dot_S512x2048_S512x128_S2048x128_0_0_1_1_n_n.rhsIdx (ix2 l d) ((ValueIdx.contrEquiv1 dot_S512x2048_S512x128_S2048x128_0_0_1_1_n_n 512 rfl rfl).symm k) = ix2 k d := funext fun a => Fin.ext (by
    match a with
    | ⟨0, _⟩ => exact (rhs_we_0 _ _).trans hk
    | ⟨1, _⟩ => exact rhs_we_1 _ _)
  rw [el, er]

theorem sumsq_apply (x0 : FVec Ideal S2048x128 .f32) (h : S2048x128.Reduces [1] S2048) (hφ : FKind.Formats .f32)
    (hacc : (0x00000000#32 : BitVec 32) = 0x00000000#32) (l : Fin 2048) :
    multiReduction (F := Ideal) .add [1] S2048 (mulf x0 x0) 0x00000000#32 h hφ hacc (ix1 l)
      = ∑ d : Fin 128, x0 (ix2 l d) * x0 (ix2 l d) := by
  refine (Ideal.multiReduction_add_single (mulf x0 x0) 0x00000000#32 h hφ hacc (ix1 l)).trans ?_
  show ∑ d : Fin 128, mulf x0 x0 (h.lift (ix1 l) d) = _
  refine Finset.sum_congr rfl fun d _ => ?_
  have e : h.lift (ix1 l) d = ix2 l d := funext fun a => Fin.ext (by match a with | ⟨0, _⟩ => rfl | ⟨1, _⟩ => rfl)
  rw [e]; rfl

theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl
section Formulas

variable (x0 : Vec Ideal S2048x128 .f32) (x1 : Vec Ideal S512x128 .bf16) (x4 : Vec Ideal S512x1 .f32)

def mnB (l : Fin 2048) : EReal :=
  max (Ideal.sqrt (∑ d : Fin 128, x0 (ix2 l d) * x0 (ix2 l d))) Cert.MemSpec.eps

def wB (b : Fin 512) (l : Fin 2048) : EReal :=
  Ideal.exp ((∑ d : Fin 128, x1 (ix2 b d) * Ideal.div (x0 (ix2 l d)) (mnB x0 l)) - Cert.MemSpec.one)
    * Ideal.div Cert.MemSpec.one (x4 (ix2 b 0))

end Formulas

variable (x0 : Vec Ideal S2048x128 .f32) (x1 : Vec Ideal S512x128 .bf16) (x2 x3 : Vec Ideal S512x128 .bf16)
  (x4 : Vec Ideal S512x1 .f32)

theorem w_apply (b : Fin 512) (l : Fin 2048) :
    k1_pay2 (F := Ideal) x0 x1 x4 (ix2 b l) = wB x0 x1 x4 b l := by
  unfold k1_pay2
  simp only [mulf_apply, exp_apply, subf_apply, broadcast_apply]
  rw [matmul_qk_apply, broadcastTo_a1_ab_apply]
  simp only [shapeCast_self, truncf_apply, divf_apply, broadcastTo_a1_ab_apply, maximumf_apply, sqrt_apply,
    shapeCast_a_a1_apply, sumsq_apply, broadcast_apply]
  rw [sumsq_apply]
  rfl

theorem w16_apply (b : Fin 512) (l : Fin 2048) :
    k1_pay3 (F := Ideal) x0 x1 x4 (ix2 b l) = wB x0 x1 x4 b l := by
  unfold k1_pay3
  exact (truncf_apply (φ := .f32) (ψ := .bf16) (k1_pay2 (F := Ideal) x0 x1 x4) bitsLt_bf16_f32 (ix2 b l)).trans
    (w_apply x0 x1 x4 b l)

theorem nm_apply (l : Fin 2048) (d : Fin 128) :
    k1_pay1 (F := Ideal) x0 (k1_pay4 (F := Ideal) x0 x1 x4 x3) (k1_pay5 (F := Ideal) x0 x1 x4 x2) (ix2 l d)
      = x0 (ix2 l d) * (Cert.MemSpec.one - (∑ b : Fin 512, wB x0 x1 x4 b l * x2 (ix2 b d)) * Cert.MemSpec.invB)
        + (∑ b : Fin 512, wB x0 x1 x4 b l * x3 (ix2 b d)) * Cert.MemSpec.invB := by
  unfold k1_pay1 k1_pay4 k1_pay5
  simp only [mulf_apply, addf_apply, subf_apply, broadcast_apply, shapeCast_self]
  rw [matmul_we_apply, matmul_we_apply]
  simp only [w16_apply]
  rfl

end Cert.Val.Pay1

end
-- ==== Proof.Val.Arr1.lean ====
import proofs.«429040_j74268574482523_3_alg».proof.Proof.KI.R1Frame
import proofs.«429040_j74268574482523_3_alg».proof.Proof.Spec
import proofs.«429040_j74268574482523_3_alg».proof.Proof.Val.Pay1
import Idealize.ShloMosaic.Lib.Pipeline.Value
import Idealize.ShloMosaic.Lib.ValueIdx
import Idealize.ShloMosaic.Lib.Tactic

set_option maxRecDepth 16384

noncomputable section

namespace Cert.Val.Arr1

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

section Laws

open Cert.MemSpec

theorem wB_eq_wG (mem : Fin 131072 → Fin 128 → EReal) (wq : Fin 512 → Fin 128 → EReal) (lw : Fin 512 → EReal) (blk : Fin 64)
    (x0 : Vec Ideal S2048x128 .f32) (x1 : Vec Ideal S512x128 .bf16) (x4 : Vec Ideal S512x1 .f32)
    (h0 : ∀ l d, x0 (ix2 l d) = mem (jOf blk l) d) (h1 : ∀ b d, x1 (ix2 b d) = wq b d) (h4 : ∀ b, x4 (ix2 b 0) = lw b)
    (b : Fin 512) (l : Fin 2048) :
    Cert.Val.Pay1.wB x0 x1 x4 b l = wG mem wq lw b (jOf blk l) := by
  unfold Cert.Val.Pay1.wB Cert.Val.Pay1.mnB wG mu mn
  simp only [h0, h1, h4]

theorem nmB_eq_newMemG (mem : Fin 131072 → Fin 128 → EReal) (wq er ad : Fin 512 → Fin 128 → EReal) (lw : Fin 512 → EReal) (blk : Fin 64)
    (x0 : Vec Ideal S2048x128 .f32) (x1 x2 x3 : Vec Ideal S512x128 .bf16) (x4 : Vec Ideal S512x1 .f32)
    (h0 : ∀ l d, x0 (ix2 l d) = mem (jOf blk l) d) (h1 : ∀ b d, x1 (ix2 b d) = wq b d)
    (h2 : ∀ b d, x2 (ix2 b d) = er b d) (h3 : ∀ b d, x3 (ix2 b d) = ad b d) (h4 : ∀ b, x4 (ix2 b 0) = lw b)
    (l : Fin 2048) (d : Fin 128) :
    x0 (ix2 l d) * (one - (∑ b : Fin 512, Cert.Val.Pay1.wB x0 x1 x4 b l * x2 (ix2 b d)) * invB)
        + (∑ b : Fin 512, Cert.Val.Pay1.wB x0 x1 x4 b l * x3 (ix2 b d)) * invB
      = newMemG mem wq er ad lw (jOf blk l) d := by
  unfold newMemG
  simp only [wB_eq_wG mem wq lw blk x0 x1 x4 h0 h1 h4, h0, h2, h3]

end Laws

section Arrays

open Cert.MemSpec

variable (V : (c : Dev nD) → (b : Ref sig .tc) → Buf (Elt Ideal) ((c : Thread nD τ).loc b)) (c : Dev nD)

abbrev memV (j : Fin 131072) (d : Fin 128) : EReal := (V c main_arg1 : S131072x128.Idx → EReal) (ix2 j d)
abbrev wqV (b : Fin 512) (d : Fin 128) : EReal := (V c main_v70 : S512x128.Idx → EReal) (ix2 b d)
abbrev erV (b : Fin 512) (d : Fin 128) : EReal := (V c main_v48 : S512x128.Idx → EReal) (ix2 b d)
abbrev adV (b : Fin 512) (d : Fin 128) : EReal := (V c main_v49 : S512x128.Idx → EReal) (ix2 b d)
abbrev lwV (b : Fin 512) : EReal := (V c main_v65 : S512x1.Idx → EReal) (ix2 b 0)

abbrev xb0 (t : Fin cfg1.N) : Vec Ideal S2048x128 .f32 := iblk1 V c 0 t
abbrev xb1 (t : Fin cfg1.N) : Vec Ideal S512x128 .bf16 := iblk1 V c 1 t
abbrev xb2 (t : Fin cfg1.N) : Vec Ideal S512x128 .bf16 := iblk1 V c 2 t
abbrev xb3 (t : Fin cfg1.N) : Vec Ideal S512x128 .bf16 := iblk1 V c 3 t
abbrev xb4 (t : Fin cfg1.N) : Vec Ideal S512x1 .f32 := iblk1 V c 4 t

theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = t.val
    ∧ win1_6.index t (0 : Fin 2) = t.val ∧ win1_6.index t (1 : Fin 2) = 0 :=
  (by decide +kernel : ∀ t : Fin grid1.N, _)

theorem xb0_apply (t : Fin cfg1.N) (l : Fin 2048) (d : Fin 128) :
    xb0 V c t (ix2 l d) = memV V c (jOf ⟨t.val, lt_of_lt_of_eq t.isLt N_1⟩ l) d := by
  obtain ⟨e0, e1, -⟩ := idx_facts t
  show ((cfg1.win 0).blk t).view.read (Elt Ideal) (V c (Pipeline.arrRef spec1 0)) (ix2 l d) = _
  rw [View.read_apply]
  show (V c main_arg1 : S131072x128.Idx → EReal) _ = (V c main_arg1 : S131072x128.Idx → EReal) _
  refine congrArg _ ?_
  funext a; apply Fin.ext
  match a with
  | ⟨0, _⟩ => show win1_0.index t (0 : Fin 2) * 2048 + 1 * l.val = t.val * 2048 + l.val; rw [e0]; omega
  | ⟨1, _⟩ => show win1_0.index t (1 : Fin 2) * 128 + 1 * d.val = d.val; rw [e1]; omega

theorem xb1_apply (t : Fin cfg1.N) (b : Fin 512) (d : Fin 128) :
    xb1 V c t (ix2 b d) = wqV V c b d := by
  obtain ⟨-, -, e0, e1, -⟩ := idx_facts t
  show ((cfg1.win 1).blk t).view.read (Elt Ideal) (V c (Pipeline.arrRef spec1 1)) (ix2 b d) = _
  rw [View.read_apply]
  show (V c main_v70 : S512x128.Idx → EReal) _ = (V c main_v70 : S512x128.Idx → EReal) _
  refine congrArg _ ?_
  funext a; apply Fin.ext
  match a with
  | ⟨0, _⟩ => show win1_1.index t (0 : Fin 2) * 512 + 1 * b.val = b.val; rw [e0]; omega
  | ⟨1, _⟩ => show win1_1.index t (1 : Fin 2) * 128 + 1 * d.val = d.val; rw [e1]; omega

theorem xb2_apply (t : Fin cfg1.N) (b : Fin 512) (d : Fin 128) :
    xb2 V c t (ix2 b d) = erV V c b d := by
  obtain ⟨-, -, -, -, e0, e1, -⟩ := idx_facts t
  show ((cfg1.win 2).blk t).view.read (Elt Ideal) (V c (Pipeline.arrRef spec1 2)) (ix2 b d) = _
  rw [View.read_apply]
  show (V c main_v48 : S512x128.Idx → EReal) _ = (V c main_v48 : S512x128.Idx → EReal) _
  refine congrArg _ ?_
  funext a; apply Fin.ext
  match a with
  | ⟨0, _⟩ => show win1_2.index t (0 : Fin 2) * 512 + 1 * b.val = b.val; rw [e0]; omega
  | ⟨1, _⟩ => show win1_2.index t (1 : Fin 2) * 128 + 1 * d.val = d.val; rw [e1]; omega

theorem xb3_apply (t : Fin cfg1.N) (b : Fin 512) (d : Fin 128) :
    xb3 V c t (ix2 b d) = adV V c b d := by
  obtain ⟨-, -, -, -, -, -, e0, e1, -⟩ := idx_facts t
  show ((cfg1.win 3).blk t).view.read (Elt Ideal) (V c (Pipeline.arrRef spec1 3)) (ix2 b d) = _
  rw [View.read_apply]
  show (V c main_v49 : S512x128.Idx → EReal) _ = (V c main_v49 : S512x128.Idx → EReal) _
  refine congrArg _ ?_
  funext a; apply Fin.ext
  match a with
  | ⟨0, _⟩ => show win1_3.index t (0 : Fin 2) * 512 + 1 * b.val = b.val; rw [e0]; omega
  | ⟨1, _⟩ => show win1_3.index t (1 : Fin 2) * 128 + 1 * d.val = d.val; rw [e1]; omega

theorem xb4_apply (t : Fin cfg1.N) (b : Fin 512) :
    xb4 V c t (ix2 b 0) = lwV V c b := by
  obtain ⟨-, -, -, -, -, -, -, -, e0, e1, -⟩ := idx_facts t
  show ((cfg1.win 4).blk t).view.read (Elt Ideal) (V c (Pipeline.arrRef spec1 4)) (ix2 b 0) = _
  rw [View.read_apply]
  show (V c main_v65 : S512x1.Idx → EReal) _ = (V c main_v65 : S512x1.Idx → EReal) _
  refine congrArg _ ?_
  funext a; apply Fin.ext
  match a with
  | ⟨0, _⟩ => show win1_4.index t (0 : Fin 2) * 512 + 1 * b.val = b.val; rw [e0]; omega
  | ⟨1, _⟩ => show win1_4.index t (1 : Fin 2) * 1 + 1 * (0 : Fin 1).val = (0 : Fin 1).val; rw [e1]; omega

abbrev G5 : S512x131072.Idx → EReal := fun i => wG (memV V c) (wqV V c) (lwV V c) (i 0) (i 1)

theorem pay5_apply (t : Fin cfg1.N) (y : S512x2048.Idx) :
    k1_pay2 (F := Ideal) (xb0 V c t) (xb1 V c t) (xb4 V c t) y = G5 V c (ix2 (y 0) (jOf ⟨t.val, lt_of_lt_of_eq t.isLt N_1⟩ (y 1))) := by
  obtain ⟨b, l, rfl⟩ : ∃ (b : Fin 512) (l : Fin 2048), y = ix2 b l := ⟨y 0, y 1, eq_ix2 y⟩
  refine (Cert.Val.Pay1.w_apply (xb0 V c t) (xb1 V c t) (xb4 V c t) b l).trans ?_
  exact wB_eq_wG (memV V c) (wqV V c) (lwV V c) ⟨t.val, lt_of_lt_of_eq t.isLt N_1⟩ (xb0 V c t) (xb1 V c t) (xb4 V c t)
    (xb0_apply V c t) (xb1_apply V c t) (xb4_apply V c t) b l

theorem flushed5_eq (t : Fin cfg1.N) :
    (dat1 V c).flushed 5 t = ((cfg1.win 5).blk t).view.read (Elt Ideal) (G5 V c) := by
  show (cfg1.win 5).cut (grid1.coords t) ((dat1 V c).after 5 t) = _
  rw [after1_5]
  obtain ⟨-, -, -, -, -, -, -, -, -, -, e0, e1, -⟩ := idx_facts t
  funext y
  rw [View.read_apply]
  refine (pay5_apply V c t y).trans ?_
  refine congrArg (G5 V c) ?_
  funext a; apply Fin.ext
  match a with
  | ⟨0, _⟩ => show (y 0).val = win1_5.index t (0 : Fin 2) * 512 + 1 * (y 0).val; rw [e0]; omega
  | ⟨1, _⟩ => show t.val * 2048 + (y 1).val = win1_5.index t (1 : Fin 2) * 2048 + 1 * (y 1).val; rw [e1]; omega

theorem mem_blk5 (t : Fin cfg1.N) (i : S512x131072.Idx) :
    i ∈ ((cfg1.win 5).blk t).view.set ↔ ∀ a : Fin 2, win1_5.index t a * S512x2048.size a ≤ (i a).val ∧ (i a).val < win1_5.index t a * S512x2048.size a + S512x2048.size a := by
  show i ∈ ((View.whole main_v71_0).slice (win1_5.rect t)).set ↔ _
  rw [View.set_slice_whole, Rect.mem_set_unit]
  exact Iff.rfl

theorem cover5 (i : S512x131072.Idx) :
    ∃ t : Fin cfg1.N, (cfg1.win 5).flush t = true ∧ i ∈ ((cfg1.win 5).blk t).view.set := by
  have hi0 : (i 0).val < 512 := (i 0).isLt
  have hi1 : (i 1).val < 131072 := (i 1).isLt
  obtain ⟨t, ht⟩ : ∃ t : Fin cfg1.N, t.val = (i 1).val / 2048 := ⟨⟨(i 1).val / 2048, by rw [show cfg1.N = 64 from N_1]; omega⟩, rfl⟩
  obtain ⟨-, -, -, -, -, -, -, -, -, -, e0, e1, -⟩ := idx_facts t
  refine ⟨t, flush1_5 t, ?_⟩
  rw [mem_blk5]
  intro a
  match a with
  | ⟨0, _⟩ => show win1_5.index t (0 : Fin 2) * 512 ≤ (i 0).val ∧ (i 0).val < win1_5.index t (0 : Fin 2) * 512 + 512; rw [e0]; omega
  | ⟨1, _⟩ => show win1_5.index t (1 : Fin 2) * 2048 ≤ (i 1).val ∧ (i 1).val < win1_5.index t (1 : Fin 2) * 2048 + 2048; rw [e1, ht]; omega

theorem final5 : (dat1 V c).arrAt 5 cfg1.N = G5 V c :=
  (dat1 V c).arrAt_eq_of_cover 5 (G5 V c) (fun t _ => flushed5_eq V c t) (cover5)

theorem arr5 (b : Fin 512) (j : Fin 131072) :
    (dat1 (F := Ideal) V c).arrAt 5 cfg1.N (ix2 b j) = wG (memV V c) (wqV V c) (lwV V c) b j := by
  rw [final5]

abbrev G6 : S131072x128.Idx → EReal := fun i => newMemG (memV V c) (wqV V c) (erV V c) (adV V c) (lwV V c) (i 0) (i 1)

theorem pay6_apply (t : Fin cfg1.N) (y : S2048x128.Idx) :
    k1_pay1 (F := Ideal) (xb0 V c t) (k1_pay4 (F := Ideal) (xb0 V c t) (xb1 V c t) (xb4 V c t) (xb3 V c t))
        (k1_pay5 (F := Ideal) (xb0 V c t) (xb1 V c t) (xb4 V c t) (xb2 V c t)) y
      = G6 V c (ix2 (jOf ⟨t.val, lt_of_lt_of_eq t.isLt N_1⟩ (y 0)) (y 1)) := by
  obtain ⟨l, d, rfl⟩ : ∃ (l : Fin 2048) (d : Fin 128), y = ix2 l d := ⟨y 0, y 1, eq_ix2 y⟩
  refine (Cert.Val.Pay1.nm_apply (xb0 V c t) (xb1 V c t) (xb2 V c t) (xb3 V c t) (xb4 V c t) l d).trans ?_
  exact nmB_eq_newMemG (memV V c) (wqV V c) (erV V c) (adV V c) (lwV V c) ⟨t.val, lt_of_lt_of_eq t.isLt N_1⟩
    (xb0 V c t) (xb1 V c t) (xb2 V c t) (xb3 V c t) (xb4 V c t)
    (xb0_apply V c t) (xb1_apply V c t) (xb2_apply V c t) (xb3_apply V c t) (xb4_apply V c t) l d

theorem flushed6_eq (t : Fin cfg1.N) :
    (dat1 V c).flushed 6 t = ((cfg1.win 6).blk t).view.read (Elt Ideal) (G6 V c) := by
  show (cfg1.win 6).cut (grid1.coords t) ((dat1 V c).after 6 t) = _
  rw [after1_6]
  obtain ⟨-, -, -, -, -, -, -, -, -, -, -, -, e0, e1⟩ := idx_facts t
  funext y
  rw [View.read_apply]
  refine (pay6_apply V c t y).trans ?_
  refine congrArg (G6 V c) ?_
  funext a; apply Fin.ext
  match a with
  | ⟨0, _⟩ => show t.val * 2048 + (y 0).val = win1_6.index t (0 : Fin 2) * 2048 + 1 * (y 0).val; rw [e0]; omega
  | ⟨1, _⟩ => show (y 1).val = win1_6.index t (1 : Fin 2) * 128 + 1 * (y 1).val; rw [e1]; omega

theorem mem_blk6 (t : Fin cfg1.N) (i : S131072x128.Idx) :
    i ∈ ((cfg1.win 6).blk t).view.set ↔ ∀ a : Fin 2, win1_6.index t a * S2048x128.size a ≤ (i a).val ∧ (i a).val < win1_6.index t a * S2048x128.size a + S2048x128.size a := by
  show i ∈ ((View.whole main_v71_1).slice (win1_6.rect t)).set ↔ _
  rw [View.set_slice_whole, Rect.mem_set_unit]
  exact Iff.rfl

theorem cover6 (i : S131072x128.Idx) :
    ∃ t : Fin cfg1.N, (cfg1.win 6).flush t = true ∧ i ∈ ((cfg1.win 6).blk t).view.set := by
  have hi0 : (i 0).val < 131072 := (i 0).isLt
  have hi1 : (i 1).val < 128 := (i 1).isLt
  obtain ⟨t, ht⟩ : ∃ t : Fin cfg1.N, t.val = (i 0).val / 2048 := ⟨⟨(i 0).val / 2048, by rw [show cfg1.N = 64 from N_1]; omega⟩, rfl⟩
  obtain ⟨-, -, -, -, -, -, -, -, -, -, -, -, e0, e1⟩ := idx_facts t
  refine ⟨t, flush1_6 t, ?_⟩
  rw [mem_blk6]
  intro a
  match a with
  | ⟨0, _⟩ => show win1_6.index t (0 : Fin 2) * 2048 ≤ (i 0).val ∧ (i 0).val < win1_6.index t (0 : Fin 2) * 2048 + 2048; rw [e0, ht]; omega
  | ⟨1, _⟩ => show win1_6.index t (1 : Fin 2) * 128 ≤ (i 1).val ∧ (i 1).val < win1_6.index t (1 : Fin 2) * 128 + 128; rw [e1]; omega

theorem final6 : (dat1 V c).arrAt 6 cfg1.N = G6 V c :=
  (dat1 V c).arrAt_eq_of_cover 6 (G6 V c) (fun t _ => flushed6_eq V c t) (cover6)

theorem arr6 (j : Fin 131072) (d : Fin 128) :
    (dat1 (F := Ideal) V c).arrAt 6 cfg1.N (ix2 j d) = newMemG (memV V c) (wqV V c) (erV V c) (adV V c) (lwV V c) j d := by
  rw [final6]

end Arrays

end Cert.Val.Arr1

end
-- ==== Proof.Val.KernelHost.lean ====
import proofs.«429040_j74268574482523_3_alg».proof.Proof.Gen.KernelIdeal.Regions
import proofs.«429040_j74268574482523_3_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run

set_option maxRecDepth 1060

noncomputable section

namespace Cert.Val.KernelHost

open Cert.KernelIdeal Cert.KernelIdeal.Gen
open Idealize.ShloMosaic Idealize.ShloMosaic.TcCoe Idealize.ShloMosaic.ValueIdx
open Cert.MemSpec (lo hi one)

variable (m : (ℓ : Loc nD τ sig) → Buf (Elt Ideal) ℓ) (outs : Outs (F := Ideal)) (c : Dev nD)

abbrev v7_4 : FVec Ideal S512x128 .f32 := V7 (F := Ideal) m c (Proc.devRef .tc main_v4)
abbrev v7_9 : FVec Ideal S512x128 .f32 := V7 (F := Ideal) m c (Proc.devRef .tc main_v9)

abbrev v7_15 : FVec Ideal S512x1 .f32 := V7 (F := Ideal) m c (Proc.devRef .tc main_v15)
abbrev v7_35 : FVec Ideal S512x1 .f32 := V7 (F := Ideal) m c (Proc.devRef .tc main_v35)
abbrev v7_38 : FVec Ideal S512x1 .f32 := V7 (F := Ideal) m c (Proc.devRef .tc main_v38)

abbrev v7_26 : FVec Ideal S512x128 .f32 := V7 (F := Ideal) m c (Proc.devRef .tc main_v26)
abbrev v7_32 : FVec Ideal S512x128 .f32 := V7 (F := Ideal) m c (Proc.devRef .tc main_v32)

abbrev v7_48 : FVec Ideal S512x128 .bf16 := V7 (F := Ideal) m c (Proc.devRef .tc main_v48)
abbrev v7_49 : FVec Ideal S512x128 .bf16 := V7 (F := Ideal) m c (Proc.devRef .tc main_v49)

abbrev v7_45 : FVec Ideal S1024x128 .bf16 := V7 (F := Ideal) m c (Proc.devRef .tc main_v45)
abbrev v7_47 : FVec Ideal S1024x1 .f32 := V7 (F := Ideal) m c (Proc.devRef .tc main_v47)

abbrev v7_arg1 : FVec Ideal S131072x128 .f32 := V7 (F := Ideal) m c (Proc.devRef .tc main_arg1)

abbrev v8_50_0 : FVec Ideal S2x512x128 .f32 := V8 (F := Ideal) m outs c (Proc.devRef .tc main_v50_0)
abbrev v8_50_1 : FVec Ideal S2x512x1 .f32 := V8 (F := Ideal) m outs c (Proc.devRef .tc main_v50_1)
abbrev v8_50_2 : FVec Ideal S2x512x1 .f32 := V8 (F := Ideal) m outs c (Proc.devRef .tc main_v50_2)
abbrev v8_45 : FVec Ideal S1024x128 .bf16 := V8 (F := Ideal) m outs c (Proc.devRef .tc main_v45)

abbrev v9_69 : FVec Ideal S512x128 .f32 := V9 (F := Ideal) m outs c (Proc.devRef .tc main_v69)
abbrev v9_65 : FVec Ideal S512x1 .f32 := V9 (F := Ideal) m outs c (Proc.devRef .tc main_v65)
abbrev v9_70 : FVec Ideal S512x128 .bf16 := V9 (F := Ideal) m outs c (Proc.devRef .tc main_v70)
abbrev v9_48 : FVec Ideal S512x128 .bf16 := V9 (F := Ideal) m outs c (Proc.devRef .tc main_v48)
abbrev v9_49 : FVec Ideal S512x128 .bf16 := V9 (F := Ideal) m outs c (Proc.devRef .tc main_v49)
abbrev v9_arg1 : FVec Ideal S131072x128 .f32 := V9 (F := Ideal) m outs c (Proc.devRef .tc main_arg1)

abbrev v10_69 : FVec Ideal S512x128 .f32 := V10 (F := Ideal) m outs c (Proc.devRef .tc main_v69)

section FromAny
variable (W : Valuation τ sig (Elt Ideal))

theorem after6_38 :
    StableHlo.after (hostOps0_6 (F := Ideal)) W (Proc.devRef .tc main_v38)
      = (maximumf (W (Proc.devRef .tc main_v36) : FVec Ideal S512x1 .f32)
          (broadcastInDim S512x1 ![] bcast_S_S512x1 (constant (F := Ideal) S_ .f32 0x322BCC77#32)) : FVec Ideal S512x1 .f32) := by
  after_results

theorem after6_45 :
    StableHlo.after (hostOps0_6 (F := Ideal)) W (Proc.devRef .tc main_v45)
      = (truncf .bf16 (concatenate S1024x128 0
          [⟨S512x128, (mulf (W (Proc.devRef .tc main_v4) : FVec Ideal S512x128 .f32)
              (broadcastInDim S512x128 ![0, 1] bcast_S512x1_S512x128_0_1
                (Host.divf (W (Proc.devRef .tc main_v15) : FVec Ideal S512x1 .f32) (W (Proc.devRef .tc main_v35) : FVec Ideal S512x1 .f32))) : FVec Ideal S512x128 .f32)⟩,
           ⟨S512x128, (Host.divf (W (Proc.devRef .tc main_v9) : FVec Ideal S512x128 .f32)
              (broadcastInDim S512x128 ![0, 1] bcast_S512x1_S512x128_0_1
                (maximumf (W (Proc.devRef .tc main_v36) : FVec Ideal S512x1 .f32)
                  (broadcastInDim S512x1 ![] bcast_S_S512x1 (constant (F := Ideal) S_ .f32 0x322BCC77#32)) : FVec Ideal S512x1 .f32)) : FVec Ideal S512x128 .f32)⟩]
          concatenates_S512x128_S512x128_S1024x128_d0 : FVec Ideal S1024x128 .f32) bitsLt_bf16_f32 : FVec Ideal S1024x128 .bf16) := by
  after_results

theorem after6_47 :
    StableHlo.after (hostOps0_6 (F := Ideal)) W (Proc.devRef .tc main_v47)
      = (concatenate S1024x1 0
          [⟨S512x1, (W (Proc.devRef .tc main_v15) : FVec Ideal S512x1 .f32)⟩,
           ⟨S512x1, (broadcastInDim S512x1 ![] bcast_S_S512x1 (constant (F := Ideal) S_ .f32 0x3F800000#32) : FVec Ideal S512x1 .f32)⟩]
          concatenates_S512x1_S512x1_S1024x1_d0 : FVec Ideal S1024x1 .f32) := by
  after_results

theorem after6_48 :
    StableHlo.after (hostOps0_6 (F := Ideal)) W (Proc.devRef .tc main_v48)
      = (truncf .bf16 (W (Proc.devRef .tc main_v26) : FVec Ideal S512x128 .f32) bitsLt_bf16_f32 : FVec Ideal S512x128 .bf16) := by
  after_results
theorem after6_49 :
    StableHlo.after (hostOps0_6 (F := Ideal)) W (Proc.devRef .tc main_v49)
      = (truncf .bf16 (W (Proc.devRef .tc main_v32) : FVec Ideal S512x128 .f32) bitsLt_bf16_f32 : FVec Ideal S512x128 .bf16) := by
  after_results

abbrev half0 {n : Nat} (X : FVec Ideal ⟨3, ![2, 512, n]⟩ .f32)
    (hs : (⟨3, ![2, 512, n]⟩ : Shape).Slices ![0, 0, 0] ⟨3, ![1, 512, n]⟩)
    (hc : (⟨3, ![1, 512, n]⟩ : Shape).ShapeCasts ⟨2, ![512, n]⟩) : FVec Ideal ⟨2, ![512, n]⟩ .f32 :=
  shapeCast ⟨2, ![512, n]⟩ (extractStridedSlice ⟨3, ![1, 512, n]⟩ ![0, 0, 0] X hs) hc
abbrev half1 {n : Nat} (X : FVec Ideal ⟨3, ![2, 512, n]⟩ .f32)
    (hs : (⟨3, ![2, 512, n]⟩ : Shape).Slices ![1, 0, 0] ⟨3, ![1, 512, n]⟩)
    (hc : (⟨3, ![1, 512, n]⟩ : Shape).ShapeCasts ⟨2, ![512, n]⟩) : FVec Ideal ⟨2, ![512, n]⟩ .f32 :=
  shapeCast ⟨2, ![512, n]⟩ (extractStridedSlice ⟨3, ![1, 512, n]⟩ ![1, 0, 0] X hs) hc

theorem after1_69 :
    StableHlo.after (hostOps1 (F := Ideal)) W (Proc.devRef .tc main_v69)
      = (mulf
          (addf (half0 (W (Proc.devRef .tc main_v50_0)) slices_S2x512x128_S1x512x128_0_0_0 shapeCasts_S1x512x128_S512x128)
                (half1 (W (Proc.devRef .tc main_v50_0)) slices_S2x512x128_S1x512x128_1_0_0 shapeCasts_S1x512x128_S512x128) : FVec Ideal S512x128 .f32)
          (broadcastInDim S512x128 ![0, 1] bcast_S512x1_S512x128_0_1
            (Host.divf (broadcastInDim S512x1 ![] bcast_S_S512x1 (constant (F := Ideal) S_ .f32 0x3F800000#32) : FVec Ideal S512x1 .f32)
              (addf (half0 (W (Proc.devRef .tc main_v50_1)) slices_S2x512x1_S1x512x1_0_0_0 shapeCasts_S1x512x1_S512x1)
                    (half1 (W (Proc.devRef .tc main_v50_1)) slices_S2x512x1_S1x512x1_1_0_0 shapeCasts_S1x512x1_S512x1) : FVec Ideal S512x1 .f32))) : FVec Ideal S512x128 .f32) := by
  after_results_simp
  rfl

theorem after1_65 :
    StableHlo.after (hostOps1 (F := Ideal)) W (Proc.devRef .tc main_v65)
      = (addf (half0 (W (Proc.devRef .tc main_v50_2)) slices_S2x512x1_S1x512x1_0_0_0 shapeCasts_S1x512x1_S512x1)
              (half1 (W (Proc.devRef .tc main_v50_2)) slices_S2x512x1_S1x512x1_1_0_0 shapeCasts_S1x512x1_S512x1) : FVec Ideal S512x1 .f32) := by
  after_results
  rfl

theorem after1_70 :
    StableHlo.after (hostOps1 (F := Ideal)) W (Proc.devRef .tc main_v70)
      = (extractStridedSlice S512x128 ![512, 0] (W (Proc.devRef .tc main_v45) : FVec Ideal S1024x128 .bf16) slices_S1024x128_S512x128_512_0 : FVec Ideal S512x128 .bf16) := by
  after_results

end FromAny

theorem half0_apply {n : Nat} (X : FVec Ideal ⟨3, ![2, 512, n]⟩ .f32)
    (hs : (⟨3, ![2, 512, n]⟩ : Shape).Slices ![0, 0, 0] ⟨3, ![1, 512, n]⟩)
    (hc : (⟨3, ![1, 512, n]⟩ : Shape).ShapeCasts ⟨2, ![512, n]⟩) (i : Fin 512) (j : Fin n) :
    half0 X hs hc (ix2 i j) = X (ix3 0 i j) :=
  (shapeCast_1ab_ab_apply _ hc i j).trans (extractStridedSlice_apply _ X hs _ _ (fun a => by
    match a with
    | ⟨0, _⟩ => rfl
    | ⟨1, _⟩ => exact (Nat.zero_add _).symm
    | ⟨2, _⟩ => exact (Nat.zero_add _).symm))

theorem half1_apply {n : Nat} (X : FVec Ideal ⟨3, ![2, 512, n]⟩ .f32)
    (hs : (⟨3, ![2, 512, n]⟩ : Shape).Slices ![1, 0, 0] ⟨3, ![1, 512, n]⟩)
    (hc : (⟨3, ![1, 512, n]⟩ : Shape).ShapeCasts ⟨2, ![512, n]⟩) (i : Fin 512) (j : Fin n) :
    half1 X hs hc (ix2 i j) = X (ix3 1 i j) :=
  (shapeCast_1ab_ab_apply _ hc i j).trans (extractStridedSlice_apply _ X hs _ _ (fun a => by
    match a with
    | ⟨0, _⟩ => rfl
    | ⟨1, _⟩ => exact (Nat.zero_add _).symm
    | ⟨2, _⟩ => exact (Nat.zero_add _).symm))

theorem bcast_col_apply (x : FVec Ideal S512x1 .f32) (b : Fin 512) (d : Fin 128) :
    broadcastInDim S512x128 ![0, 1] bcast_S512x1_S512x128_0_1 x (ix2 b d) = x (ix2 b 0) :=
  broadcastInDim_apply ![0, 1] bcast_S512x1_S512x128_0_1 x (ix2 b d) (ix2 b 0) (fun a => by
    match a with
    | ⟨0, _⟩ => rfl
    | ⟨1, _⟩ => rfl)

theorem v7_45_eq :
    v7_45 m c = (truncf .bf16 (concatenate S1024x128 0
        [⟨S512x128, (mulf (v7_4 m c) (broadcastInDim S512x128 ![0, 1] bcast_S512x1_S512x128_0_1 (Host.divf (v7_15 m c) (v7_35 m c))) : FVec Ideal S512x128 .f32)⟩,
         ⟨S512x128, (Host.divf (v7_9 m c) (broadcastInDim S512x128 ![0, 1] bcast_S512x1_S512x128_0_1 (v7_38 m c)) : FVec Ideal S512x128 .f32)⟩]
        concatenates_S512x128_S512x128_S1024x128_d0 : FVec Ideal S1024x128 .f32) bitsLt_bf16_f32 : FVec Ideal S1024x128 .bf16) := by
  have h := after6_45 (V6 (F := Ideal) m c)
  rw [← after6_38 (V6 (F := Ideal) m c), ← V7_of m c main_v4 (by decide), ← V7_of m c main_v15 (by decide),
    ← V7_of m c main_v35 (by decide), ← V7_of m c main_v9 (by decide)] at h
  exact h

theorem v7_47_eq :
    v7_47 m c = (concatenate S1024x1 0
        [⟨S512x1, v7_15 m c⟩,
         ⟨S512x1, (broadcastInDim S512x1 ![] bcast_S_S512x1 (constant (F := Ideal) S_ .f32 0x3F800000#32) : FVec Ideal S512x1 .f32)⟩]
        concatenates_S512x1_S512x1_S1024x1_d0 : FVec Ideal S1024x1 .f32) := by
  have h := after6_47 (V6 (F := Ideal) m c)
  rw [← V7_of m c main_v15 (by decide)] at h
  exact h

theorem fq_lo (b : Fin 512) (d : Fin 128) :
    v7_45 m c (ix2 (lo b) d) = v7_4 m c (ix2 b d) * Ideal.div (v7_15 m c (ix2 b 0)) (v7_35 m c (ix2 b 0)) := by
  refine (congrFun (v7_45_eq m c) (ix2 (lo b) d)).trans ?_
  refine (truncf_apply (ψ := .bf16) _ bitsLt_bf16_f32 _).trans ?_
  refine (concatenate_pair_apply_left 0 _ _ concatenates_S512x128_S512x128_S1024x128_d0 (ix2 (lo b) d) rfl (ix2 b d)
    (fun a => by
      match a with
      | ⟨0, _⟩ => rfl
      | ⟨1, _⟩ => rfl)).trans ?_
  refine (mulf_apply _ _ _).trans ?_
  refine congrArg (v7_4 m c (ix2 b d) * ·) ?_
  refine (bcast_col_apply _ b d).trans ?_
  exact hostDivf_apply _ _ _

theorem fq_hi (b : Fin 512) (d : Fin 128) :
    v7_45 m c (ix2 (hi b) d) = Ideal.div (v7_9 m c (ix2 b d)) (v7_38 m c (ix2 b 0)) := by
  refine (congrFun (v7_45_eq m c) (ix2 (hi b) d)).trans ?_
  refine (truncf_apply (ψ := .bf16) _ bitsLt_bf16_f32 _).trans ?_
  refine (concatenate_pair_apply_right 0 _ _ concatenates_S512x128_S512x128_S1024x128_d0 (ix2 (hi b) d) rfl rfl (ix2 b d)
    (fun a ha => by
      match a with
      | ⟨0, _⟩ => exact absurd rfl ha
      | ⟨1, _⟩ => rfl)
    (by show b.val + 512 = 512 + b.val; omega)).trans ?_
  refine (hostDivf_apply _ _ _).trans ?_
  exact congrArg (Ideal.div (v7_9 m c (ix2 b d))) (bcast_col_apply _ b d)

theorem sh_lo (b : Fin 512) : v7_47 m c (ix2 (lo b) 0) = v7_15 m c (ix2 b 0) := by
  refine (congrFun (v7_47_eq m c) (ix2 (lo b) 0)).trans ?_
  exact concatenate_pair_apply_left 0 _ _ concatenates_S512x1_S512x1_S1024x1_d0 (ix2 (lo b) 0) rfl (ix2 b 0)
    (fun a => by
      match a with
      | ⟨0, _⟩ => rfl
      | ⟨1, _⟩ => rfl)
theorem sh_hi (b : Fin 512) : v7_47 m c (ix2 (hi b) 0) = one := by
  refine (congrFun (v7_47_eq m c) (ix2 (hi b) 0)).trans ?_
  refine (concatenate_pair_apply_right 0 _ _ concatenates_S512x1_S512x1_S1024x1_d0 (ix2 (hi b) 0) rfl rfl (ix2 b 0)
    (fun a ha => by
      match a with
      | ⟨0, _⟩ => exact absurd rfl ha
      | ⟨1, _⟩ => rfl)
    (by show b.val + 512 = 512 + b.val; omega)).trans ?_
  exact (broadcastInDim_scalar_apply _ _ _).trans rfl

theorem er_cast : v7_48 m c = v7_26 m c := by
  have h := after6_48 (V6 (F := Ideal) m c)
  rw [← V7_of m c main_v26 (by decide)] at h
  exact h.trans (funext fun i => truncf_apply _ _ i)
theorem ad_cast : v7_49 m c = v7_32 m c := by
  have h := after6_49 (V6 (F := Ideal) m c)
  rw [← V7_of m c main_v32 (by decide)] at h
  exact h.trans (funext fun i => truncf_apply _ _ i)

theorem arg1_7 : v7_arg1 m c = m ((c : Thread nD τ).loc main_arg1) :=
  (V7_of m c main_arg1 (by decide)).trans <| (V6_of m c main_arg1 (by decide)).trans <| (V5_of m c main_arg1 (by decide)).trans <|
    (V4_of m c main_arg1 (by decide)).trans <| (V3_of m c main_arg1 (by decide)).trans <| (V2_of m c main_arg1 (by decide)).trans <|
    (V1_of m c main_arg1 (by decide)).trans rfl

theorem v9_69_eq :
    v9_69 m outs c
      = (mulf
          (addf (half0 (v8_50_0 m outs c) slices_S2x512x128_S1x512x128_0_0_0 shapeCasts_S1x512x128_S512x128)
                (half1 (v8_50_0 m outs c) slices_S2x512x128_S1x512x128_1_0_0 shapeCasts_S1x512x128_S512x128) : FVec Ideal S512x128 .f32)
          (broadcastInDim S512x128 ![0, 1] bcast_S512x1_S512x128_0_1
            (Host.divf (broadcastInDim S512x1 ![] bcast_S_S512x1 (constant (F := Ideal) S_ .f32 0x3F800000#32) : FVec Ideal S512x1 .f32)
              (addf (half0 (v8_50_1 m outs c) slices_S2x512x1_S1x512x1_0_0_0 shapeCasts_S1x512x1_S512x1)
                    (half1 (v8_50_1 m outs c) slices_S2x512x1_S1x512x1_1_0_0 shapeCasts_S1x512x1_S512x1) : FVec Ideal S512x1 .f32))) : FVec Ideal S512x128 .f32) :=
  after1_69 (V8 (F := Ideal) m outs c)
theorem v9_65_eq :
    v9_65 m outs c
      = (addf (half0 (v8_50_2 m outs c) slices_S2x512x1_S1x512x1_0_0_0 shapeCasts_S1x512x1_S512x1)
              (half1 (v8_50_2 m outs c) slices_S2x512x1_S1x512x1_1_0_0 shapeCasts_S1x512x1_S512x1) : FVec Ideal S512x1 .f32) :=
  after1_65 (V8 (F := Ideal) m outs c)
theorem v9_70_eq :
    v9_70 m outs c = (extractStridedSlice S512x128 ![512, 0] (v8_45 m outs c) slices_S1024x128_S512x128_512_0 : FVec Ideal S512x128 .bf16) :=
  after1_70 (V8 (F := Ideal) m outs c)

theorem rv (b : Fin 512) (d : Fin 128) :
    v9_69 m outs c (ix2 b d)
      = (v8_50_0 m outs c (ix3 0 b d) + v8_50_0 m outs c (ix3 1 b d))
          * Ideal.div one (v8_50_1 m outs c (ix3 0 b 0) + v8_50_1 m outs c (ix3 1 b 0)) := by
  refine (congrFun (v9_69_eq m outs c) (ix2 b d)).trans ?_
  refine (mulf_apply _ _ _).trans ?_
  refine congrArg₂ (· * ·) ?_ ?_
  · refine (addf_apply _ _ _).trans ?_
    exact congrArg₂ (· + ·) (half0_apply _ _ _ b d) (half1_apply _ _ _ b d)
  · refine (bcast_col_apply _ b d).trans ?_
    refine (hostDivf_apply _ _ _).trans ?_
    refine congrArg₂ Ideal.div ?_ ?_
    · exact (broadcastInDim_scalar_apply _ _ _).trans rfl
    · refine (addf_apply _ _ _).trans ?_
      exact congrArg₂ (· + ·) (half0_apply _ _ _ b 0) (half1_apply _ _ _ b 0)

theorem lw (b : Fin 512) :
    v9_65 m outs c (ix2 b 0) = v8_50_2 m outs c (ix3 0 b 0) + v8_50_2 m outs c (ix3 1 b 0) := by
  refine (congrFun (v9_65_eq m outs c) (ix2 b 0)).trans ?_
  refine (addf_apply _ _ _).trans ?_
  exact congrArg₂ (· + ·) (half0_apply _ _ _ b 0) (half1_apply _ _ _ b 0)

theorem v8_v45 : v8_45 m outs c = v7_45 m c := V8_of m outs c main_v45 (by decide)

theorem wq_slice (b : Fin 512) (d : Fin 128) : v9_70 m outs c (ix2 b d) = v8_45 m outs c (ix2 (hi b) d) := by
  refine (congrFun (v9_70_eq m outs c) (ix2 b d)).trans ?_
  exact slice2_axis0_apply 512 _ slices_S1024x128_S512x128_512_0 b d (hi b) rfl

theorem v9_v48 : v9_48 m outs c = v7_48 m c :=
  (V9_of m outs c main_v48 (by decide)).trans (V8_of m outs c main_v48 (by decide))
theorem v9_v49 : v9_49 m outs c = v7_49 m c :=
  (V9_of m outs c main_v49 (by decide)).trans (V8_of m outs c main_v49 (by decide))
theorem v9_arg1_eq : v9_arg1 m outs c = v7_arg1 m c :=
  (V9_of m outs c main_arg1 (by decide)).trans (V8_of m outs c main_arg1 (by decide))

theorem v10_v69 : v10_69 m outs c = v9_69 m outs c := V10_of m outs c main_v69 (by decide)

end Cert.Val.KernelHost
-- ==== Proof.Val.SharedKernel.lean ====
import proofs.«429040_j74268574482523_3_alg».proof.Proof.Gen.KernelIdeal.Regions
import proofs.«429040_j74268574482523_3_alg».proof.Proof.Gen.ReferenceIdeal.Read

set_option maxRecDepth 1060

noncomputable section

namespace Cert.Val.SharedKernel

open Idealize.ShloMosaic Idealize.ShloMosaic.TcCoe Idealize.SL.Sem Idealize.ShloMosaic.StableHlo
open Cert.KernelIdeal Cert.KernelIdeal.Gen
open Cert.ReferenceIdeal.Read (val_main_v4 val_main_v42 val_main_v9 val_main_v10 val_main_v77 val_main_v83 val_main_v11 val_main_v13 val_main_v43 val_main_v45)

variable {F : FTy → Type} [FloatOps F]
variable (m : (ℓ : Loc nD τ sig) → Buf (Elt F) ℓ)

theorem V1_arg (c : Dev nD) (r : Ref sig .tc) (h0 : r ∉ hostOps0_W) :
    V1 m c (Proc.devRef .tc r) = m ((c : Thread nD τ).loc r) := V1_of m c r h0
theorem V2_arg (c : Dev nD) (r : Ref sig .tc) (h0 : r ∉ hostOps0_W) (h1 : r ∉ hostOps0_1_W) :
    V2 m c (Proc.devRef .tc r) = m ((c : Thread nD τ).loc r) := (V2_of m c r h1).trans (V1_arg m c r h0)

theorem V1_v4 (c : Dev nD) :
    V1 m c (Proc.devRef .tc main_v4)
      = val_main_v4 (F := F) (m ((c : Thread nD τ).loc main_arg0)) (m ((c : Thread nD τ).loc main_arg2)) (m ((c : Thread nD τ).loc main_arg3)) := by
  show StableHlo.after hostOps0 (V0 m c) (Proc.devRef .tc main_v4) = _
  after_results
  rfl

theorem V1_v9 (c : Dev nD) :
    V1 m c (Proc.devRef .tc main_v9)
      = val_main_v42 (F := F) (m ((c : Thread nD τ).loc main_arg0)) (m ((c : Thread nD τ).loc main_arg4)) (m ((c : Thread nD τ).loc main_arg5)) := by
  show StableHlo.after hostOps0 (V0 m c) (Proc.devRef .tc main_v9) = _
  after_results
  rfl

theorem V1_v14 (c : Dev nD) :
    V1 m c (Proc.devRef .tc main_v14)
      = val_main_v9 (F := F) (m ((c : Thread nD τ).loc main_arg0)) (m ((c : Thread nD τ).loc main_arg6)) (m ((c : Thread nD τ).loc main_arg7)) := by
  show StableHlo.after hostOps0 (V0 m c) (Proc.devRef .tc main_v14) = _
  after_results
  rfl

theorem V2_v15 (c : Dev nD) :
    V2 m c (Proc.devRef .tc main_v15)
      = val_main_v10 (F := F) (m ((c : Thread nD τ).loc main_arg0)) (m ((c : Thread nD τ).loc main_arg6)) (m ((c : Thread nD τ).loc main_arg7)) := by
  show StableHlo.after hostOps0_1 (V1 m c) (Proc.devRef .tc main_v15) = _
  have e := V1_v14 m c
  generalize V1 m c = W at e ⊢
  after_results_simp
  rw [e]
  rfl

theorem V3_v26 (c : Dev nD) :
    V3 m c (Proc.devRef .tc main_v26)
      = val_main_v77 (F := F) (m ((c : Thread nD τ).loc main_arg0)) (m ((c : Thread nD τ).loc main_arg8)) (m ((c : Thread nD τ).loc main_arg9)) := by
  show StableHlo.after hostOps0_2 (V2 m c) (Proc.devRef .tc main_v26) = _
  have e0 := V2_arg m c main_arg0 (by decide) (by decide)
  have e8 := V2_arg m c main_arg8 (by decide) (by decide)
  have e9 := V2_arg m c main_arg9 (by decide) (by decide)
  generalize V2 m c = W at e0 e8 e9 ⊢
  after_results
  rw [e0, e8, e9]
  rfl

theorem V3_v32 (c : Dev nD) :
    V3 m c (Proc.devRef .tc main_v32)
      = val_main_v83 (F := F) (m ((c : Thread nD τ).loc main_arg0)) (m ((c : Thread nD τ).loc main_arg10)) (m ((c : Thread nD τ).loc main_arg11)) := by
  show StableHlo.after hostOps0_2 (V2 m c) (Proc.devRef .tc main_v32) = _
  have e0 := V2_arg m c main_arg0 (by decide) (by decide)
  have e10 := V2_arg m c main_arg10 (by decide) (by decide)
  have e11 := V2_arg m c main_arg11 (by decide) (by decide)
  generalize V2 m c = W at e0 e10 e11 ⊢
  after_results_simp
  rw [e0, e10, e11]
  rfl

theorem V4_v33 (c : Dev nD) :
    V4 m c (Proc.devRef .tc main_v33)
      = val_main_v11 (F := F) (m ((c : Thread nD τ).loc main_arg0)) (m ((c : Thread nD τ).loc main_arg2)) (m ((c : Thread nD τ).loc main_arg3)) := by
  show StableHlo.after hostOps0_3 (V3 m c) (Proc.devRef .tc main_v33) = _
  have e := (V3_of m c main_v4 (by decide)).trans ((V2_of m c main_v4 (by decide)).trans (V1_v4 m c))
  generalize V3 m c = W at e ⊢
  after_results
  rw [e]
  rfl

theorem V5_v35 (c : Dev nD) :
    V5 m c (Proc.devRef .tc main_v35)
      = val_main_v13 (F := F) (m ((c : Thread nD τ).loc main_arg0)) (m ((c : Thread nD τ).loc main_arg2)) (m ((c : Thread nD τ).loc main_arg3)) := by
  show StableHlo.after hostOps0_4 (V4 m c) (Proc.devRef .tc main_v35) = _
  have e := V4_v33 m c
  generalize V4 m c = W at e ⊢
  after_results
  rw [e]
  rfl

theorem V6_v36 (c : Dev nD) :
    V6 m c (Proc.devRef .tc main_v36)
      = val_main_v43 (F := F) (m ((c : Thread nD τ).loc main_arg0)) (m ((c : Thread nD τ).loc main_arg4)) (m ((c : Thread nD τ).loc main_arg5)) := by
  show StableHlo.after hostOps0_5 (V5 m c) (Proc.devRef .tc main_v36) = _
  have e := (V5_of m c main_v9 (by decide)).trans ((V4_of m c main_v9 (by decide)).trans ((V3_of m c main_v9 (by decide)).trans
    ((V2_of m c main_v9 (by decide)).trans (V1_v9 m c))))
  generalize V5 m c = W at e ⊢
  after_results
  rw [e]
  rfl

theorem V7_v38 (c : Dev nD) :
    V7 m c (Proc.devRef .tc main_v38)
      = val_main_v45 (F := F) (m ((c : Thread nD τ).loc main_arg0)) (m ((c : Thread nD τ).loc main_arg4)) (m ((c : Thread nD τ).loc main_arg5)) := by
  show StableHlo.after hostOps0_6 (V6 m c) (Proc.devRef .tc main_v38) = _
  have e := V6_v36 m c
  generalize V6 m c = W at e ⊢
  after_results
  rw [e]
  rfl

theorem v4_eq (c : Dev nD) :
    V7 m c (Proc.devRef .tc main_v4)
      = val_main_v4 (F := F) (m ((c : Thread nD τ).loc main_arg0)) (m ((c : Thread nD τ).loc main_arg2)) (m ((c : Thread nD τ).loc main_arg3)) :=
  (V7_of m c main_v4 (by decide)).trans ((V6_of m c main_v4 (by decide)).trans ((V5_of m c main_v4 (by decide)).trans
    ((V4_of m c main_v4 (by decide)).trans ((V3_of m c main_v4 (by decide)).trans ((V2_of m c main_v4 (by decide)).trans (V1_v4 m c))))))

theorem v9_eq (c : Dev nD) :
    V7 m c (Proc.devRef .tc main_v9)
      = val_main_v42 (F := F) (m ((c : Thread nD τ).loc main_arg0)) (m ((c : Thread nD τ).loc main_arg4)) (m ((c : Thread nD τ).loc main_arg5)) :=
  (V7_of m c main_v9 (by decide)).trans ((V6_of m c main_v9 (by decide)).trans ((V5_of m c main_v9 (by decide)).trans
    ((V4_of m c main_v9 (by decide)).trans ((V3_of m c main_v9 (by decide)).trans ((V2_of m c main_v9 (by decide)).trans (V1_v9 m c))))))

theorem v15_eq (c : Dev nD) :
    V7 m c (Proc.devRef .tc main_v15)
      = val_main_v10 (F := F) (m ((c : Thread nD τ).loc main_arg0)) (m ((c : Thread nD τ).loc main_arg6)) (m ((c : Thread nD τ).loc main_arg7)) :=
  (V7_of m c main_v15 (by decide)).trans ((V6_of m c main_v15 (by decide)).trans ((V5_of m c main_v15 (by decide)).trans
    ((V4_of m c main_v15 (by decide)).trans ((V3_of m c main_v15 (by decide)).trans (V2_v15 m c)))))

theorem v26_eq (c : Dev nD) :
    V7 m c (Proc.devRef .tc main_v26)
      = val_main_v77 (F := F) (m ((c : Thread nD τ).loc main_arg0)) (m ((c : Thread nD τ).loc main_arg8)) (m ((c : Thread nD τ).loc main_arg9)) :=
  (V7_of m c main_v26 (by decide)).trans ((V6_of m c main_v26 (by decide)).trans ((V5_of m c main_v26 (by decide)).trans
    ((V4_of m c main_v26 (by decide)).trans (V3_v26 m c))))

theorem v32_eq (c : Dev nD) :
    V7 m c (Proc.devRef .tc main_v32)
      = val_main_v83 (F := F) (m ((c : Thread nD τ).loc main_arg0)) (m ((c : Thread nD τ).loc main_arg10)) (m ((c : Thread nD τ).loc main_arg11)) :=
  (V7_of m c main_v32 (by decide)).trans ((V6_of m c main_v32 (by decide)).trans ((V5_of m c main_v32 (by decide)).trans
    ((V4_of m c main_v32 (by decide)).trans (V3_v32 m c))))

theorem v35_eq (c : Dev nD) :
    V7 m c (Proc.devRef .tc main_v35)
      = val_main_v13 (F := F) (m ((c : Thread nD τ).loc main_arg0)) (m ((c : Thread nD τ).loc main_arg2)) (m ((c : Thread nD τ).loc main_arg3)) :=
  (V7_of m c main_v35 (by decide)).trans ((V6_of m c main_v35 (by decide)).trans (V5_v35 m c))

theorem v38_eq (c : Dev nD) :
    V7 m c (Proc.devRef .tc main_v38)
      = val_main_v45 (F := F) (m ((c : Thread nD τ).loc main_arg0)) (m ((c : Thread nD τ).loc main_arg4)) (m ((c : Thread nD τ).loc main_arg5)) :=
  V7_v38 m c

end Cert.Val.SharedKernel

end
-- ==== Proof.Val.KernelValue.lean ====
import proofs.«429040_j74268574482523_3_alg».proof.Proof.KI.Regs
import proofs.«429040_j74268574482523_3_alg».proof.Proof.Val.Arr0
import proofs.«429040_j74268574482523_3_alg».proof.Proof.Val.Arr1
import proofs.«429040_j74268574482523_3_alg».proof.Proof.Val.KernelHost
import proofs.«429040_j74268574482523_3_alg».proof.Proof.Val.SharedKernel
import proofs.«429040_j74268574482523_3_alg».proof.Proof.Gen.ReferenceIdeal.Read
import proofs.«429040_j74268574482523_3_alg».proof.Proof.Spec
import Idealize.ShloMosaic.Lib.ValueIdx

noncomputable section

namespace Cert.Val.KernelValue

open Idealize.ShloMosaic Idealize.ShloMosaic.ValueIdx

section Forms

open Cert.MemSpec

variable {memG mem : Fin 131072 → Fin 128 → EReal} {fq : Fin 1024 → Fin 128 → EReal} {sh : Fin 1024 → EReal}
  {rq wq er ad wqa era ada : Fin 512 → Fin 128 → EReal} {ks qnr qnw lw : Fin 512 → EReal}

theorem pG_lo (hmem : memG = mem) (hfq : ∀ b d, fq (lo b) d = fqR rq ks qnr b d) (hsh : ∀ b, sh (lo b) = ks b)
    (b : Fin 512) (j : Fin 131072) : pG memG fq sh (lo b) j = pR mem rq ks qnr b j := by
  subst hmem
  simp only [pG, simG, pR, simKR, hfq, hsh]

theorem pG_hi (hmem : memG = mem) (hfq : ∀ b d, fq (hi b) d = fqW wq qnw b d) (hsh : ∀ b, sh (hi b) = one)
    (b : Fin 512) (j : Fin 131072) : pG memG fq sh (hi b) j = pW mem wq qnw b j := by
  subst hmem
  simp only [pG, simG, pW, simKW, hfq, hsh]

theorem accPartG_eq (hmem : memG = mem) (hfq : ∀ b d, fq (lo b) d = fqR rq ks qnr b d) (hsh : ∀ b, sh (lo b) = ks b)
    (p : Fin 2) (b : Fin 512) (d : Fin 128) : accPartG memG fq sh p b d = accPart mem rq ks qnr p b d := by
  simp only [accPartG, accBlkG, accPart, accBlk, pG_lo hmem hfq hsh]
  subst hmem
  rfl

theorem lPartG_lo (hmem : memG = mem) (hfq : ∀ b d, fq (lo b) d = fqR rq ks qnr b d) (hsh : ∀ b, sh (lo b) = ks b)
    (p : Fin 2) (b : Fin 512) : lPartG memG fq sh p (lo b) = lPartR mem rq ks qnr p b := by
  simp only [lPartG, lBlkG, lPartR, lBlkR, pG_lo hmem hfq hsh]

theorem lPartG_hi (hmem : memG = mem) (hfq : ∀ b d, fq (hi b) d = fqW wq qnw b d) (hsh : ∀ b, sh (hi b) = one)
    (p : Fin 2) (b : Fin 512) : lPartG memG fq sh p (hi b) = lPartW mem wq qnw p b := by
  simp only [lPartG, lBlkG, lPartW, lBlkW, pG_hi hmem hfq hsh]

theorem wG_eq (hmem : memG = mem) (hwq : ∀ b d, wqa b d = fqW wq qnw b d) (hlw : ∀ b, lw b = lKW mem wq qnw b)
    (b : Fin 512) (j : Fin 131072) : wG memG wqa lw b j = wK mem wq qnw b j := by
  subst hmem
  simp only [wG, wK, pW, simKW, hwq, hlw]

theorem newMemG_eq (hmem : memG = mem) (hwq : ∀ b d, wqa b d = fqW wq qnw b d) (hlw : ∀ b, lw b = lKW mem wq qnw b)
    (her : era = er) (had : ada = ad) (j : Fin 131072) (d : Fin 128) :
    newMemG memG wqa era ada lw j d = newMemK mem wq er ad qnw j d := by
  simp only [newMemG, newMemK, eraseMeanK, addMeanK, wG_eq hmem hwq hlw]
  subst hmem her had
  rfl

end Forms

open Cert.KernelIdeal Cert.KernelIdeal.Gen Cert.KernelIdeal.Hand
open Idealize.ShloMosaic.TcCoe
open Cert.MemSpec (lo hi one)
open Cert.Val.KernelHost

variable (m : (ℓ : Loc nD τ sig) → Buf (Elt Ideal) ℓ) (c : Dev nD)

abbrev a0 : (⟨S512x1024, .f32⟩ : BufTy).Contents (Elt Ideal) := m ((c.tc : Thread nD τ).loc main_arg0)
abbrev a1 : (⟨S131072x128, .f32⟩ : BufTy).Contents (Elt Ideal) := m ((c.tc : Thread nD τ).loc main_arg1)
abbrev a2 : (⟨S128x1024, .f32⟩ : BufTy).Contents (Elt Ideal) := m ((c.tc : Thread nD τ).loc main_arg2)
abbrev a3 : (⟨S128, .f32⟩ : BufTy).Contents (Elt Ideal) := m ((c.tc : Thread nD τ).loc main_arg3)
abbrev a4 : (⟨S128x1024, .f32⟩ : BufTy).Contents (Elt Ideal) := m ((c.tc : Thread nD τ).loc main_arg4)
abbrev a5 : (⟨S128, .f32⟩ : BufTy).Contents (Elt Ideal) := m ((c.tc : Thread nD τ).loc main_arg5)
abbrev a6 : (⟨S1x1024, .f32⟩ : BufTy).Contents (Elt Ideal) := m ((c.tc : Thread nD τ).loc main_arg6)
abbrev a7 : (⟨S1, .f32⟩ : BufTy).Contents (Elt Ideal) := m ((c.tc : Thread nD τ).loc main_arg7)
abbrev a8 : (⟨S128x1024, .f32⟩ : BufTy).Contents (Elt Ideal) := m ((c.tc : Thread nD τ).loc main_arg8)
abbrev a9 : (⟨S128, .f32⟩ : BufTy).Contents (Elt Ideal) := m ((c.tc : Thread nD τ).loc main_arg9)
abbrev a10 : (⟨S128x1024, .f32⟩ : BufTy).Contents (Elt Ideal) := m ((c.tc : Thread nD τ).loc main_arg10)
abbrev a11 : (⟨S128, .f32⟩ : BufTy).Contents (Elt Ideal) := m ((c.tc : Thread nD τ).loc main_arg11)

abbrev memF (j : Fin 131072) (d : Fin 128) : EReal := a1 m c (ix2 j d)

abbrev rq (b : Fin 512) (d : Fin 128) : EReal :=
  Cert.ReferenceIdeal.Read.val_main_v4 (F := Ideal) (a0 m c) (a2 m c) (a3 m c) (ix2 b d)
abbrev wq (b : Fin 512) (d : Fin 128) : EReal :=
  Cert.ReferenceIdeal.Read.val_main_v42 (F := Ideal) (a0 m c) (a4 m c) (a5 m c) (ix2 b d)
abbrev ks (b : Fin 512) : EReal :=
  Cert.ReferenceIdeal.Read.val_main_v10 (F := Ideal) (a0 m c) (a6 m c) (a7 m c) (ix2 b (0 : Fin 1))
abbrev er (b : Fin 512) (d : Fin 128) : EReal :=
  Cert.ReferenceIdeal.Read.val_main_v77 (F := Ideal) (a0 m c) (a8 m c) (a9 m c) (ix2 b d)
abbrev ad (b : Fin 512) (d : Fin 128) : EReal :=
  Cert.ReferenceIdeal.Read.val_main_v83 (F := Ideal) (a0 m c) (a10 m c) (a11 m c) (ix2 b d)
abbrev qnr (b : Fin 512) : EReal :=
  Cert.ReferenceIdeal.Read.val_main_v13 (F := Ideal) (a0 m c) (a2 m c) (a3 m c) (ix2 b (0 : Fin 1))
abbrev qnw (b : Fin 512) : EReal :=
  Cert.ReferenceIdeal.Read.val_main_v45 (F := Ideal) (a0 m c) (a4 m c) (a5 m c) (ix2 b (0 : Fin 1))

abbrev v10_71_0 : FVec Ideal S512x131072 .f32 := V10 (F := Ideal) m (outs m) c (Proc.devRef .tc main_v71_0)
abbrev v10_71_1 : FVec Ideal S131072x128 .f32 := V10 (F := Ideal) m (outs m) c (Proc.devRef .tc main_v71_1)

theorem mem7 : (fun (j : Fin 131072) (d : Fin 128) => v7_arg1 m c (ix2 j d)) = memF m c :=
  funext fun j => funext fun d => congrFun (arg1_7 m c) (ix2 j d)

theorem fq7_lo (b : Fin 512) (d : Fin 128) :
    v7_45 m c (ix2 (lo b) d) = Cert.MemSpec.fqR (rq m c) (ks m c) (qnr m c) b d := by
  rw [fq_lo]
  show v7_4 m c (ix2 b d) * Ideal.div (v7_15 m c (ix2 b 0)) (v7_35 m c (ix2 b 0)) = rq m c b d * Ideal.div (ks m c b) (qnr m c b)
  rw [show v7_4 m c = _ from Cert.Val.SharedKernel.v4_eq m c, show v7_15 m c = _ from Cert.Val.SharedKernel.v15_eq m c,
    show v7_35 m c = _ from Cert.Val.SharedKernel.v35_eq m c]

theorem fq7_hi (b : Fin 512) (d : Fin 128) :
    v7_45 m c (ix2 (hi b) d) = Cert.MemSpec.fqW (wq m c) (qnw m c) b d := by
  rw [fq_hi]
  show Ideal.div (v7_9 m c (ix2 b d)) (v7_38 m c (ix2 b 0)) = Ideal.div (wq m c b d) (qnw m c b)
  rw [show v7_9 m c = _ from Cert.Val.SharedKernel.v9_eq m c, show v7_38 m c = _ from Cert.Val.SharedKernel.v38_eq m c]

theorem sh7_lo (b : Fin 512) : v7_47 m c (ix2 (lo b) 0) = ks m c b := by
  rw [sh_lo, show v7_15 m c = _ from Cert.Val.SharedKernel.v15_eq m c]
theorem sh7_hi (b : Fin 512) : v7_47 m c (ix2 (hi b) 0) = one := sh_hi m c b

theorem acc_half (p : Fin 2) (b : Fin 512) (d : Fin 128) :
    v8_50_0 m (outs m) c (ix3 p b d) = Cert.MemSpec.accPart (memF m c) (rq m c) (ks m c) (qnr m c) p b d :=
  ((congrFun (outs8_0 m c) (ix3 p b d)).trans (Cert.Val.Arr0.arr3 (V7' m) c p b d)).trans
    (accPartG_eq (mem7 m c) (fq7_lo m c) (sh7_lo m c) p b d)

theorem lR_half (p : Fin 2) (b : Fin 512) :
    v8_50_1 m (outs m) c (ix3 p b 0) = Cert.MemSpec.lPartR (memF m c) (rq m c) (ks m c) (qnr m c) p b :=
  ((congrFun (outs8_1 m c) (ix3 p b 0)).trans (Cert.Val.Arr0.arr4 (V7' m) c p b)).trans
    (lPartG_lo (mem7 m c) (fq7_lo m c) (sh7_lo m c) p b)

theorem lW_half (p : Fin 2) (b : Fin 512) :
    v8_50_2 m (outs m) c (ix3 p b 0) = Cert.MemSpec.lPartW (memF m c) (wq m c) (qnw m c) p b :=
  ((congrFun (outs8_2 m c) (ix3 p b 0)).trans (Cert.Val.Arr0.arr5 (V7' m) c p b)).trans
    (lPartG_hi (mem7 m c) (fq7_hi m c) (sh7_hi m c) p b)

theorem kv69 (b : Fin 512) (d : Fin 128) :
    v10_69 m (outs m) c (ix2 b d) = Cert.MemSpec.readVecK (memF m c) (rq m c) (ks m c) (qnr m c) b d := by
  rw [show v10_69 m (outs m) c = v9_69 m (outs m) c from v10_v69 m (outs m) c, rv, acc_half, acc_half, lR_half, lR_half]
  rfl

theorem mem9 : (fun (j : Fin 131072) (d : Fin 128) => v9_arg1 m (outs m) c (ix2 j d)) = memF m c := by
  rw [show v9_arg1 m (outs m) c = v7_arg1 m c from v9_arg1_eq m (outs m) c]
  exact mem7 m c

theorem wq9 (b : Fin 512) (d : Fin 128) :
    v9_70 m (outs m) c (ix2 b d) = Cert.MemSpec.fqW (wq m c) (qnw m c) b d := by
  rw [wq_slice, show v8_45 m (outs m) c = v7_45 m c from v8_v45 m (outs m) c, fq7_hi]

theorem lw9 (b : Fin 512) :
    v9_65 m (outs m) c (ix2 b 0) = Cert.MemSpec.lKW (memF m c) (wq m c) (qnw m c) b := by
  rw [lw, lW_half, lW_half]
  rfl

theorem er9 : (fun (b : Fin 512) (d : Fin 128) => v9_48 m (outs m) c (ix2 b d)) = er m c := by
  rw [show v9_48 m (outs m) c = v7_48 m c from v9_v48 m (outs m) c, show v7_48 m c = v7_26 m c from er_cast m c,
    show v7_26 m c = _ from Cert.Val.SharedKernel.v26_eq m c]
theorem ad9 : (fun (b : Fin 512) (d : Fin 128) => v9_49 m (outs m) c (ix2 b d)) = ad m c := by
  rw [show v9_49 m (outs m) c = v7_49 m c from v9_v49 m (outs m) c, show v7_49 m c = v7_32 m c from ad_cast m c,
    show v7_32 m c = _ from Cert.Val.SharedKernel.v32_eq m c]

theorem kv71_0 (b : Fin 512) (j : Fin 131072) :
    v10_71_0 m c (ix2 b j) = Cert.MemSpec.wK (memF m c) (wq m c) (qnw m c) b j :=
  ((congrFun (outs10_0 m c) (ix2 b j)).trans (Cert.Val.Arr1.arr5 (V9' m) c b j)).trans
    (wG_eq (mem9 m c) (wq9 m c) (lw9 m c) b j)

theorem kv71_1 (j : Fin 131072) (d : Fin 128) :
    v10_71_1 m c (ix2 j d) = Cert.MemSpec.newMemK (memF m c) (wq m c) (er m c) (ad m c) (qnw m c) j d :=
  ((congrFun (outs10_1 m c) (ix2 j d)).trans (Cert.Val.Arr1.arr6 (V9' m) c j d)).trans
    (newMemG_eq (mem9 m c) (wq9 m c) (lw9 m c) (er9 m c) (ad9 m c) j d)

end Cert.Val.KernelValue

end
-- ==== Proof.Val.Algebraic.lean ====
import proofs.«429040_j74268574482523_3_alg».proof.Defs
import proofs.«429040_j74268574482523_3_alg».proof.Proof.Gen.KernelIdeal
import proofs.«429040_j74268574482523_3_alg».proof.Proof.Gen.ReferenceIdeal
import proofs.«429040_j74268574482523_3_alg».proof.Proof.Gen.Pre_finite_inputs
import proofs.«429040_j74268574482523_3_alg».proof.Proof.Gen.ReferenceIdeal.Run
import proofs.«429040_j74268574482523_3_alg».proof.Proof.Gen.ReferenceIdeal.Read
import proofs.«429040_j74268574482523_3_alg».proof.Proof.KI.Regs
import proofs.«429040_j74268574482523_3_alg».proof.Proof.Spec
import proofs.«429040_j74268574482523_3_alg».proof.Proof.Val.Algebra
import proofs.«429040_j74268574482523_3_alg».proof.Proof.Val.Finite
import proofs.«429040_j74268574482523_3_alg».proof.Proof.Val.SharedReal
import proofs.«429040_j74268574482523_3_alg».proof.Proof.Val.RefValue
import proofs.«429040_j74268574482523_3_alg».proof.Proof.Val.KernelValue
import Idealize.ShloMosaic.Lib.ValueIdx

noncomputable section

namespace Cert.Val.Algebraic

open Idealize.ShloMosaic Idealize.ShloMosaic.ValueIdx Idealize.SL.Sem

section Sims

open Cert.MemSpec

variable {mem : Fin 131072 → Fin 128 → EReal} {q : Fin 512 → Fin 128 → EReal} {ks qn : Fin 512 → EReal}

theorem simRR_real (hmem : Real2 mem) (hq : Real2 q) (hks : Real1 ks) (hqn : Pos1 qn) (b : Fin 512) (j : Fin 131072) :
    ∃ r : ℝ, simRR mem q ks qn b j = (r : EReal) := by
  obtain ⟨g, hg⟩ := hmem
  obtain ⟨q', hq'⟩ := hq
  obtain ⟨k, hk⟩ := hks
  obtain ⟨n, hn⟩ := hqn
  obtain ⟨ε, hε, heps⟩ := eps_pos
  exact ⟨_, simRR_coe hg heps hε hq' hk (fun b => (hn b).2) (fun b => (hn b).1) b j⟩

theorem simRW_real (hmem : Real2 mem) (hq : Real2 q) (hqn : Pos1 qn) (b : Fin 512) (j : Fin 131072) :
    ∃ r : ℝ, simRW mem q qn b j = (r : EReal) := by
  obtain ⟨g, hg⟩ := hmem
  obtain ⟨q', hq'⟩ := hq
  obtain ⟨n, hn⟩ := hqn
  obtain ⟨ε, hε, heps⟩ := eps_pos
  exact ⟨_, simRW_coe hg heps hε hq' (fun b => (hn b).2) (fun b => (hn b).1) b j⟩

end Sims

section Results

open Cert.KernelIdeal Cert.KernelIdeal.Gen Cert.KernelIdeal.Hand
open Cert.Val.KernelValue Cert.Val.KernelHost
open Cert.MemSpec (Real1 Real2 Pos1)

variable (m : (ℓ : Loc nD τ sig) → Buf (Elt Ideal) ℓ) (hpre : Cert.Pre_KernelIdeal m) (c : Dev nD)
include hpre

theorem mem_real : Real2 (memF m c) :=
  Cert.Val.SharedReal.real2_of fun j d => (Cert.Val.Finite.args_real m hpre c).2.1 (ix2 j d)

theorem rq_real : Real2 (rq m c) :=
  have h := Cert.Val.Finite.args_real m hpre c
  Cert.Val.SharedReal.rq_real h.1 h.2.2.1 h.2.2.2.1
theorem wq_real : Real2 (wq m c) :=
  have h := Cert.Val.Finite.args_real m hpre c
  Cert.Val.SharedReal.wq_real h.1 h.2.2.2.2.1 h.2.2.2.2.2.1
theorem ks_real : Real1 (ks m c) :=
  have h := Cert.Val.Finite.args_real m hpre c
  Cert.Val.SharedReal.ks_real h.1 h.2.2.2.2.2.2.1 h.2.2.2.2.2.2.2.1
theorem er_real : Real2 (er m c) :=
  have h := Cert.Val.Finite.args_real m hpre c
  Cert.Val.SharedReal.er_real h.1 h.2.2.2.2.2.2.2.2.1 h.2.2.2.2.2.2.2.2.2.1
theorem ad_real : Real2 (ad m c) :=
  have h := Cert.Val.Finite.args_real m hpre c
  Cert.Val.SharedReal.ad_real h.1 h.2.2.2.2.2.2.2.2.2.2.1 h.2.2.2.2.2.2.2.2.2.2.2
theorem qnr_pos : Pos1 (qnr m c) :=
  have h := Cert.Val.Finite.args_real m hpre c
  Cert.Val.SharedReal.qnr_pos h.1 h.2.2.1 h.2.2.2.1
theorem qnw_pos : Pos1 (qnw m c) :=
  have h := Cert.Val.Finite.args_real m hpre c
  Cert.Val.SharedReal.qnw_pos h.1 h.2.2.2.2.1 h.2.2.2.2.2.1

theorem mxr_real : Real1 (Cert.Val.RefValue.mxr (a0 m c) (a1 m c) (a2 m c) (a3 m c) (a6 m c) (a7 m c)) :=
  Cert.Val.RefValue.mxr_real (a0 m c) (a1 m c) (a2 m c) (a3 m c) (a6 m c) (a7 m c)
    (simRR_real (mem_real m hpre c) (rq_real m hpre c) (ks_real m hpre c) (qnr_pos m hpre c))
theorem mxw_real : Real1 (Cert.Val.RefValue.mxw (a0 m c) (a1 m c) (a4 m c) (a5 m c)) :=
  Cert.Val.RefValue.mxw_real (a0 m c) (a1 m c) (a4 m c) (a5 m c)
    (simRW_real (mem_real m hpre c) (wq_real m hpre c) (qnw_pos m hpre c))

theorem result0 :
    Cert.ReferenceIdeal.Read.val_main_v37 (F := Ideal) (a0 m c) (a1 m c) (a2 m c) (a3 m c) (a6 m c) (a7 m c)
      = v10_69 m (outs m) c := by
  funext i
  obtain ⟨b, d, rfl⟩ : ∃ (b : Fin 512) (d : Fin 128), i = ix2 b d := ⟨i 0, i 1, eq_ix2 i⟩
  rw [Cert.Val.RefValue.readVec_ref, kv69]
  exact (congrFun (congrFun (Cert.MemSpec.readVec_eq (mem_real m hpre c) (rq_real m hpre c) (ks_real m hpre c)
    (qnr_pos m hpre c) (mxr_real m hpre c)) b) d).symm

theorem result1 :
    Cert.ReferenceIdeal.Read.val_main_v66 (F := Ideal) (a0 m c) (a1 m c) (a4 m c) (a5 m c) = v10_71_0 m c := by
  funext i
  obtain ⟨b, j, rfl⟩ : ∃ (b : Fin 512) (j : Fin 131072), i = ix2 b j := ⟨i 0, i 1, eq_ix2 i⟩
  rw [Cert.Val.RefValue.w_ref, kv71_0]
  exact (congrFun (congrFun (Cert.MemSpec.w_eq (mem_real m hpre c) (wq_real m hpre c) (qnw_pos m hpre c)
    (mxw_real m hpre c)) b) j).symm

theorem result2 :
    Cert.ReferenceIdeal.Read.val_main_v95 (F := Ideal) (a0 m c) (a1 m c) (a4 m c) (a5 m c) (a8 m c) (a9 m c) (a10 m c) (a11 m c)
      = v10_71_1 m c := by
  funext i
  obtain ⟨j, d, rfl⟩ : ∃ (j : Fin 131072) (d : Fin 128), i = ix2 j d := ⟨i 0, i 1, eq_ix2 i⟩
  rw [Cert.Val.RefValue.newMem_ref, kv71_1]
  exact (congrFun (congrFun (Cert.MemSpec.newMem_eq (mem_real m hpre c) (wq_real m hpre c) (er_real m hpre c)
    (ad_real m hpre c) (qnw_pos m hpre c) (mxw_real m hpre c)) j) d).symm

end Results

open Cert.KernelIdeal.Hand in

theorem algebraic : Cert.algebraic_KernelIdeal_ReferenceIdeal := by
  intro m ρ m' ρ' hpre hagree
  refine ⟨fun c => Cert.KernelIdeal.Gen.V10 (F := Ideal) m (outs m) c (Proc.devRef .tc Cert.KernelIdeal.main_v69),
    fun c => Cert.KernelIdeal.Gen.V10 (F := Ideal) m (outs m) c (Proc.devRef .tc Cert.KernelIdeal.main_v71_0),
    fun c => Cert.KernelIdeal.Gen.V10 (F := Ideal) m (outs m) c (Proc.devRef .tc Cert.KernelIdeal.main_v71_1),
    run_values (F := Ideal) m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · obtain ⟨e0, e1, e2, e3, e4, e5, e6, e7, e8, e9, e10, e11⟩ := hagree c
    rw [Cert.ReferenceIdeal.Read.val_main_v37_eq, e0, e1, e2, e3, e6, e7]
    exact result0 m hpre c
  · obtain ⟨e0, e1, e2, e3, e4, e5, e6, e7, e8, e9, e10, e11⟩ := hagree c
    rw [Cert.ReferenceIdeal.Read.val_main_v66_eq, e0, e1, e4, e5]
    exact result1 m hpre c
  · obtain ⟨e0, e1, e2, e3, e4, e5, e6, e7, e8, e9, e10, e11⟩ := hagree c
    rw [Cert.ReferenceIdeal.Read.val_main_v95_eq, e0, e1, e4, e5, e8, e9, e10, e11]
    exact result2 m hpre c

end Cert.Val.Algebraic

end
-- ==== Proof.lean ====
import proofs.«429040_j74268574482523_3_alg».proof.Defs
import proofs.«429040_j74268574482523_3_alg».proof.Proof.Gen.Kernel
import proofs.«429040_j74268574482523_3_alg».proof.Proof.Gen.KernelIdeal
import proofs.«429040_j74268574482523_3_alg».proof.Proof.Gen.ReferenceIdeal
import proofs.«429040_j74268574482523_3_alg».proof.Proof.Gen.Pre_finite_inputs
import proofs.«429040_j74268574482523_3_alg».proof.Proof.Gen.ReferenceIdeal.Run
import proofs.«429040_j74268574482523_3_alg».proof.Proof.K.Regs
import proofs.«429040_j74268574482523_3_alg».proof.Proof.KI.Regs
import proofs.«429040_j74268574482523_3_alg».proof.Proof.Val.Algebraic
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, Cert.Val.Algebraic.algebraic⟩

end Cert.Proof

end
